-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 4, 4] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 4, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x1024x1024 : Shape := ⟨3, ![1, 1024, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel

variable [Facts]

def fn {F : FTy → Type} [FloatOps F] (main_arg0 : FVec F S1x1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  main_v3
-- ==== Pre_finite_inputs_ReferenceIdeal.lean ====
abbrev S2x1024x1024 : Shape := ⟨3, ![2, 1024, 1024]⟩
abbrev S_ : Shape := ⟨0, ![]⟩

class Facts : Prop where
  bcast_S_S2x1024x1024 : S_.BroadcastsInDim S2x1024x1024 (![] : Fin 0 → Fin S2x1024x1024.rank)
  reducesTo_S2x1024x1024_S_d0_1_2 : S2x1024x1024.ReducesTo [0, 1, 2] S_
  h_S_ : 0 < S_.numel

variable [Facts]

def fn {F : FTy → Type} [FloatOps F] (main_arg0 : FVec F S2x1024x1024 .f32) : IVec S_ 1 :=
  let main_v0 : FVec F S2x1024x1024 .f32 := Host.absf main_arg0
  let main_cst : FVec F S_ .f32 := constant S_ .f32 0x7F800000#32
  let main_v1 : FVec F S2x1024x1024 .f32 := broadcastInDim S2x1024x1024 ![] bcast_S_S2x1024x1024 main_cst
  let main_v2 : IVec S2x1024x1024 1 := cmpf .olt main_v0 main_v1
  let main_c : IVec S_ 1 := constantI S_ 1 1#1
  let main_v3 : IVec S_ 1 := (fun x v => Host.reduce IntOp.andi x v reducesTo_S2x1024x1024_S_d0_1_2 h_S_) main_v2 main_c
  main_v3
-- ==== Kernel.lean ====
abbrev S1x1024x1024 : Shape := ⟨3, ![1, 1024, 1024]⟩
abbrev S1024x512 : Shape := ⟨2, ![1024, 512]⟩
abbrev S7x128x256 : Shape := ⟨3, ![7, 128, 256]⟩
abbrev S128x512 : Shape := ⟨2, ![128, 512]⟩
abbrev S8x128x512 : Shape := ⟨3, ![8, 128, 512]⟩
abbrev S7 : Shape := ⟨1, ![7]⟩
abbrev S_ : Shape := ⟨0, ![]⟩
abbrev S8 : Shape := ⟨1, ![8]⟩
abbrev S1x1024x512 : Shape := ⟨3, ![1, 1024, 512]⟩
abbrev S1 : Shape := ⟨1, ![1]⟩
abbrev S1x128x256 : Shape := ⟨3, ![1, 128, 256]⟩
abbrev S128x256 : Shape := ⟨2, ![128, 256]⟩
abbrev S1x128x512 : Shape := ⟨3, ![1, 128, 512]⟩

abbrev nBuf : Space → Nat
  | .hbm => 2
  | .vmem => 9
  | .smem => 0
  | _ => 0

abbrev bufTy : (tb : Table) → Fin (tcTables nBuf tb) → BufTy
  | .hbm, ⟨0, _⟩ => ⟨S1x1024x1024, .f32⟩
  | .hbm, ⟨1, _⟩ => ⟨S1024x512, .f32⟩
  | .local _ .vmem, ⟨0, _⟩ => ⟨S7x128x256, .f32⟩
  | .local _ .vmem, ⟨1, _⟩ => ⟨S128x512, .f32⟩
  | .local _ .vmem, ⟨2, _⟩ => ⟨S1024x512, .f32⟩
  | .local _ .vmem, ⟨3, _⟩ => ⟨S8x128x512, .f32⟩
  | .local _ .vmem, ⟨4, _⟩ => ⟨S7x128x256, .bf16⟩
  | .local _ .vmem, ⟨5, _⟩ => ⟨S128x512, .bf16⟩
  | .local _ .vmem, ⟨6, _⟩ => ⟨S7x128x256, .bf16⟩
  | .local _ .vmem, ⟨7, _⟩ => ⟨S128x512, .bf16⟩
  | .local _ .vmem, ⟨8, _⟩ => ⟨S7x128x256, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  (ofTc nBuf bufTy 1 47 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev barrier0 : Sem sig := 0

abbrev nD : Nat := 32
abbrev τ : Topo := Topo.v7x

variable {F : FTy → Type} [FloatOps F]

abbrev grid0 : Pipeline.Grid := .none

def k0_off1 (d0 : Dev nD) : Fin 3 → Nat :=
  let c0_i32_13 : BitVec 32 := 0#32
  let c0_i32_14 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_12 : BitVec 32 := 512#32
  let v27 : BitVec 32 := Scalar.muli v2 c512_i32_12
  ![0, 0, v27.toNat]
def k0_off2 (d0 : Dev nD) : Fin 3 → Nat :=
  let c0_i32_15 : BitVec 32 := 0#32
  let c0_i32_20 : BitVec 32 := 0#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v21 : BitVec 32 := Scalar.subi c1_i32_9 v2
  let c512_i32 : BitVec 32 := 512#32
  let v22 : BitVec 32 := Scalar.muli v21 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v5 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c256_i32 : BitVec 32 := 256#32
  let v23 : BitVec 32 := Scalar.muli v20 c256_i32
  let v24 : BitVec 32 := Scalar.addi v22 v23
  ![0, 0, v24.toNat]
def k0_off3 (d0 : Dev nD) : Fin 3 → Nat :=
  let c0_i32_21 : BitVec 32 := 0#32
  let c128_i32 : BitVec 32 := 128#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v21 : BitVec 32 := Scalar.subi c1_i32_9 v2
  let c512_i32 : BitVec 32 := 512#32
  let v22 : BitVec 32 := Scalar.muli v21 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v5 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c256_i32 : BitVec 32 := 256#32
  let v23 : BitVec 32 := Scalar.muli v20 c256_i32
  let v24 : BitVec 32 := Scalar.addi v22 v23
  ![0, 128, v24.toNat]
def k0_off4 (d0 : Dev nD) : Fin 3 → Nat :=
  let c0_i32_26 : BitVec 32 := 0#32
  let c256_i32_31 : BitVec 32 := 256#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v21 : BitVec 32 := Scalar.subi c1_i32_9 v2
  let c512_i32 : BitVec 32 := 512#32
  let v22 : BitVec 32 := Scalar.muli v21 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v5 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c256_i32 : BitVec 32 := 256#32
  let v23 : BitVec 32 := Scalar.muli v20 c256_i32
  let v24 : BitVec 32 := Scalar.addi v22 v23
  ![0, 256, v24.toNat]
def k0_off5 (d0 : Dev nD) : Fin 3 → Nat :=
  let c0_i32_32 : BitVec 32 := 0#32
  let c384_i32 : BitVec 32 := 384#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v21 : BitVec 32 := Scalar.subi c1_i32_9 v2
  let c512_i32 : BitVec 32 := 512#32
  let v22 : BitVec 32 := Scalar.muli v21 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v5 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c256_i32 : BitVec 32 := 256#32
  let v23 : BitVec 32 := Scalar.muli v20 c256_i32
  let v24 : BitVec 32 := Scalar.addi v22 v23
  ![0, 384, v24.toNat]
def k0_off6 (d0 : Dev nD) : Fin 3 → Nat :=
  let c0_i32_36 : BitVec 32 := 0#32
  let c512_i32_41 : BitVec 32 := 512#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v21 : BitVec 32 := Scalar.subi c1_i32_9 v2
  let c512_i32 : BitVec 32 := 512#32
  let v22 : BitVec 32 := Scalar.muli v21 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v5 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c256_i32 : BitVec 32 := 256#32
  let v23 : BitVec 32 := Scalar.muli v20 c256_i32
  let v24 : BitVec 32 := Scalar.addi v22 v23
  ![0, 512, v24.toNat]
def k0_off7 (d0 : Dev nD) : Fin 3 → Nat :=
  let c0_i32_42 : BitVec 32 := 0#32
  let c640_i32 : BitVec 32 := 640#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v21 : BitVec 32 := Scalar.subi c1_i32_9 v2
  let c512_i32 : BitVec 32 := 512#32
  let v22 : BitVec 32 := Scalar.muli v21 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v5 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c256_i32 : BitVec 32 := 256#32
  let v23 : BitVec 32 := Scalar.muli v20 c256_i32
  let v24 : BitVec 32 := Scalar.addi v22 v23
  ![0, 640, v24.toNat]
def k0_off8 (d0 : Dev nD) : Fin 3 → Nat :=
  let c0_i32_46 : BitVec 32 := 0#32
  let c768_i32 : BitVec 32 := 768#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v21 : BitVec 32 := Scalar.subi c1_i32_9 v2
  let c512_i32 : BitVec 32 := 512#32
  let v22 : BitVec 32 := Scalar.muli v21 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v5 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c256_i32 : BitVec 32 := 256#32
  let v23 : BitVec 32 := Scalar.muli v20 c256_i32
  let v24 : BitVec 32 := Scalar.addi v22 v23
  ![0, 768, v24.toNat]
def k0_off9 (d0 : Dev nD) : Fin 3 → Nat :=
  let c0_i32_50 : BitVec 32 := 0#32
  let c896_i32 : BitVec 32 := 896#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v25 : BitVec 32 := Scalar.subi c1_i32_10 v2
  let c512_i32_11 : BitVec 32 := 512#32
  let v26 : BitVec 32 := Scalar.muli v25 c512_i32_11
  ![0, 896, v26.toNat]
def k0_dev1 (d0 : Dev nD) : Nat :=
  let c0_i32_64 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_63 : BitVec 32 := 16#32
  let v87 : BitVec 32 := Scalar.muli v9 c16_i32_63
  let v88 : BitVec 32 := Scalar.addi c0_i32_64 v87
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_65 : BitVec 32 := 4#32
  let v89 : BitVec 32 := Scalar.muli v5 c4_i32_65
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_66 : BitVec 32 := 1#32
  let v91 : BitVec 32 := Scalar.muli v8 c1_i32_66
  let v92 : BitVec 32 := Scalar.addi v90 v91
  v92.toNat
def k0_dev2 (d0 : Dev nD) : Nat :=
  let c0_i32_69 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_68 : BitVec 32 := 16#32
  let v93 : BitVec 32 := Scalar.muli v2 c16_i32_68
  let v94 : BitVec 32 := Scalar.addi c0_i32_69 v93
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_70 : BitVec 32 := 4#32
  let v95 : BitVec 32 := Scalar.muli v10 c4_i32_70
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v97 : BitVec 32 := Scalar.muli v8 c1_i32_71
  let v98 : BitVec 32 := Scalar.addi v96 v97
  v98.toNat
def k0_dev3 (d0 : Dev nD) : Nat :=
  let c0_i32_78 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_77 : BitVec 32 := 16#32
  let v99 : BitVec 32 := Scalar.muli v9 c16_i32_77
  let v100 : BitVec 32 := Scalar.addi c0_i32_78 v99
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_79 : BitVec 32 := 4#32
  let v101 : BitVec 32 := Scalar.muli v5 c4_i32_79
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_80 : BitVec 32 := 1#32
  let v103 : BitVec 32 := Scalar.muli v8 c1_i32_80
  let v104 : BitVec 32 := Scalar.addi v102 v103
  v104.toNat
def k0_dev4 (d0 : Dev nD) : Nat :=
  let c0_i32_101 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_100 : BitVec 32 := 16#32
  let v125 : BitVec 32 := Scalar.muli v9 c16_i32_100
  let v126 : BitVec 32 := Scalar.addi c0_i32_101 v125
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_102 : BitVec 32 := 4#32
  let v127 : BitVec 32 := Scalar.muli v5 c4_i32_102
  let v128 : BitVec 32 := Scalar.addi v126 v127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v129 : BitVec 32 := Scalar.muli v8 c1_i32_103
  let v130 : BitVec 32 := Scalar.addi v128 v129
  v130.toNat
def k0_dev5 (d0 : Dev nD) : Nat :=
  let c0_i32_124 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_123 : BitVec 32 := 16#32
  let v151 : BitVec 32 := Scalar.muli v9 c16_i32_123
  let v152 : BitVec 32 := Scalar.addi c0_i32_124 v151
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_125 : BitVec 32 := 4#32
  let v153 : BitVec 32 := Scalar.muli v5 c4_i32_125
  let v154 : BitVec 32 := Scalar.addi v152 v153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_126 : BitVec 32 := 1#32
  let v155 : BitVec 32 := Scalar.muli v8 c1_i32_126
  let v156 : BitVec 32 := Scalar.addi v154 v155
  v156.toNat
def k0_dev6 (d0 : Dev nD) : Nat :=
  let c0_i32_147 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_146 : BitVec 32 := 16#32
  let v177 : BitVec 32 := Scalar.muli v9 c16_i32_146
  let v178 : BitVec 32 := Scalar.addi c0_i32_147 v177
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_148 : BitVec 32 := 4#32
  let v179 : BitVec 32 := Scalar.muli v5 c4_i32_148
  let v180 : BitVec 32 := Scalar.addi v178 v179
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v181 : BitVec 32 := Scalar.muli v8 c1_i32_149
  let v182 : BitVec 32 := Scalar.addi v180 v181
  v182.toNat
def k0_dev7 (d0 : Dev nD) : Nat :=
  let c0_i32_170 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_169 : BitVec 32 := 16#32
  let v203 : BitVec 32 := Scalar.muli v9 c16_i32_169
  let v204 : BitVec 32 := Scalar.addi c0_i32_170 v203
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_171 : BitVec 32 := 4#32
  let v205 : BitVec 32 := Scalar.muli v5 c4_i32_171
  let v206 : BitVec 32 := Scalar.addi v204 v205
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_172 : BitVec 32 := 1#32
  let v207 : BitVec 32 := Scalar.muli v8 c1_i32_172
  let v208 : BitVec 32 := Scalar.addi v206 v207
  v208.toNat
def k0_dev8 (d0 : Dev nD) : Nat :=
  let c0_i32_193 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_192 : BitVec 32 := 16#32
  let v229 : BitVec 32 := Scalar.muli v9 c16_i32_192
  let v230 : BitVec 32 := Scalar.addi c0_i32_193 v229
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_194 : BitVec 32 := 4#32
  let v231 : BitVec 32 := Scalar.muli v5 c4_i32_194
  let v232 : BitVec 32 := Scalar.addi v230 v231
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_195 : BitVec 32 := 1#32
  let v233 : BitVec 32 := Scalar.muli v8 c1_i32_195
  let v234 : BitVec 32 := Scalar.addi v232 v233
  v234.toNat
def k0_dev9 (d0 : Dev nD) : Nat :=
  let c0_i32_216 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_215 : BitVec 32 := 16#32
  let v255 : BitVec 32 := Scalar.muli v9 c16_i32_215
  let v256 : BitVec 32 := Scalar.addi c0_i32_216 v255
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_217 : BitVec 32 := 4#32
  let v257 : BitVec 32 := Scalar.muli v5 c4_i32_217
  let v258 : BitVec 32 := Scalar.addi v256 v257
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_218 : BitVec 32 := 1#32
  let v259 : BitVec 32 := Scalar.muli v8 c1_i32_218
  let v260 : BitVec 32 := Scalar.addi v258 v259
  v260.toNat
def k0_dev10 (d0 : Dev nD) : Nat :=
  let c0_i32_230 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_229 : BitVec 32 := 16#32
  let v276 : BitVec 32 := Scalar.muli v9 c16_i32_229
  let v277 : BitVec 32 := Scalar.addi c0_i32_230 v276
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_231 : BitVec 32 := 4#32
  let v278 : BitVec 32 := Scalar.muli v5 c4_i32_231
  let v279 : BitVec 32 := Scalar.addi v277 v278
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v280 : BitVec 32 := Scalar.muli v8 c1_i32_232
  let v281 : BitVec 32 := Scalar.addi v279 v280
  v281.toNat
def k0_dev11 (d0 : Dev nD) : Nat :=
  let c0_i32_252 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_251 : BitVec 32 := 16#32
  let v296 : BitVec 32 := Scalar.muli v2 c16_i32_251
  let v297 : BitVec 32 := Scalar.addi c0_i32_252 v296
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_253 : BitVec 32 := 4#32
  let v298 : BitVec 32 := Scalar.muli v10 c4_i32_253
  let v299 : BitVec 32 := Scalar.addi v297 v298
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_254 : BitVec 32 := 1#32
  let v300 : BitVec 32 := Scalar.muli v8 c1_i32_254
  let v301 : BitVec 32 := Scalar.addi v299 v300
  v301.toNat
def k0_dev12 (d0 : Dev nD) : Nat :=
  let c0_i32_280 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_279 : BitVec 32 := 16#32
  let v328 : BitVec 32 := Scalar.muli v2 c16_i32_279
  let v329 : BitVec 32 := Scalar.addi c0_i32_280 v328
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_281 : BitVec 32 := 4#32
  let v330 : BitVec 32 := Scalar.muli v10 c4_i32_281
  let v331 : BitVec 32 := Scalar.addi v329 v330
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_282 : BitVec 32 := 1#32
  let v332 : BitVec 32 := Scalar.muli v8 c1_i32_282
  let v333 : BitVec 32 := Scalar.addi v331 v332
  v333.toNat
def k0_dev13 (d0 : Dev nD) : Nat :=
  let c0_i32_308 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_307 : BitVec 32 := 16#32
  let v360 : BitVec 32 := Scalar.muli v2 c16_i32_307
  let v361 : BitVec 32 := Scalar.addi c0_i32_308 v360
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_309 : BitVec 32 := 4#32
  let v362 : BitVec 32 := Scalar.muli v10 c4_i32_309
  let v363 : BitVec 32 := Scalar.addi v361 v362
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_310 : BitVec 32 := 1#32
  let v364 : BitVec 32 := Scalar.muli v8 c1_i32_310
  let v365 : BitVec 32 := Scalar.addi v363 v364
  v365.toNat
def k0_dev14 (d0 : Dev nD) : Nat :=
  let c0_i32_336 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_335 : BitVec 32 := 16#32
  let v392 : BitVec 32 := Scalar.muli v2 c16_i32_335
  let v393 : BitVec 32 := Scalar.addi c0_i32_336 v392
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_337 : BitVec 32 := 4#32
  let v394 : BitVec 32 := Scalar.muli v10 c4_i32_337
  let v395 : BitVec 32 := Scalar.addi v393 v394
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_338 : BitVec 32 := 1#32
  let v396 : BitVec 32 := Scalar.muli v8 c1_i32_338
  let v397 : BitVec 32 := Scalar.addi v395 v396
  v397.toNat
def k0_dev15 (d0 : Dev nD) : Nat :=
  let c0_i32_364 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_363 : BitVec 32 := 16#32
  let v424 : BitVec 32 := Scalar.muli v2 c16_i32_363
  let v425 : BitVec 32 := Scalar.addi c0_i32_364 v424
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_365 : BitVec 32 := 4#32
  let v426 : BitVec 32 := Scalar.muli v10 c4_i32_365
  let v427 : BitVec 32 := Scalar.addi v425 v426
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_366 : BitVec 32 := 1#32
  let v428 : BitVec 32 := Scalar.muli v8 c1_i32_366
  let v429 : BitVec 32 := Scalar.addi v427 v428
  v429.toNat
def k0_dev16 (d0 : Dev nD) : Nat :=
  let c0_i32_392 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_391 : BitVec 32 := 16#32
  let v456 : BitVec 32 := Scalar.muli v2 c16_i32_391
  let v457 : BitVec 32 := Scalar.addi c0_i32_392 v456
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_393 : BitVec 32 := 4#32
  let v458 : BitVec 32 := Scalar.muli v10 c4_i32_393
  let v459 : BitVec 32 := Scalar.addi v457 v458
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_394 : BitVec 32 := 1#32
  let v460 : BitVec 32 := Scalar.muli v8 c1_i32_394
  let v461 : BitVec 32 := Scalar.addi v459 v460
  v461.toNat
def k0_dev17 (d0 : Dev nD) : Nat :=
  let c0_i32_420 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_419 : BitVec 32 := 16#32
  let v488 : BitVec 32 := Scalar.muli v2 c16_i32_419
  let v489 : BitVec 32 := Scalar.addi c0_i32_420 v488
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v10 : BitVec 32 := Scalar.xori v5 c1_i32_3
  let c4_i32_421 : BitVec 32 := 4#32
  let v490 : BitVec 32 := Scalar.muli v10 c4_i32_421
  let v491 : BitVec 32 := Scalar.addi v489 v490
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_422 : BitVec 32 := 1#32
  let v492 : BitVec 32 := Scalar.muli v8 c1_i32_422
  let v493 : BitVec 32 := Scalar.addi v491 v492
  v493.toNat

class Facts₀ : Prop where
  squeezes_S1x1024x512_S1024x512 : S1x1024x512.Squeezes S1024x512
  inb_S7_S1_0 : ∀ a, (![0] : Fin 1 → Nat) a + S1.size a ≤ S7.size a
  squeezes_S1_S_ : S1.Squeezes S_
  inb_S7x128x256_S1x128x256_0_0_0 : ∀ a, (![0, 0, 0] : Fin 3 → Nat) a + S1x128x256.size a ≤ S7x128x256.size a
  squeezes_S1x128x256_S128x256 : S1x128x256.Squeezes S128x256
  inb_S7_S1_1 : ∀ a, (![1] : Fin 1 → Nat) a + S1.size a ≤ S7.size a
  inb_S7x128x256_S1x128x256_1_0_0 : ∀ a, (![1, 0, 0] : Fin 3 → Nat) a + S1x128x256.size a ≤ S7x128x256.size a
  inb_S7_S1_2 : ∀ a, (![2] : Fin 1 → Nat) a + S1.size a ≤ S7.size a
  inb_S7x128x256_S1x128x256_2_0_0 : ∀ a, (![2, 0, 0] : Fin 3 → Nat) a + S1x128x256.size a ≤ S7x128x256.size a
  inb_S7_S1_3 : ∀ a, (![3] : Fin 1 → Nat) a + S1.size a ≤ S7.size a
  inb_S7x128x256_S1x128x256_3_0_0 : ∀ a, (![3, 0, 0] : Fin 3 → Nat) a + S1x128x256.size a ≤ S7x128x256.size a
  inb_S7_S1_4 : ∀ a, (![4] : Fin 1 → Nat) a + S1.size a ≤ S7.size a
  inb_S7x128x256_S1x128x256_4_0_0 : ∀ a, (![4, 0, 0] : Fin 3 → Nat) a + S1x128x256.size a ≤ S7x128x256.size a
  inb_S7_S1_5 : ∀ a, (![5] : Fin 1 → Nat) a + S1.size a ≤ S7.size a
  inb_S7x128x256_S1x128x256_5_0_0 : ∀ a, (![5, 0, 0] : Fin 3 → Nat) a + S1x128x256.size a ≤ S7x128x256.size a
  inb_S7_S1_6 : ∀ a, (![6] : Fin 1 → Nat) a + S1.size a ≤ S7.size a
  inb_S7x128x256_S1x128x256_6_0_0 : ∀ a, (![6, 0, 0] : Fin 3 → Nat) a + S1x128x256.size a ≤ S7x128x256.size a
  squeezes_S1x128x512_S128x512 : S1x128x512.Squeezes S128x512
  h_S1x128x256 : 0 < S1x128x256.numel
  shapeCasts_S1x128x256_S128x256 : S1x128x256.ShapeCasts S128x256
  bitsLt_bf16_f32 : FTy.bits .bf16 < FTy.bits .f32
  shapeCasts_S128x256_S1x128x256 : S128x256.ShapeCasts S1x128x256
  packedbf16_S7x128x256_S1x128x256_0_0_0 : (Rect.unit (s := S7x128x256) ![0, 0, 0] S1x128x256.size inb_S7x128x256_S1x128x256_0_0_0).PackedRows (EltTy.packing .bf16)
  hamt_1 : (1#32 : BitVec 32).msb = false
  hamt_2 : (2#32 : BitVec 32).msb = false
  wordsbf16_S7x128x256_S1x128x256_0_0_0 : (Rect.unit (s := S7x128x256) ![0, 0, 0] S1x128x256.size inb_S7x128x256_S1x128x256_0_0_0).WholeWords (EltTy.packing .bf16)
  packedbf16_S7x128x256_S1x128x256_1_0_0 : (Rect.unit (s := S7x128x256) ![1, 0, 0] S1x128x256.size inb_S7x128x256_S1x128x256_1_0_0).PackedRows (EltTy.packing .bf16)
  wordsbf16_S7x128x256_S1x128x256_1_0_0 : (Rect.unit (s := S7x128x256) ![1, 0, 0] S1x128x256.size inb_S7x128x256_S1x128x256_1_0_0).WholeWords (EltTy.packing .bf16)
  packedbf16_S7x128x256_S1x128x256_2_0_0 : (Rect.unit (s := S7x128x256) ![2, 0, 0] S1x128x256.size inb_S7x128x256_S1x128x256_2_0_0).PackedRows (EltTy.packing .bf16)
  wordsbf16_S7x128x256_S1x128x256_2_0_0 : (Rect.unit (s := S7x128x256) ![2, 0, 0] S1x128x256.size inb_S7x128x256_S1x128x256_2_0_0).WholeWords (EltTy.packing .bf16)
  packedbf16_S7x128x256_S1x128x256_3_0_0 : (Rect.unit (s := S7x128x256) ![3, 0, 0] S1x128x256.size inb_S7x128x256_S1x128x256_3_0_0).PackedRows (EltTy.packing .bf16)
  wordsbf16_S7x128x256_S1x128x256_3_0_0 : (Rect.unit (s := S7x128x256) ![3, 0, 0] S1x128x256.size inb_S7x128x256_S1x128x256_3_0_0).WholeWords (EltTy.packing .bf16)
  packedbf16_S7x128x256_S1x128x256_4_0_0 : (Rect.unit (s := S7x128x256) ![4, 0, 0] S1x128x256.size inb_S7x128x256_S1x128x256_4_0_0).PackedRows (EltTy.packing .bf16)
  wordsbf16_S7x128x256_S1x128x256_4_0_0 : (Rect.unit (s := S7x128x256) ![4, 0, 0] S1x128x256.size inb_S7x128x256_S1x128x256_4_0_0).WholeWords (EltTy.packing .bf16)
  packedbf16_S7x128x256_S1x128x256_5_0_0 : (Rect.unit (s := S7x128x256) ![5, 0, 0] S1x128x256.size inb_S7x128x256_S1x128x256_5_0_0).PackedRows (EltTy.packing .bf16)
  wordsbf16_S7x128x256_S1x128x256_5_0_0 : (Rect.unit (s := S7x128x256) ![5, 0, 0] S1x128x256.size inb_S7x128x256_S1x128x256_5_0_0).WholeWords (EltTy.packing .bf16)
  packedbf16_S7x128x256_S1x128x256_6_0_0 : (Rect.unit (s := S7x128x256) ![6, 0, 0] S1x128x256.size inb_S7x128x256_S1x128x256_6_0_0).PackedRows (EltTy.packing .bf16)
  wordsbf16_S7x128x256_S1x128x256_6_0_0 : (Rect.unit (s := S7x128x256) ![6, 0, 0] S1x128x256.size inb_S7x128x256_S1x128x256_6_0_0).WholeWords (EltTy.packing .bf16)
  inb_S128x512_S128x512_0_0 : ∀ a, (![0, 0] : Fin 2 → Nat) a + S128x512.size a ≤ S128x512.size a
  h_S128x512 : 0 < S128x512.numel
  shapeCasts_S128x512_S128x512 : S128x512.ShapeCasts S128x512
  packedbf16_S128x512_S128x512_0_0 : (Rect.unit (s := S128x512) ![0, 0] S128x512.size inb_S128x512_S128x512_0_0).PackedRows (EltTy.packing .bf16)
  inb_S1024x512_S128x256_0_0 : ∀ a, (![0, 0] : Fin 2 → Nat) a + S128x256.size a ≤ S1024x512.size a
  h_S128x256 : 0 < S128x256.numel
  inb_S8x128x512_S1x128x256_0_0_0 : ∀ a, (![0, 0, 0] : Fin 3 → Nat) a + S1x128x256.size a ≤ S8x128x512.size a
  inb_S1024x512_S128x256_0_256 : ∀ a, (![0, 256] : Fin 2 → Nat) a + S128x256.size a ≤ S1024x512.size a
  inb_S8x128x512_S1x128x256_0_0_256 : ∀ a, (![0, 0, 256] : Fin 3 → Nat) a + S1x128x256.size a ≤ S8x128x512.size a
  inb_S1024x512_S128x256_128_0 : ∀ a, (![128, 0] : Fin 2 → Nat) a + S128x256.size a ≤ S1024x512.size a
  inb_S8x128x512_S1x128x256_1_0_0 : ∀ a, (![1, 0, 0] : Fin 3 → Nat) a + S1x128x256.size a ≤ S8x128x512.size a
  inb_S1024x512_S128x256_128_256 : ∀ a, (![128, 256] : Fin 2 → Nat) a + S128x256.size a ≤ S1024x512.size a
  inb_S8x128x512_S1x128x256_1_0_256 : ∀ a, (![1, 0, 256] : Fin 3 → Nat) a + S1x128x256.size a ≤ S8x128x512.size a
  inb_S1024x512_S128x256_256_0 : ∀ a, (![256, 0] : Fin 2 → Nat) a + S128x256.size a ≤ S1024x512.size a
  inb_S8x128x512_S1x128x256_2_0_0 : ∀ a, (![2, 0, 0] : Fin 3 → Nat) a + S1x128x256.size a ≤ S8x128x512.size a
  inb_S1024x512_S128x256_256_256 : ∀ a, (![256, 256] : Fin 2 → Nat) a + S128x256.size a ≤ S1024x512.size a
  inb_S8x128x512_S1x128x256_2_0_256 : ∀ a, (![2, 0, 256] : Fin 3 → Nat) a + S1x128x256.size a ≤ S8x128x512.size a
  inb_S1024x512_S128x256_384_0 : ∀ a, (![384, 0] : Fin 2 → Nat) a + S128x256.size a ≤ S1024x512.size a
  inb_S8x128x512_S1x128x256_3_0_0 : ∀ a, (![3, 0, 0] : Fin 3 → Nat) a + S1x128x256.size a ≤ S8x128x512.size a
  inb_S1024x512_S128x256_384_256 : ∀ a, (![384, 256] : Fin 2 → Nat) a + S128x256.size a ≤ S1024x512.size a
  inb_S8x128x512_S1x128x256_3_0_256 : ∀ a, (![3, 0, 256] : Fin 3 → Nat) a + S1x128x256.size a ≤ S8x128x512.size a
  inb_S1024x512_S128x256_512_0 : ∀ a, (![512, 0] : Fin 2 → Nat) a + S128x256.size a ≤ S1024x512.size a
  inb_S8x128x512_S1x128x256_4_0_0 : ∀ a, (![4, 0, 0] : Fin 3 → Nat) a + S1x128x256.size a ≤ S8x128x512.size a
  inb_S1024x512_S128x256_512_256 : ∀ a, (![512, 256] : Fin 2 → Nat) a + S128x256.size a ≤ S1024x512.size a
  inb_S8x128x512_S1x128x256_4_0_256 : ∀ a, (![4, 0, 256] : Fin 3 → Nat) a + S1x128x256.size a ≤ S8x128x512.size a
  inb_S1024x512_S128x256_640_0 : ∀ a, (![640, 0] : Fin 2 → Nat) a + S128x256.size a ≤ S1024x512.size a
  inb_S8x128x512_S1x128x256_5_0_0 : ∀ a, (![5, 0, 0] : Fin 3 → Nat) a + S1x128x256.size a ≤ S8x128x512.size a
  inb_S1024x512_S128x256_640_256 : ∀ a, (![640, 256] : Fin 2 → Nat) a + S128x256.size a ≤ S1024x512.size a
  inb_S8x128x512_S1x128x256_5_0_256 : ∀ a, (![5, 0, 256] : Fin 3 → Nat) a + S1x128x256.size a ≤ S8x128x512.size a
  inb_S1024x512_S128x256_768_0 : ∀ a, (![768, 0] : Fin 2 → Nat) a + S128x256.size a ≤ S1024x512.size a
  inb_S8x128x512_S1x128x256_6_0_0 : ∀ a, (![6, 0, 0] : Fin 3 → Nat) a + S1x128x256.size a ≤ S8x128x512.size a
  inb_S1024x512_S128x256_768_256 : ∀ a, (![768, 256] : Fin 2 → Nat) a + S128x256.size a ≤ S1024x512.size a
  inb_S8x128x512_S1x128x256_6_0_256 : ∀ a, (![6, 0, 256] : Fin 3 → Nat) a + S1x128x256.size a ≤ S8x128x512.size a
  inb_S8_S1_0 : ∀ a, (![0] : Fin 1 → Nat) a + S1.size a ≤ S8.size a
  inb_S1024x512_S128x512_0_0 : ∀ a, (![0, 0] : Fin 2 → Nat) a + S128x512.size a ≤ S1024x512.size a
  inb_S8x128x512_S1x128x512_0_0_0 : ∀ a, (![0, 0, 0] : Fin 3 → Nat) a + S1x128x512.size a ≤ S8x128x512.size a
  inb_S8_S1_1 : ∀ a, (![1] : Fin 1 → Nat) a + S1.size a ≤ S8.size a
  inb_S1024x512_S128x512_128_0 : ∀ a, (![128, 0] : Fin 2 → Nat) a + S128x512.size a ≤ S1024x512.size a
  inb_S8x128x512_S1x128x512_1_0_0 : ∀ a, (![1, 0, 0] : Fin 3 → Nat) a + S1x128x512.size a ≤ S8x128x512.size a
  inb_S8_S1_2 : ∀ a, (![2] : Fin 1 → Nat) a + S1.size a ≤ S8.size a
  inb_S1024x512_S128x512_256_0 : ∀ a, (![256, 0] : Fin 2 → Nat) a + S128x512.size a ≤ S1024x512.size a
  inb_S8x128x512_S1x128x512_2_0_0 : ∀ a, (![2, 0, 0] : Fin 3 → Nat) a + S1x128x512.size a ≤ S8x128x512.size a
  inb_S8_S1_3 : ∀ a, (![3] : Fin 1 → Nat) a + S1.size a ≤ S8.size a
  inb_S1024x512_S128x512_384_0 : ∀ a, (![384, 0] : Fin 2 → Nat) a + S128x512.size a ≤ S1024x512.size a
  inb_S8x128x512_S1x128x512_3_0_0 : ∀ a, (![3, 0, 0] : Fin 3 → Nat) a + S1x128x512.size a ≤ S8x128x512.size a
  inb_S8_S1_4 : ∀ a, (![4] : Fin 1 → Nat) a + S1.size a ≤ S8.size a
  inb_S1024x512_S128x512_512_0 : ∀ a, (![512, 0] : Fin 2 → Nat) a + S128x512.size a ≤ S1024x512.size a
  inb_S8x128x512_S1x128x512_4_0_0 : ∀ a, (![4, 0, 0] : Fin 3 → Nat) a + S1x128x512.size a ≤ S8x128x512.size a
  inb_S8_S1_5 : ∀ a, (![5] : Fin 1 → Nat) a + S1.size a ≤ S8.size a
  inb_S1024x512_S128x512_640_0 : ∀ a, (![640, 0] : Fin 2 → Nat) a + S128x512.size a ≤ S1024x512.size a
  inb_S8x128x512_S1x128x512_5_0_0 : ∀ a, (![5, 0, 0] : Fin 3 → Nat) a + S1x128x512.size a ≤ S8x128x512.size a
  inb_S8_S1_6 : ∀ a, (![6] : Fin 1 → Nat) a + S1.size a ≤ S8.size a
  inb_S1024x512_S128x512_768_0 : ∀ a, (![768, 0] : Fin 2 → Nat) a + S128x512.size a ≤ S1024x512.size a
  inb_S8x128x512_S1x128x512_6_0_0 : ∀ a, (![6, 0, 0] : Fin 3 → Nat) a + S1x128x512.size a ≤ S8x128x512.size a
  inb_S1024x512_S128x512_896_0 : ∀ a, (![896, 0] : Fin 2 → Nat) a + S128x512.size a ≤ S1024x512.size a
  inb_S8x128x512_S1x128x512_7_0_0 : ∀ a, (![7, 0, 0] : Fin 3 → Nat) a + S1x128x512.size a ≤ S8x128x512.size a
  h_S1x128x512 : 0 < S1x128x512.numel
  shapeCasts_S1x128x512_S128x512 : S1x128x512.ShapeCasts S128x512
  shapeCasts_S128x512_S1x128x512 : S128x512.ShapeCasts S1x128x512
  inb_S8_S1_7 : ∀ a, (![7] : Fin 1 → Nat) a + S1.size a ≤ S8.size a
  hcc0_scratch9 : 0 + S7.numel ≤ 47
  hcc0_scratch10 : 7 + S_.numel ≤ 47
  hcc0_scratch11 : 8 + S_.numel ≤ 47
  hcc0_scratch12 : 9 + S8.numel ≤ 47
  hcc0_scratch13 : 17 + S7.numel ≤ 47
  hcc0_scratch14 : 24 + S7.numel ≤ 47
  hcc0_scratch15 : 31 + S_.numel ≤ 47
  hcc0_scratch16 : 32 + S_.numel ≤ 47
  hcc0_scratch17 : 33 + S7.numel ≤ 47
  hcc0_scratch18 : 40 + S7.numel ≤ 47
  k0_off1_inb : ∀ d0 : Dev nD, ∀ a, (k0_off1 d0) a + S1x1024x512.size a ≤ S1x1024x1024.size a
  k0_off2_inb : ∀ d0 : Dev nD, ∀ a, (k0_off2 d0) a + S1x128x256.size a ≤ S1x1024x1024.size a
  k0_off3_inb : ∀ d0 : Dev nD, ∀ a, (k0_off3 d0) a + S1x128x256.size a ≤ S1x1024x1024.size a
  k0_off4_inb : ∀ d0 : Dev nD, ∀ a, (k0_off4 d0) a + S1x128x256.size a ≤ S1x1024x1024.size a
  k0_off5_inb : ∀ d0 : Dev nD, ∀ a, (k0_off5 d0) a + S1x128x256.size a ≤ S1x1024x1024.size a
  k0_off6_inb : ∀ d0 : Dev nD, ∀ a, (k0_off6 d0) a + S1x128x256.size a ≤ S1x1024x1024.size a
  k0_off7_inb : ∀ d0 : Dev nD, ∀ a, (k0_off7 d0) a + S1x128x256.size a ≤ S1x1024x1024.size a
  k0_off8_inb : ∀ d0 : Dev nD, ∀ a, (k0_off8 d0) a + S1x128x256.size a ≤ S1x1024x1024.size a
  k0_off9_inb : ∀ d0 : Dev nD, ∀ a, (k0_off9 d0) a + S1x128x512.size a ≤ S1x1024x1024.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD

variable [Facts₀]

abbrev cc0_scratch9 : DmaSems sig S7 := SemArray.consecutive 0 S7 hcc0_scratch9
abbrev cc0_scratch10 : DmaSems sig S_ := SemArray.consecutive 7 S_ hcc0_scratch10
abbrev cc0_scratch11 : DmaSems sig S_ := SemArray.consecutive 8 S_ hcc0_scratch11
abbrev cc0_scratch12 : DmaSems sig S8 := SemArray.consecutive 9 S8 hcc0_scratch12
abbrev cc0_scratch13 : DmaSems sig S7 := SemArray.consecutive 17 S7 hcc0_scratch13
abbrev cc0_scratch14 : DmaSems sig S7 := SemArray.consecutive 24 S7 hcc0_scratch14
abbrev cc0_scratch15 : DmaSems sig S_ := SemArray.consecutive 31 S_ hcc0_scratch15
abbrev cc0_scratch16 : DmaSems sig S_ := SemArray.consecutive 32 S_ hcc0_scratch16
abbrev cc0_scratch17 : DmaSems sig S7 := SemArray.consecutive 33 S7 hcc0_scratch17
abbrev cc0_scratch18 : DmaSems sig S7 := SemArray.consecutive 40 S7 hcc0_scratch18

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S2x1024x1024 : Shape := ⟨3, ![2, 1024, 1024]⟩
abbrev S_ : Shape := ⟨0, ![]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S_, .f32⟩
  | .hbm, ⟨2, _⟩ => ⟨S1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S2x1024x1024_S1024x1024_d0 : S2x1024x1024.ReducesTo [0] S1024x1024
  h_S_ : 0 < S_.numel

variable [Facts₀]

class Facts : Prop extends Facts₀ where

variable [Facts]
-- ==== Proof.RefValue.lean ====
import proofs.«901040_g7700000000001041_dist_rs_v7x_xyz2x4x4_x_m1024_n512_bf16_1_alg».proof.Defs
import proofs.«901040_g7700000000001041_dist_rs_v7x_xyz2x4x4_x_m1024_n512_bf16_1_alg».proof.Proof.Gen.ReferenceIdeal
import proofs.«901040_g7700000000001041_dist_rs_v7x_xyz2x4x4_x_m1024_n512_bf16_1_alg».proof.Proof.Gen.ReferenceIdeal.Run
import proofs.«901040_g7700000000001041_dist_rs_v7x_xyz2x4x4_x_m1024_n512_bf16_1_alg».proof.Proof.Gen.ReferenceIdeal.Read
import proofs.«901040_g7700000000001041_dist_rs_v7x_xyz2x4x4_x_m1024_n512_bf16_1_alg».proof.Proof.Gen.KernelIdeal
import proofs.«901040_g7700000000001041_dist_rs_v7x_xyz2x4x4_x_m1024_n512_bf16_1_alg».proof.Proof.Gen.Pre_finite_inputs_Kernel
import proofs.«901040_g7700000000001041_dist_rs_v7x_xyz2x4x4_x_m1024_n512_bf16_1_alg».proof.Proof.Gen.Pre_finite_inputs_ReferenceIdeal
import Idealize.ShloMosaic.Lib.Layout
import Idealize.ShloMosaic.Lib.ValueIdx
import Idealize.ShloMosaic.PureOps.Ideal.Laws

noncomputable section

namespace Cert.RefValue

open Idealize.ShloMosaic Idealize.SL.Sem

def xp (c : Dev Cert.KernelIdeal.nD) : Dev Cert.KernelIdeal.nD := ⟨(c.val + 16) % 32, Nat.mod_lt _ (by decide)⟩

def outIdx (x : ℕ) (i : Cert.KernelIdeal.S1024x512.Idx) : Cert.KernelIdeal.S1x1024x1024.Idx := fun a => match a with
  | ⟨0, _⟩ => ⟨0, Nat.zero_lt_one⟩
  | ⟨1, _⟩ => ⟨(i 0).val, (i 0).isLt⟩
  | ⟨2, _⟩ => ⟨(512 * x + (i 1).val) % 1024, Nat.mod_lt _ (by decide)⟩

def outG (x : ℕ) (own peer : Cert.KernelIdeal.S1x1024x1024.Idx → EReal) : Cert.KernelIdeal.S1024x512.Idx → EReal :=
  fun i => own (outIdx x i) + peer (outIdx x i)

theorem lin0 : ∀ c : Fin 32, Layout.meshLin [2, 4, 4] c.val [0] = c.val / 16 := by decide

theorem lin0_xp : ∀ c : Fin 32, Layout.meshLin [2, 4, 4] (xp c).val [0] = 1 - c.val / 16 := by decide

theorem idx_block (c d : Fin 32) (k : Fin 2) (hd : Layout.meshLin [2, 4, 4] d.val [0] = k.val)
    (i : Cert.KernelIdeal.S1024x512.Idx)
    (h3 : Layout.TilesN ⟨3, ![1, 1024, 1024]⟩ ⟨3, ![2, 1024, 1024]⟩ (fun b => Layout.cutSize [2, 4, 4] ((![[0], [], []] : Fin 3 → List ℕ) b)))
    (h2 : Layout.TilesN ⟨2, ![1024, 512]⟩ ⟨2, ![1024, 1024]⟩ (fun b => Layout.cutSize [2, 4, 4] ((![[], [0]] : Fin 2 → List ℕ) b))) :
    h3.idx (Layout.meshBlock [2, 4, 4] ![[0], [], []] d) (outIdx (c.val / 16) i)
      = Cert.ReferenceIdeal.Read.idx_main_v0 (h2.idx (Layout.meshBlock [2, 4, 4] ![[], [0]] c) i) k := by
  funext a
  apply Fin.ext
  have h1 : (i 1).val < 512 := (i 1).isLt
  have hc : c.val < 32 := c.isLt
  match a with
  | ⟨0, _⟩ =>
    show Layout.meshLin [2, 4, 4] d.val [0] * 1 + 0 = k.val
    omega
  | ⟨1, _⟩ =>
    show 0 * 1024 + (i 0).val = 0 * 1024 + (i 0).val
    rfl
  | ⟨2, _⟩ =>
    show 0 * 1024 + (512 * (c.val / 16) + (i 1).val) % 1024 = Layout.meshLin [2, 4, 4] c.val [0] * 512 + (i 1).val
    rw [lin0 c]
    omega

theorem out_is_block (c : Dev Cert.KernelIdeal.nD) (whole : Cert.ReferenceIdeal.S2x1024x1024.Idx → EReal) :
    outG (c.val / 16)
        (Layout.blockN ⟨3, ![1, 1024, 1024]⟩ ⟨3, ![2, 1024, 1024]⟩ (Layout.meshBlock [2, 4, 4] ![[0], [], []] c) whole)
        (Layout.blockN ⟨3, ![1, 1024, 1024]⟩ ⟨3, ![2, 1024, 1024]⟩ (Layout.meshBlock [2, 4, 4] ![[0], [], []] (xp c)) whole)
      = Layout.blockN ⟨2, ![1024, 512]⟩ ⟨2, ![1024, 1024]⟩ (Layout.meshBlock [2, 4, 4] ![[], [0]] c)
          (Host.reduceAdd (F := Ideal) whole (constant Cert.ReferenceIdeal.S_ .f32 0x00000000#32) Cert.ReferenceIdeal.Gen.reducesTo_S2x1024x1024_S1024x1024_d0 Cert.ReferenceIdeal.Gen.h_S_) := by
  funext i
  have hc : c.val < 32 := c.isLt
  simp only [outG, Layout.blockN_apply]
  rw [Cert.ReferenceIdeal.Read.val_main_v0_eq, Cert.ReferenceIdeal.Read.val_main_v0_apply,
    Cert.ReferenceIdeal.Read.val_main_cst_apply, Fin.sum_univ_two, Ideal.ofBits_def, Ideal.ofBits_zero_f32, zero_add]
  rcases (by omega : c.val / 16 = 0 ∨ c.val / 16 = 1) with hx | hx
  · rw [idx_block c c 0 (by rw [lin0 c, hx]; rfl), idx_block c (xp c) 1 (by rw [lin0_xp c, hx]; rfl)]
  · rw [idx_block c c 1 (by rw [lin0 c, hx]; rfl), idx_block c (xp c) 0 (by rw [lin0_xp c, hx]; rfl)]
    exact add_comm (G := EReal) _ _

theorem outG_apply (x : ℕ) (own peer : Cert.KernelIdeal.S1x1024x1024.Idx → EReal) (i : Cert.KernelIdeal.S1024x512.Idx) :
    outG x own peer i = own (outIdx x i) + peer (outIdx x i) := rfl

theorem outIdx_val (c : Dev Cert.KernelIdeal.nD) (i : Cert.KernelIdeal.S1024x512.Idx) :
    (outIdx (c.val / 16) i 0).val = 0 ∧ (outIdx (c.val / 16) i 1).val = (i 0).val
      ∧ (outIdx (c.val / 16) i 2).val = 512 * (c.val / 16) + (i 1).val := by
  refine ⟨rfl, rfl, ?_⟩
  have h1 : (i 1).val < 512 := (i 1).isLt
  have hc : c.val < 32 := c.isLt
  show (512 * (c.val / 16) + (i 1).val) % 1024 = 512 * (c.val / 16) + (i 1).val
  omega

theorem xp_xp : ∀ c : Dev Cert.KernelIdeal.nD, xp (xp c) = c := by decide

theorem xp_ne : ∀ c : Dev Cert.KernelIdeal.nD, xp c ≠ c := by decide

theorem frame_ri : Cert.frame_ReferenceIdeal (hReferenceIdeal := Cert.ReferenceIdeal.Gen.facts) (hPre_finite_inputs_ReferenceIdeal := Cert.Pre_finite_inputs_ReferenceIdeal.Gen.facts) :=
  fun m ρ _ => (θ_run Cert.ReferenceIdeal.defs _ _).mono (fun _ h c => (h c).2)
    (Cert.ReferenceIdeal.Value.run (F := Ideal) m ρ)

theorem meshBlock_rep (a b : Fin 32) (h : a.val / 16 = b.val / 16) :
    Layout.meshBlock [2, 4, 4] ![[0], [], []] a = Layout.meshBlock [2, 4, 4] ![[0], [], []] b := by
  funext i
  apply Fin.ext
  match i with
  | ⟨0, _⟩ =>
    show Layout.meshLin [2, 4, 4] a.val [0] = Layout.meshLin [2, 4, 4] b.val [0]
    rw [lin0 a, lin0 b, h]
  | ⟨1, _⟩ => rfl
  | ⟨2, _⟩ => rfl

def Replicated (m : (ℓ : Loc Cert.KernelIdeal.nD Cert.KernelIdeal.τ Cert.KernelIdeal.sig) → Buf (Elt Ideal) ℓ) : Prop :=
  ∀ a b : Dev Cert.KernelIdeal.nD, a.val / 16 = b.val / 16 →
    (m ((a.tc : Thread Cert.KernelIdeal.nD Cert.KernelIdeal.τ).loc Cert.KernelIdeal.main_arg0) : Cert.KernelIdeal.S1x1024x1024.Idx → EReal)
      = m ((b.tc : Thread Cert.KernelIdeal.nD Cert.KernelIdeal.τ).loc Cert.KernelIdeal.main_arg0)

theorem algebraic_of_run
    (hK : ∀ (m : (ℓ : Loc Cert.KernelIdeal.nD Cert.KernelIdeal.τ Cert.KernelIdeal.sig) → Buf (Elt Ideal) ℓ) (g : Dev Cert.KernelIdeal.nD → PrngReg), Replicated m →
        θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1)
              = outG (c.val / 16) (m ((c.tc : Thread _ _).loc Cert.KernelIdeal.main_arg0)) (m (((xp c).tc : Thread _ _).loc Cert.KernelIdeal.main_arg0))
          ∧ r.2.mem ((c.tc : Thread _ _).loc Cert.KernelIdeal.main_arg0) = m ((c.tc : Thread _ _).loc Cert.KernelIdeal.main_arg0))) :
    Cert.algebraic_KernelIdeal_ReferenceIdeal (hKernelIdeal := Cert.KernelIdeal.Gen.facts) (hReferenceIdeal := Cert.ReferenceIdeal.Gen.facts) (hPre_finite_inputs_Kernel := Cert.Pre_finite_inputs_Kernel.Gen.facts) := by
  intro m g m' g' _ hblk
  have hrep : Replicated m := fun a b h => by
    show (m ((a.tc : Thread Cert.KernelIdeal.nD Cert.KernelIdeal.τ).loc Cert.KernelIdeal.main_arg0) : Cert.KernelIdeal.S1x1024x1024.Idx → EReal) = _
    rw [hblk a, hblk b, meshBlock_rep a b h]
  refine ⟨Host.reduceAdd (F := Ideal)
      (m' (((0 : Dev Cert.ReferenceIdeal.nD).tc : Thread Cert.ReferenceIdeal.nD Cert.ReferenceIdeal.τ).loc Cert.ReferenceIdeal.main_arg0))
      (constant Cert.ReferenceIdeal.S_ .f32 0x00000000#32)
      Cert.ReferenceIdeal.Gen.reducesTo_S2x1024x1024_S1024x1024_d0 Cert.ReferenceIdeal.Gen.h_S_, ?_, ?_⟩
  · refine (θ_run _ _ _).mono (fun r h c => ⟨?_, (h c).2⟩) (hK m g hrep)
    rw [(h c).1, hblk c, hblk (xp c)]
    exact out_is_block c _
  · exact (θ_run _ _ _).mono (fun r h => h 0) (Cert.ReferenceIdeal.Value.run (F := Ideal) m' g')

/-- info: 'Cert.RefValue.algebraic_of_run' depends on axioms: [propext, Classical.choice, Quot.sound] -/
#guard_msgs in #print axioms algebraic_of_run

end Cert.RefValue

end
-- ==== Proof.Common.lean ====
import proofs.«901040_g7700000000001041_dist_rs_v7x_xyz2x4x4_x_m1024_n512_bf16_1_alg».proof.Proof.Gen.KernelIdeal
import proofs.«901040_g7700000000001041_dist_rs_v7x_xyz2x4x4_x_m1024_n512_bf16_1_alg».proof.Proof.Gen.KernelIdeal.Skeleton
import proofs.«901040_g7700000000001041_dist_rs_v7x_xyz2x4x4_x_m1024_n512_bf16_1_alg».proof.Proof.Gen.KernelIdeal.Launch
import proofs.«901040_g7700000000001041_dist_rs_v7x_xyz2x4x4_x_m1024_n512_bf16_1_alg».proof.Proof.Gen.KernelIdeal.Points
import Idealize.ShloMosaic.Lib.Pipeline.Launch
import Idealize.ShloMosaic.Lib.Pipeline.Kit
import Idealize.ShloMosaic.Lib.Tactic
import Idealize.ShloMosaic.Lib.Transfers

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × (UB × Counters)

abbrev EP : Emb (UR sig nD τ) (MT nD τ sig Unit (Elt F) ℕ UU ℕ) := embL
abbrev ER : Emb UB (MT nD τ sig Unit (Elt F) ℕ UU ℕ) := (Emb.inl : Emb UB (UB × Counters)).trans embR

instance ER_landsIn : (ER (F := F)).LandsIn (upEmb : UEmb _ (MT nD τ sig Unit (Elt F) ℕ UU ℕ)) := by
  unfold ER embR; infer_instance

def s₀ (m : (ℓ : Loc nD τ sig) → Buf (Elt F) ℓ) (ρ : Dev nD → PrngReg) : MemSt nD τ sig (Elt F) := ⟨m, fun _ => 0, ρ⟩

abbrev 𝒱₀ : Variants := Variants.none

-- Device id 16·x + 4·y + z on the mesh [2, 4, 4]: `xp` flips x, `yp` flips the parity of y.
def xp (c : Dev nD) : Dev nD := ⟨(c.val + 16) % 32, show _ < 32 from Nat.mod_lt _ (by decide)⟩

def yp (c : Dev nD) : Dev nD := ⟨if (c.val / 4) % 2 = 0 then c.val + 4 else c.val - 4, by have h : c.val < 32 := c.isLt; show _ < 32; split <;> omega⟩

def hb (c : Dev nD) : ℕ := (c.val / 4) % 2

def mx (c : Dev nD) : ℕ := c.val / 16

theorem xp_xp (c : Dev nD) : xp (xp c) = c := by revert c; decide
theorem yp_yp (c : Dev nD) : yp (yp c) = c := by revert c; decide
theorem xp_ne (c : Dev nD) : xp c ≠ c := by revert c; decide
theorem hb_xp (c : Dev nD) : hb (xp c) = hb c := by revert c; decide
theorem hb_yp (c : Dev nD) : hb (yp c) = 1 - hb c := by revert c; decide
theorem mx_xp (c : Dev nD) : mx (xp c) = 1 - mx c := by revert c; decide
theorem mx_yp (c : Dev nD) : mx (yp c) = mx c := by revert c; decide
theorem hb_lt (c : Dev nD) : hb c < 2 := Nat.mod_lt _ (by decide)
theorem mx_lt (c : Dev nD) : mx c < 2 := by have h : c.val < 32 := c.isLt; unfold mx; omega

def xpEquiv : Dev nD ≃ Dev nD := ⟨xp, xp, xp_xp, xp_xp⟩
def ypEquiv : Dev nD ≃ Dev nD := ⟨yp, yp, yp_yp, yp_yp⟩

abbrev inM : Memref sig .tc .hbm S1x1024x1024 .f32 := Memref.whole main_arg0
abbrev outM : Memref sig .tc .hbm S1024x512 .f32 := Memref.whole main_v1

abbrev stgM : Memref sig .tc .vmem S7x128x256 .f32 := Memref.whole cc0_scratch0

abbrev dstgM : Memref sig .tc .vmem S128x512 .f32 := Memref.whole cc0_scratch1

abbrev mineM : Memref sig .tc .vmem S1024x512 .f32 := Memref.whole cc0_scratch2

abbrev obufM : Memref sig .tc .vmem S8x128x512 .f32 := Memref.whole cc0_scratch3

abbrev xsndM : Memref sig .tc .vmem S7x128x256 .bf16 := Memref.whole cc0_scratch4

abbrev dsndM : Memref sig .tc .vmem S128x512 .bf16 := Memref.whole cc0_scratch5

abbrev xrcvM : Memref sig .tc .vmem S7x128x256 .bf16 := Memref.whole cc0_scratch6

abbrev drcvM : Memref sig .tc .vmem S128x512 .bf16 := Memref.whole cc0_scratch7

abbrev frcvM : Memref sig .tc .vmem S7x128x256 .bf16 := Memref.whole cc0_scratch8

abbrev barS : Sem sig := (SemArray.scalar (sig.barrier 0 rfl) : Sems sig S_).sem

inductive CK where
  | bar
  | xs (k : Fin 7)
  | xr (k : Fin 7)
  | ds
  | dr
  | fs (k : Fin 7)
  | fr (k : Fin 7)
  deriving DecidableEq

instance : Fintype CK :=
  ⟨({CK.bar, CK.ds, CK.dr} : Finset CK) ∪ Finset.univ.image CK.xs ∪ Finset.univ.image CK.xr ∪ Finset.univ.image CK.fs ∪ Finset.univ.image CK.fr,
    by intro x; cases x <;> simp⟩

def csem : CK → SemLoc sig
  | .bar => .reg barS
  | .xs k => .dma ⟨17 + k.val, show _ < 47 by have := k.isLt; omega⟩
  | .xr k => .dma ⟨24 + k.val, show _ < 47 by have := k.isLt; omega⟩
  | .ds => .dma ⟨31, show _ < 47 by decide⟩
  | .dr => .dma ⟨32, show _ < 47 by decide⟩
  | .fs k => .dma ⟨33 + k.val, show _ < 47 by have := k.isLt; omega⟩
  | .fr k => .dma ⟨40 + k.val, show _ < 47 by have := k.isLt; omega⟩

abbrev cell (c : Dev nD) (k : CK) : GSem nD τ sig := ((c : Thread nD τ), csem k)
abbrev kcell (ck : Dev nD × CK) : GSem nD τ sig := cell ck.1 ck.2

theorem csem_injective : Function.Injective csem := by
  intro a b h
  cases a <;> cases b <;> simp only [csem, SemLoc.dma.injEq, SemLoc.reg.injEq, Fin.mk.injEq, reduceCtorEq] at h <;>
    first | rfl | (congr 1; exact Fin.ext (by omega)) | omega

theorem kcell_injective : Function.Injective (kcell : Dev nD × CK → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

abbrev osem : Fin 47 → SemLoc sig := fun i => .dma i

end Cert.KernelIdeal.RS

end
-- ==== Proof.Ghost.lean ====
import proofs.«901040_g7700000000001041_dist_rs_v7x_xyz2x4x4_x_m1024_n512_bf16_1_alg».proof.Proof.Common
import Idealize.ShloMosaic.Lib.Pipeline.Launch
import Idealize.ShloMosaic.Lib.Pipeline.Kit
import Idealize.ShloMosaic.Lib.Rounds
import Idealize.ShloMosaic.Lib.Tactic

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def ckList : List CK :=
  [.bar, .xs 0, .xs 1, .xs 2, .xs 3, .xs 4, .xs 5, .xs 6, .xr 0, .xr 1, .xr 2, .xr 3, .xr 4, .xr 5, .xr 6, .ds, .dr,
    .fs 0, .fs 1, .fs 2, .fs 3, .fs 4, .fs 5, .fs 6, .fr 0, .fr 1, .fr 2, .fr 3, .fr 4, .fr 5, .fr 6]

theorem ckList_univ : (Finset.univ : Finset CK) = ckList.toFinset := by decide
theorem ckList_nodup : ckList.Nodup := by decide

theorem bigSep_CK (Φ : CK → sProp (MT nD τ sig Unit (Elt F) ℕ UU ℕ)) :
    bigSep Finset.univ Φ = iprop(Φ .bar ∗ Φ (.xs 0) ∗ Φ (.xs 1) ∗ Φ (.xs 2) ∗ Φ (.xs 3) ∗ Φ (.xs 4) ∗ Φ (.xs 5) ∗ Φ (.xs 6)
      ∗ Φ (.xr 0) ∗ Φ (.xr 1) ∗ Φ (.xr 2) ∗ Φ (.xr 3) ∗ Φ (.xr 4) ∗ Φ (.xr 5) ∗ Φ (.xr 6) ∗ Φ .ds ∗ Φ .dr
      ∗ Φ (.fs 0) ∗ Φ (.fs 1) ∗ Φ (.fs 2) ∗ Φ (.fs 3) ∗ Φ (.fs 4) ∗ Φ (.fs 5) ∗ Φ (.fs 6)
      ∗ Φ (.fr 0) ∗ Φ (.fr 1) ∗ Φ (.fr 2) ∗ Φ (.fr 3) ∗ Φ (.fr 4) ∗ Φ (.fr 5) ∗ Φ (.fr 6)) :=
  bigSep_univ_eq_bigSepL ckList ckList_univ ckList_nodup Φ

def protoCells : Finset (GSem nD τ sig) := Finset.univ.map ⟨kcell, kcell_injective⟩

abbrev tokOf (cj : Dev nD × (Unit ⊕ CK)) : GSem nD τ sig × ℕ × Bool := match cj.2 with
  | .inl _ => (cell cj.1 .bar, 0, true)
  | .inr k => (cell cj.1 k, 0, false)

theorem tokOf_injective : Function.Injective (tokOf : Dev nD × (Unit ⊕ CK) → GSem nD τ sig × ℕ × Bool) := by
  rintro ⟨c, j⟩ ⟨c', j'⟩ h
  rcases j with ⟨⟩ | k <;> rcases j' with ⟨⟩ | k'
  · have h1 : kcell (c, CK.bar) = kcell (c', CK.bar) := congrArg (fun x : GSem nD τ sig × ℕ × Bool => x.1) h
    cases kcell_injective h1; rfl
  · have h2 : true = false := congrArg (fun x : GSem nD τ sig × ℕ × Bool => x.2.2) h
    cases h2
  · have h2 : false = true := congrArg (fun x : GSem nD τ sig × ℕ × Bool => x.2.2) h
    cases h2
  · have h1 : kcell (c, k) = kcell (c', k') := congrArg (fun x : GSem nD τ sig × ℕ × Bool => x.1) h
    cases kcell_injective h1; rfl

def protoToks : Finset (GSem nD τ sig × ℕ × Bool) := Finset.univ.map ⟨tokOf, tokOf_injective⟩

def u₀ : UU :=
  (initOf (Pipeline.cells cfgs cellOf_inj) (Pipeline.launchToks cfgs cellOf_inj), (initOf protoCells protoToks, 1))

def toks (c : Dev nD) : sProp 𝕄 :=
  iprop(dutyTok ER (cell c .bar) 0 true ∗ bigSep Finset.univ fun k : CK => dutyTok ER (cell c k) 0 false)

def payer : CK → (Dev nD ≃ Dev nD)
  | .bar => xpEquiv
  | .xr _ => xpEquiv
  | .dr => xpEquiv
  | .fr _ => ypEquiv
  | .xs _ => Equiv.refl _
  | .ds => Equiv.refl _
  | .fs _ => Equiv.refl _

def payToks (c : Dev nD) : sProp 𝕄 :=
  iprop(dutyTok ER (cell (yp c) .bar) 0 true ∗ bigSep Finset.univ fun k : CK => dutyTok ER (cell (payer k c) k) 0 false)

theorem toks_around :
    (bigSep Finset.univ fun c : Dev nD => (toks c : sProp (MT nD τ sig Unit (Elt F) ℕ UU ℕ))) ⊢ bigSep Finset.univ fun c : Dev nD => payToks c := by
  unfold toks payToks
  rw [bigSep_sep', bigSep_sep',
    bigSep_univ_equiv ypEquiv (fun c : Dev nD => (dutyTok ER (cell c .bar) 0 true : sProp 𝕄)),
    bigSep_univ_comm (fun (c : Dev nD) (k : CK) => (dutyTok ER (cell c k) 0 false : sProp 𝕄)),
    bigSep_univ_comm (fun (c : Dev nD) (k : CK) => (dutyTok ER (cell (payer k c) k) 0 false : sProp 𝕄)),
    bigSep_congr (s := Finset.univ) (fun (k : CK) _ => bigSep_univ_equiv (payer k) (fun c : Dev nD => (dutyTok ER (cell c k) 0 false : sProp 𝕄)))]
  exact BI.Entails.refl _

theorem payToks_eq (c : Dev nD) : (payToks c : sProp (MT nD τ sig Unit (Elt F) ℕ UU ℕ)) =
    iprop(dutyTok ER (cell (yp c) .bar) 0 true ∗ dutyTok ER (cell (xp c) .bar) 0 false
      ∗ dutyTok ER (cell c (.xs 0)) 0 false ∗ dutyTok ER (cell c (.xs 1)) 0 false ∗ dutyTok ER (cell c (.xs 2)) 0 false ∗ dutyTok ER (cell c (.xs 3)) 0 false
      ∗ dutyTok ER (cell c (.xs 4)) 0 false ∗ dutyTok ER (cell c (.xs 5)) 0 false ∗ dutyTok ER (cell c (.xs 6)) 0 false
      ∗ dutyTok ER (cell (xp c) (.xr 0)) 0 false ∗ dutyTok ER (cell (xp c) (.xr 1)) 0 false ∗ dutyTok ER (cell (xp c) (.xr 2)) 0 false ∗ dutyTok ER (cell (xp c) (.xr 3)) 0 false
      ∗ dutyTok ER (cell (xp c) (.xr 4)) 0 false ∗ dutyTok ER (cell (xp c) (.xr 5)) 0 false ∗ dutyTok ER (cell (xp c) (.xr 6)) 0 false
      ∗ dutyTok ER (cell c .ds) 0 false ∗ dutyTok ER (cell (xp c) .dr) 0 false
      ∗ dutyTok ER (cell c (.fs 0)) 0 false ∗ dutyTok ER (cell c (.fs 1)) 0 false ∗ dutyTok ER (cell c (.fs 2)) 0 false ∗ dutyTok ER (cell c (.fs 3)) 0 false
      ∗ dutyTok ER (cell c (.fs 4)) 0 false ∗ dutyTok ER (cell c (.fs 5)) 0 false ∗ dutyTok ER (cell c (.fs 6)) 0 false
      ∗ dutyTok ER (cell (yp c) (.fr 0)) 0 false ∗ dutyTok ER (cell (yp c) (.fr 1)) 0 false ∗ dutyTok ER (cell (yp c) (.fr 2)) 0 false ∗ dutyTok ER (cell (yp c) (.fr 3)) 0 false
      ∗ dutyTok ER (cell (yp c) (.fr 4)) 0 false ∗ dutyTok ER (cell (yp c) (.fr 5)) 0 false ∗ dutyTok ER (cell (yp c) (.fr 6)) 0 false) := by
  unfold payToks; rw [bigSep_CK]; rfl

def G (Rd : Rounds.Schedule (GSem nD τ sig) Bool (MT nD τ sig Unit (Elt F) ℕ UU ℕ)) (c : Dev nD) : sProp 𝕄 :=
  iprop((bigSep Finset.univ fun k : CK => roundState ER Rd (cell c k) 0)
    ∗ (bigSep Finset.univ fun k : CK => iprop(atPos ER (cell c k) 0 ∅ 0 ∗ reached ER (cell c k) 0)) ∗ toks c)

theorem fund_proto (Rd : Rounds.Schedule (GSem nD τ sig) Bool (MT nD τ sig Unit (Elt F) ℕ UU ℕ)) :
    BI.own (ER (initOf protoCells protoToks)) ⊢ (|==> bigSep Finset.univ (G Rd) : sProp (MT nD τ sig Unit (Elt F) ℕ UU ℕ)) := by
  have hX (Φ : GSem nD τ sig → sProp 𝕄) : bigSep protoCells Φ = bigSep Finset.univ fun c : Dev nD => bigSep Finset.univ fun k : CK => Φ (cell c k) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by
      unfold toks; rw [bigSep_univ_sum, bigSep_univ_of_subsingleton ()]; rfl
  iintro HX
  imod (Rounds.fund ER Rd protoCells protoToks) $$ HX with ⟨Hst, Hr, Hat, Htok⟩
  imodintro
  ihave Hst' := (Entails.of_eq (hX fun g => roundState ER Rd g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem hu0 (Rd : Rounds.Schedule (GSem nD τ sig) Bool (MT nD τ sig Unit (Elt F) ℕ UU ℕ)) :
    (ownU u₀ : sProp (MT nD τ sig Unit (Elt F) ℕ UU ℕ))
      ⊢ |={Set.univ}=> iprop(BI.own (EP (initOf (Pipeline.cells cfgs cellOf_inj) (Pipeline.launchToks cfgs cellOf_inj))) ∗ bigSep Finset.univ (G Rd)) := by
  unfold u₀
  iintro Hu
  ihave ⟨HP, HR⟩ := (ownU_pair _ _) $$ Hu
  ihave ⟨HX, -⟩ := (own_pair_emb embR (initOf protoCells protoToks) (1 : Counters)) $$ HR
  imod (fund_proto Rd) $$ HX with HG
  imodintro
  isplitl [HP] <;> iassumption

def dsem : CK → Fin 47
  | .bar => ⟨0, by decide⟩
  | .xs k => ⟨17 + k.val, by have := k.isLt; omega⟩
  | .xr k => ⟨24 + k.val, by have := k.isLt; omega⟩
  | .ds => ⟨31, by decide⟩
  | .dr => ⟨32, by decide⟩
  | .fs k => ⟨33 + k.val, by have := k.isLt; omega⟩
  | .fr k => ⟨40 + k.val, by have := k.isLt; omega⟩

theorem csem_dma {k : CK} (hk : k ≠ .bar) : csem k = .dma (dsem k) := by
  cases k <;> first | exact absurd rfl hk | rfl

theorem dsem_injOn : Set.InjOn dsem (↑(Finset.univ.erase CK.bar) : Set CK) := by
  intro a ha b hb h
  have ha' : a ≠ .bar := (Finset.mem_erase.mp ha).1
  have hb' : b ≠ .bar := (Finset.mem_erase.mp hb).1
  exact csem_injective (by rw [csem_dma ha', csem_dma hb', h])

theorem dsem_image : (Finset.univ.erase CK.bar).image dsem = Finset.univ.filter (fun i : Fin 47 => ¬ i.val < 17) := by decide

def localSems0 (c : Dev nD) : sProp 𝕄 :=
  bigSep (Finset.univ.filter fun i : Fin 47 => i.val < 17) fun i => semVal ((c : Thread nD τ), .dma i) 0

theorem localSems0_eq (c : Dev nD) : (localSems0 c : sProp (MT nD τ sig Unit (Elt F) ℕ UU ℕ)) =
    iprop(semVal ((c : Thread nD τ), .dma ⟨0, by decide⟩) 0 ∗ semVal ((c : Thread nD τ), .dma ⟨1, by decide⟩) 0 ∗ semVal ((c : Thread nD τ), .dma ⟨2, by decide⟩) 0
      ∗ semVal ((c : Thread nD τ), .dma ⟨3, by decide⟩) 0 ∗ semVal ((c : Thread nD τ), .dma ⟨4, by decide⟩) 0 ∗ semVal ((c : Thread nD τ), .dma ⟨5, by decide⟩) 0
      ∗ semVal ((c : Thread nD τ), .dma ⟨6, by decide⟩) 0 ∗ semVal ((c : Thread nD τ), .dma ⟨7, by decide⟩) 0 ∗ semVal ((c : Thread nD τ), .dma ⟨8, by decide⟩) 0
      ∗ semVal ((c : Thread nD τ), .dma ⟨9, by decide⟩) 0 ∗ semVal ((c : Thread nD τ), .dma ⟨10, by decide⟩) 0 ∗ semVal ((c : Thread nD τ), .dma ⟨11, by decide⟩) 0
      ∗ semVal ((c : Thread nD τ), .dma ⟨12, by decide⟩) 0 ∗ semVal ((c : Thread nD τ), .dma ⟨13, by decide⟩) 0 ∗ semVal ((c : Thread nD τ), .dma ⟨14, by decide⟩) 0
      ∗ semVal ((c : Thread nD τ), .dma ⟨15, by decide⟩) 0 ∗ semVal ((c : Thread nD τ), .dma ⟨16, by decide⟩) 0) := by
  unfold localSems0
  rw [bigSep_eq_bigSepL_of_eq ([⟨0, by decide⟩, ⟨1, by decide⟩, ⟨2, by decide⟩, ⟨3, by decide⟩, ⟨4, by decide⟩, ⟨5, by decide⟩, ⟨6, by decide⟩, ⟨7, by decide⟩,
    ⟨8, by decide⟩, ⟨9, by decide⟩, ⟨10, by decide⟩, ⟨11, by decide⟩, ⟨12, by decide⟩, ⟨13, by decide⟩, ⟨14, by decide⟩, ⟨15, by decide⟩, ⟨16, by decide⟩] : List (Fin 47))
    (by decide) (by decide)]
  rfl

def dmaSems0 (c : Dev nD) : sProp 𝕄 := bigSep (Finset.univ.erase CK.bar) fun k : CK => semVal (cell c k) 0

theorem ownSems0_eq (c : Dev nD) :
    (Pipeline.ownSems0 (Ix := Unit) (Name := ℕ) (U := UU) (Lvl := ℕ) (Val := Elt F) (τ := τ) osem c : sProp (MT nD τ sig Unit (Elt F) ℕ UU ℕ))
      = bigSep Finset.univ fun i : Fin 47 => semVal ((c : Thread nD τ), .dma i) 0 := rfl

theorem ownSems0_split (c : Dev nD) :
    (Pipeline.ownSems0 (Ix := Unit) (Name := ℕ) (U := UU) (Lvl := ℕ) (Val := Elt F) (τ := τ) osem c : sProp (MT nD τ sig Unit (Elt F) ℕ UU ℕ))
      = iprop(localSems0 c ∗ dmaSems0 c) := by
  rw [ownSems0_eq, bigSep_filter_split Finset.univ (fun i : Fin 47 => i.val < 17), ← dsem_image, bigSep_image_of_injOn dsem_injOn]
  unfold dmaSems0 localSems0
  rw [bigSep_congr (s := Finset.univ.erase CK.bar) (Ψ := fun k : CK => (semVal (cell c k) 0 : sProp 𝕄))
    fun k hk => by rw [← csem_dma (Finset.mem_erase.mp hk).1]]
  rfl

theorem unscopedSems0_eq (c : Dev nD) : (unscopedSems0 c : sProp (MT nD τ sig Unit (Elt F) ℕ UU ℕ)) = semVal (cell c .bar) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : CK => semVal (cell c k) 0) ∗ localSems0 c : sProp (MT nD τ sig Unit (Elt F) ℕ UU ℕ)) := by
  rw [ownSems0_split, unscopedSems0_eq, bigSep_univ_at (fun k : CK => (semVal (cell c k) 0 : sProp 𝕄)) CK.bar]
  unfold dmaSems0
  iintro ⟨⟨HL, HD⟩, HB⟩
  isplitl [HB HD]
  · isplitl [HB] <;> iassumption
  iexact HL

theorem ownSems0_intro (c : Dev nD) :
    iprop((bigSep (Finset.univ.erase CK.bar) fun k : CK => semVal (cell c k) 0) ∗ localSems0 c)
      ⊢ (Pipeline.ownSems0 (Ix := Unit) (Name := ℕ) (U := UU) (Lvl := ℕ) (Val := Elt F) (τ := τ) osem c : sProp (MT nD τ sig Unit (Elt F) ℕ UU ℕ)) := by
  rw [ownSems0_split]; unfold dmaSems0
  iintro ⟨HD, HL⟩
  isplitl [HL] <;> iassumption

def records (Rd : Rounds.Schedule (GSem nD τ sig) Bool (MT nD τ sig Unit (Elt F) ℕ UU ℕ)) (K : Dev nD × CK → ℕ) : sProp 𝕄 :=
  iprop((bigSep Finset.univ fun ck : Dev nD × CK => cellInv ER Rd (K ck) (kcell ck))
    ∗ bigSep Finset.univ fun ck : Dev nD × CK => reached ER (kcell ck) 0)

instance records_persistent (Rd : Rounds.Schedule (GSem nD τ sig) Bool (MT nD τ sig Unit (Elt F) ℕ UU ℕ)) (K : Dev nD × CK → ℕ) :
    BI.Persistent (records Rd K) := by unfold records; infer_instance

theorem inv_at (Rd : Rounds.Schedule (GSem nD τ sig) Bool (MT nD τ sig Unit (Elt F) ℕ UU ℕ)) (K : Dev nD × CK → ℕ) (c : Dev nD) (k : CK) :
    records Rd K ⊢ cellInv ER Rd (K (c, k)) (cell c k) :=
  (show records Rd K ⊢ (bigSep Finset.univ fun ck : Dev nD × CK => (cellInv ER Rd (K ck) (kcell ck) : sProp 𝕄)) from by
    unfold records; iintro ⟨HI, -⟩; iexact HI).trans (bigSep_elim (Finset.mem_univ ((c, k) : Dev nD × CK)))

theorem reached_at (Rd : Rounds.Schedule (GSem nD τ sig) Bool (MT nD τ sig Unit (Elt F) ℕ UU ℕ)) (K : Dev nD × CK → ℕ) (c : Dev nD) (k : CK) :
    records Rd K ⊢ reached ER (cell c k) 0 :=
  (show records Rd K ⊢ (bigSep Finset.univ fun ck : Dev nD × CK => (reached ER (kcell ck) 0 : sProp 𝕄)) from by
    unfold records; iintro ⟨-, HR⟩; iexact HR).trans (bigSep_elim (Finset.mem_univ ((c, k) : Dev nD × CK)))

def linear (c : Dev nD) : sProp 𝕄 :=
  iprop((bigSep Finset.univ fun k : CK => atPos ER (cell c k) 0 ∅ 0) ∗ payToks c ∗ localSems0 c)

def G' (Rd : Rounds.Schedule (GSem nD τ sig) Bool (MT nD τ sig Unit (Elt F) ℕ UU ℕ)) (c : Dev nD) : sProp 𝕄 :=
  iprop(∃ K : Dev nD × CK → ℕ, records Rd K ∗ linear c)

theorem core_alloc (Rd : Rounds.Schedule (GSem nD τ sig) Bool (MT nD τ sig Unit (Elt F) ℕ UU ℕ))
    [∀ g r d, BI.Storable (upEmb : UEmb _ (MT nD τ sig Unit (Elt F) ℕ UU ℕ)) (Rd.payload g r d)] (c : Dev nD) :
    iprop(Pipeline.ownSems0 (Ix := Unit) (Name := ℕ) (U := UU) (Lvl := ℕ) (Val := Elt F) (τ := τ) osem c ∗ unscopedSems0 c ∗ G Rd c)
      ⊢ |={Set.univ}=> iprop((bigSep Finset.univ fun k : CK => iprop(∃ κ : ℕ, cellInv ER Rd κ (cell c k)))
          ∗ (bigSep Finset.univ fun k : CK => iprop(atPos ER (cell c k) 0 ∅ 0 ∗ reached ER (cell c k) 0)) ∗ toks c ∗ localSems0 c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun k : CK => semVal (cell c k) 0) ∗ bigSep Finset.univ fun k : CK => roundState ER Rd (cell c k) 0)
      ⊢ (|={Set.univ}=> bigSep Finset.univ fun k : CK => iprop(∃ κ : ℕ, cellInv ER Rd κ (cell c k)) : sProp 𝕄) from by
        rw [← bigSep_sep']
        exact (bigSep_mono fun k _ => (Rounds.body_intro ER Rd (cell c k)).trans inv_alloc).trans (bigSep_fupd _ _)) $$ [Hv Hst] with Hinv
  · isplitl [Hv] <;> iassumption
  imodintro
  iframe

theorem regroup (Rd : Rounds.Schedule (GSem nD τ sig) Bool (MT nD τ sig Unit (Elt F) ℕ UU ℕ)) :
    (bigSep Finset.univ fun c : Dev nD => iprop((bigSep Finset.univ fun k : CK => iprop(∃ κ : ℕ, cellInv ER Rd κ (cell c k)))
          ∗ (bigSep Finset.univ fun k : CK => iprop(atPos ER (cell c k) 0 ∅ 0 ∗ reached ER (cell c k) 0)) ∗ toks c ∗ localSems0 c) : sProp (MT nD τ sig Unit (Elt F) ℕ UU ℕ))
      ⊢ bigSep Finset.univ (G' Rd) := by
  rw [bigSep_sep', bigSep_sep', bigSep_sep', ← bigSep_univ_prod (fun ck : Dev nD × CK => iprop(∃ κ : ℕ, cellInv ER Rd κ (kcell ck))),
    bigSep_congr (s := Finset.univ) (fun (c : Dev nD) _ => bigSep_sep' Finset.univ (fun k : CK => (atPos ER (cell c k) 0 ∅ 0 : sProp 𝕄)) (fun k => reached ER (cell c k) 0)),
    bigSep_sep', ← bigSep_univ_prod (fun ck : Dev nD × CK => (reached ER (kcell ck) 0 : sProp 𝕄))]
  iintro ⟨HI, ⟨Hat, #HR⟩, Htok, Hloc⟩
  ihave ⟨%K, #HI⟩ := (BI.bigSep_exists_pi Finset.univ (fun (ck : Dev nD × CK) (κ : ℕ) => (cellInv ER Rd κ (kcell ck) : sProp 𝕄))) $$ HI
  ihave Htk := (toks_around (F := F)) $$ Htok
  iapply (bigSep_with_persistent (R := records Rd K) (Φ := linear) fun c _ => show iprop(records Rd K ∗ linear c) ⊢ G' Rd c from by
    unfold G'; iintro H; iexists K; iexact H)
  isplitr
  · unfold records; isplitl; · iexact HI
    iexact HR
  · unfold linear
    rw [bigSep_sep', bigSep_sep']
    iframe

theorem glob (Rd : Rounds.Schedule (GSem nD τ sig) Bool (MT nD τ sig Unit (Elt F) ℕ UU ℕ))
    [∀ g r d, BI.Storable (upEmb : UEmb _ (MT nD τ sig Unit (Elt F) ℕ UU ℕ)) (Rd.payload g r d)] :
    (bigSep Finset.univ fun c => iprop(Pipeline.ownSems0 (Ix := Unit) (Name := ℕ) (U := UU) (Lvl := ℕ) (Val := Elt F) (τ := τ) osem c ∗ unscopedSems0 c ∗ G Rd c) : sProp (MT nD τ sig Unit (Elt F) ℕ UU ℕ))
      ⊢ |={Set.univ}=> bigSep Finset.univ (G' Rd) :=
  ((bigSep_mono fun c _ => core_alloc Rd c).trans (bigSep_fupd _ _)).trans (BI.fupd_mono (regroup Rd))

/-- info: 'Cert.KernelIdeal.RS.glob' depends on axioms: [propext, Classical.choice, Quot.sound] -/
#guard_msgs in #print axioms glob

end Cert.KernelIdeal.RS

end
-- ==== Proof.Proto.lean ====
import proofs.«901040_g7700000000001041_dist_rs_v7x_xyz2x4x4_x_m1024_n512_bf16_1_alg».proof.Proof.Common
import proofs.«901040_g7700000000001041_dist_rs_v7x_xyz2x4x4_x_m1024_n512_bf16_1_alg».proof.Proof.Ghost

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

variable (m : (ℓ : Loc nD τ sig) → Buf (Elt F) ℓ) (ρ : Dev nD → PrngReg)

theorem inb7 (k : Fin 7) : ∀ a, (![k.val, 0, 0] : Fin 3 → Nat) a + S1x128x256.size a ≤ S7x128x256.size a := by
  revert k; decide

abbrev slot7 {e : EltTy} (M : Memref sig .tc .vmem S7x128x256 e) (k : Fin 7) : Memref sig .tc .vmem S128x256 e :=
  (M.slice (Rect.unit (s := S7x128x256) ![k.val, 0, 0] S1x128x256.size (inb7 k)) (fun _ => rfl)).squeeze S128x256 squeezes_S1x128x256_S128x256

abbrev xsS (k : Fin 7) : Memref sig .tc .vmem S128x256 .bf16 := slot7 xsndM k
abbrev xrS (k : Fin 7) : Memref sig .tc .vmem S128x256 .bf16 := slot7 xrcvM k
abbrev frS (k : Fin 7) : Memref sig .tc .vmem S128x256 .bf16 := slot7 frcvM k

abbrev N₁ : ℕ := (xrS 0).view.dmaCredit
abbrev N₂ : ℕ := (drcvM : Memref sig .tc .vmem S128x512 .bf16).view.dmaCredit
theorem N₁_pos : 0 < N₁ := View.dmaCredit_pos _ (by decide)
theorem N₂_pos : 0 < N₂ := View.dmaCredit_pos _ (by decide)
def X (c : Dev nD) : Buf (Elt F) ((c : Thread nD τ).loc main_arg0) := (s₀ m ρ).mem ((c : Thread nD τ).loc main_arg0)

def offS (k : Fin 7) (c : Dev nD) : Fin 3 → Nat :=
  match k with
  | 0 => k0_off2 c | 1 => k0_off3 c | 2 => k0_off4 c | 3 => k0_off5 c | 4 => k0_off6 c | 5 => k0_off7 c | 6 => k0_off8 c

theorem offS_inb (k : Fin 7) (c : Dev nD) : ∀ a, offS k c a + S1x128x256.size a ≤ S1x1024x1024.size a :=
  match k with
  | 0 => k0_off2_inb c | 1 => k0_off3_inb c | 2 => k0_off4_inb c | 3 => k0_off5_inb c | 4 => k0_off6_inb c | 5 => k0_off7_inb c | 6 => k0_off8_inb c

def stageL (k : Fin 7) (c : Dev nD) : Vec F S1x128x256 .f32 :=
  (inM.slice (Rect.unit (s := S1x1024x1024) (offS k c) S1x128x256.size (offS_inb k c)) (fun _ => rfl)).view.read (Elt F) (X m ρ c)

def payS (k : Fin 7) (v : Vec F S1x128x256 .f32) : FVec F S1x128x256 .bf16 :=
  match k with
  | 0 => k0_pay1 v | 1 => k0_pay2 v | 2 => k0_pay3 v | 3 => k0_pay5 (k0_pay4 v) | 4 => k0_pay6 v | 5 => k0_pay7 v | 6 => k0_pay8 v

def low3 (i : S7x128x256.Idx) : S1x128x256.Idx := fun a =>
  match a with
  | ⟨0, _⟩ => (⟨0, by decide⟩ : Fin 1)
  | ⟨1, _⟩ => (i 1 : Fin 128)
  | ⟨2, _⟩ => (i 2 : Fin 256)
  | ⟨_ + 3, h⟩ => absurd h (Nat.not_lt.2 (Nat.le_add_left _ _))

def xsndB (c : Dev nD) : (cc0_scratch4 : Ref sig .tc).ty.Contents (Elt F) :=
  show Vec F S7x128x256 .bf16 from fun i => payS (i 0) (stageL m ρ (i 0) c) (low3 i)

def dstageL (c : Dev nD) : Vec F S128x512 .f32 :=
  ((inM.slice (Rect.unit (s := S1x1024x1024) (k0_off9 c) S1x128x512.size (k0_off9_inb c)) (fun _ => rfl)).squeeze S128x512 squeezes_S1x128x512_S128x512).view.read (Elt F) (X m ρ c)
def dsndB (c : Dev nD) : (cc0_scratch5 : Ref sig .tc).ty.Contents (Elt F) := k0_pay9 (dstageL m ρ c)

def xrcvB (c : Dev nD) : (cc0_scratch6 : Ref sig .tc).ty.Contents (Elt F) := xsndB m ρ (xp c)
def drcvB (c : Dev nD) : (cc0_scratch7 : Ref sig .tc).ty.Contents (Elt F) := dsndB m ρ (xp c)
def frcvB (c : Dev nD) : (cc0_scratch8 : Ref sig .tc).ty.Contents (Elt F) := xrcvB m ρ (yp c)

def kindN (n : ℕ) : Option CK :=
  if h1 : 17 ≤ n ∧ n < 24 then some (.xs ⟨n - 17, by omega⟩)
  else if h2 : 24 ≤ n ∧ n < 31 then some (.xr ⟨n - 24, by omega⟩)
  else if n = 31 then some .ds
  else if n = 32 then some .dr
  else if h3 : 33 ≤ n ∧ n < 40 then some (.fs ⟨n - 33, by omega⟩)
  else if h4 : 40 ≤ n ∧ n < 47 then some (.fr ⟨n - 40, by omega⟩)
  else none

def kindOf (s : SemLoc sig) : Option CK :=
  match s with
  | .reg r => if r = barS then some .bar else none
  | .dma i => kindN i.val

theorem kindN_xs (k : Fin 7) : kindN (17 + k.val) = some (.xs k) := by
  have hk := k.isLt; unfold kindN; split_ifs <;> first | omega | simp [Fin.ext_iff]
theorem kindN_xr (k : Fin 7) : kindN (24 + k.val) = some (.xr k) := by
  have hk := k.isLt; unfold kindN; split_ifs <;> first | omega | simp [Fin.ext_iff]
theorem kindN_fs (k : Fin 7) : kindN (33 + k.val) = some (.fs k) := by
  have hk := k.isLt; unfold kindN; split_ifs <;> first | omega | simp [Fin.ext_iff]
theorem kindN_fr (k : Fin 7) : kindN (40 + k.val) = some (.fr k) := by
  have hk := k.isLt; unfold kindN; split_ifs <;> first | omega | simp [Fin.ext_iff]

theorem kindOf_csem (k : CK) : kindOf (csem k) = some k := by
  cases k with
  | bar => show (if barS = barS then some CK.bar else none) = some CK.bar; exact if_pos rfl
  | xs k => exact kindN_xs k
  | xr k => exact kindN_xr k
  | ds => rfl
  | dr => rfl
  | fs k => exact kindN_fs k
  | fr k => exact kindN_fr k

def barPayF (c : Dev nD) : sProp 𝕄 :=
  iprop((∃ f : Buf (Elt F) ((xp c : Thread nD τ).loc cc0_scratch6), ((xp c : Thread nD τ).loc cc0_scratch6) ↦{fullShare} f)
    ∗ (∃ f : Buf (Elt F) ((xp c : Thread nD τ).loc cc0_scratch7), ((xp c : Thread nD τ).loc cc0_scratch7) ↦{fullShare} f))

def barPayT (c : Dev nD) : sProp 𝕄 :=
  iprop(∃ f : Buf (Elt F) ((yp c : Thread nD τ).loc cc0_scratch8), ((yp c : Thread nD τ).loc cc0_scratch8) ↦{fullShare} f)

def xsPay (c : Dev nD) (k : Fin 7) : sProp 𝕄 :=
  (xsS k).view.loc (c : Thread nD τ) ↦[(xsS k).view.set]{fullShare} xsndB m ρ c
def dsPay (c : Dev nD) : sProp 𝕄 :=
  (dsndM : Memref sig .tc .vmem S128x512 .bf16).view.loc (c : Thread nD τ) ↦[(dsndM : Memref sig .tc .vmem S128x512 .bf16).view.set]{fullShare} dsndB m ρ c
def fsPay (c : Dev nD) (k : Fin 7) : sProp 𝕄 :=
  (xrS k).view.loc (c : Thread nD τ) ↦[(xrS k).view.set]{fullShare.left} xrcvB m ρ c

def xrPay (c : Dev nD) (k : Fin 7) : sProp 𝕄 :=
  (xrS k).view.loc (c : Thread nD τ) ↦[(xrS k).view.set]{fullShare} xrcvB m ρ c
def drPay (c : Dev nD) : sProp 𝕄 :=
  (drcvM : Memref sig .tc .vmem S128x512 .bf16).view.loc (c : Thread nD τ) ↦[(drcvM : Memref sig .tc .vmem S128x512 .bf16).view.set]{fullShare} drcvB m ρ c
def frPay (c : Dev nD) (k : Fin 7) : sProp 𝕄 :=
  (frS k).view.loc (c : Thread nD τ) ↦[(frS k).view.set]{fullShare} frcvB m ρ c

def dutiesK : Option CK → Finset Bool
  | some .bar => Finset.univ
  | some _ => {false}
  | none => ∅

def amountK : Option CK → ℕ
  | some .bar => 1
  | some .ds => N₂
  | some .dr => N₂
  | _ => N₁

theorem amountK_pos (o : Option CK) : 0 < amountK o := by
  rcases o with _ | k
  · exact N₁_pos
  · cases k <;> first | exact Nat.one_pos | exact N₁_pos | exact N₂_pos

def payK (c : Dev nD) : Option CK → Bool → sProp 𝕄
  | some .bar, true => barPayT c
  | some .bar, false => barPayF c
  | some (.xs k), _ => xsPay m ρ c k
  | some (.xr k), _ => xrPay m ρ c k
  | some .ds, _ => dsPay m ρ c
  | some .dr, _ => drPay m ρ c
  | some (.fs k), _ => fsPay m ρ c k
  | some (.fr k), _ => frPay m ρ c k
  | none, _ => iprop(emp)

-- One round: the barrier cell has two unit duties (paid by `xp c` and `yp c`); every copy has a departure and a landing cell of one duty.
def rd : Rounds.Schedule (GSem nD τ sig) Bool 𝕄 where
  duties g r := if r = 0 ∧ g.1.2 = .tc then dutiesK (kindOf g.2) else ∅
  unitless _ := False
  amount g _ _ := amountK (kindOf g.2)
  payload g _ d := payK m ρ g.1.1 (kindOf g.2) d
  amount_pos g _ _ _ := amountK_pos _

instance payK_storable (c : Dev nD) (o : Option CK) (d : Bool) : BI.Storable (upEmb : UEmb _ 𝕄) (payK (F := F) m ρ c o d) := by
  rcases o with _ | k
  · exact (inferInstance : BI.Storable (upEmb : UEmb _ 𝕄) (iprop(emp) : sProp 𝕄))
  · cases k with
    | bar =>
      cases d
      · exact (show BI.Storable (upEmb : UEmb _ 𝕄) (barPayF (F := F) c) from by unfold barPayF; infer_instance)
      · exact (show BI.Storable (upEmb : UEmb _ 𝕄) (barPayT (F := F) c) from by unfold barPayT; infer_instance)
    | xs k => exact (show BI.Storable (upEmb : UEmb _ 𝕄) (xsPay m ρ c k) from by unfold xsPay; infer_instance)
    | xr k => exact (show BI.Storable (upEmb : UEmb _ 𝕄) (xrPay m ρ c k) from by unfold xrPay; infer_instance)
    | ds => exact (show BI.Storable (upEmb : UEmb _ 𝕄) (dsPay m ρ c) from by unfold dsPay; infer_instance)
    | dr => exact (show BI.Storable (upEmb : UEmb _ 𝕄) (drPay m ρ c) from by unfold drPay; infer_instance)
    | fs k => exact (show BI.Storable (upEmb : UEmb _ 𝕄) (fsPay m ρ c k) from by unfold fsPay; infer_instance)
    | fr k => exact (show BI.Storable (upEmb : UEmb _ 𝕄) (frPay m ρ c k) from by unfold frPay; infer_instance)

instance rd_payload_storable (g : GSem nD τ sig) (r : ℕ) (d : Bool) :
    BI.Storable (upEmb : UEmb _ 𝕄) ((rd (F := F) m ρ).payload g r d) := payK_storable m ρ g.1.1 (kindOf g.2) d

section Sched
variable (c : Dev nD)

theorem duties_cell (k : CK) : (rd (F := F) m ρ).duties (cell c k) 0 = dutiesK (some k) := by
  dsimp only [rd]; rw [if_pos ⟨rfl, rfl⟩, kindOf_csem]
theorem duties_later (g : GSem nD τ sig) : ∀ r, 1 ≤ r → (rd (F := F) m ρ).duties g r = ∅ :=
  fun r hr => by dsimp only [rd]; rw [if_neg fun h => by omega]
theorem amount_cell (k : CK) (d : Bool) : (rd (F := F) m ρ).amount (cell c k) 0 d = amountK (some k) := by
  dsimp only [rd]; rw [kindOf_csem]
theorem payload_cell (k : CK) (d : Bool) : (rd (F := F) m ρ).payload (cell c k) 0 d = payK m ρ c (some k) d := by
  dsimp only [rd]; rw [kindOf_csem]

theorem duties_bar : (rd (F := F) m ρ).duties (cell c .bar) 0 = Finset.univ := duties_cell m ρ c .bar
theorem duties_xs (k : Fin 7) : (rd (F := F) m ρ).duties (cell c (.xs k)) 0 = {false} := duties_cell m ρ c (.xs k)
theorem duties_xr (k : Fin 7) : (rd (F := F) m ρ).duties (cell c (.xr k)) 0 = {false} := duties_cell m ρ c (.xr k)
theorem duties_ds : (rd (F := F) m ρ).duties (cell c .ds) 0 = {false} := duties_cell m ρ c .ds
theorem duties_dr : (rd (F := F) m ρ).duties (cell c .dr) 0 = {false} := duties_cell m ρ c .dr
theorem duties_fs (k : Fin 7) : (rd (F := F) m ρ).duties (cell c (.fs k)) 0 = {false} := duties_cell m ρ c (.fs k)
theorem duties_fr (k : Fin 7) : (rd (F := F) m ρ).duties (cell c (.fr k)) 0 = {false} := duties_cell m ρ c (.fr k)

theorem amount_bar (d : Bool) : (rd (F := F) m ρ).amount (cell c .bar) 0 d = 1 := amount_cell m ρ c .bar d
theorem amount_xs (k : Fin 7) (d : Bool) : (rd (F := F) m ρ).amount (cell c (.xs k)) 0 d = N₁ := amount_cell m ρ c (.xs k) d
theorem amount_xr (k : Fin 7) (d : Bool) : (rd (F := F) m ρ).amount (cell c (.xr k)) 0 d = N₁ := amount_cell m ρ c (.xr k) d
theorem amount_ds (d : Bool) : (rd (F := F) m ρ).amount (cell c .ds) 0 d = N₂ := amount_cell m ρ c .ds d
theorem amount_dr (d : Bool) : (rd (F := F) m ρ).amount (cell c .dr) 0 d = N₂ := amount_cell m ρ c .dr d
theorem amount_fs (k : Fin 7) (d : Bool) : (rd (F := F) m ρ).amount (cell c (.fs k)) 0 d = N₁ := amount_cell m ρ c (.fs k) d
theorem amount_fr (k : Fin 7) (d : Bool) : (rd (F := F) m ρ).amount (cell c (.fr k)) 0 d = N₁ := amount_cell m ρ c (.fr k) d

theorem expect_bar : (rd (F := F) m ρ).expect (cell c .bar) 0 = 2 := by
  unfold Schedule.expect Schedule.amountOf
  rw [duties_bar, Finset.sum_congr rfl fun d _ => amount_bar m ρ c d, Finset.sum_const, Finset.card_univ, Fintype.card_bool, smul_eq_mul]
theorem expect_one (k : CK) (hk : k ≠ .bar) : (rd (F := F) m ρ).expect (cell c k) 0 = amountK (some k) := by
  unfold Schedule.expect Schedule.amountOf
  rw [duties_cell, show dutiesK (some k) = {false} from by cases k <;> first | exact absurd rfl hk | rfl, Finset.sum_singleton, amount_cell]
theorem expect_xs (k : Fin 7) : (rd (F := F) m ρ).expect (cell c (.xs k)) 0 = N₁ := expect_one m ρ c (.xs k) (fun h => by cases h)
theorem expect_xr (k : Fin 7) : (rd (F := F) m ρ).expect (cell c (.xr k)) 0 = N₁ := expect_one m ρ c (.xr k) (fun h => by cases h)
theorem expect_ds : (rd (F := F) m ρ).expect (cell c .ds) 0 = N₂ := expect_one m ρ c .ds (fun h => by cases h)
theorem expect_dr : (rd (F := F) m ρ).expect (cell c .dr) 0 = N₂ := expect_one m ρ c .dr (fun h => by cases h)
theorem expect_fs (k : Fin 7) : (rd (F := F) m ρ).expect (cell c (.fs k)) 0 = N₁ := expect_one m ρ c (.fs k) (fun h => by cases h)
theorem expect_fr (k : Fin 7) : (rd (F := F) m ρ).expect (cell c (.fr k)) 0 = N₁ := expect_one m ρ c (.fr k) (fun h => by cases h)

theorem payload_bar_false : (rd (F := F) m ρ).payload (cell c .bar) 0 false = barPayF c := payload_cell m ρ c .bar false
theorem payload_bar_true : (rd (F := F) m ρ).payload (cell c .bar) 0 true = barPayT c := payload_cell m ρ c .bar true
theorem payload_bar_false_paid : (rd (F := F) m ρ).payload (cell (xp c) .bar) 0 false =
    iprop((∃ f : Buf (Elt F) ((c : Thread nD τ).loc cc0_scratch6), ((c : Thread nD τ).loc cc0_scratch6) ↦{fullShare} f)
      ∗ (∃ f : Buf (Elt F) ((c : Thread nD τ).loc cc0_scratch7), ((c : Thread nD τ).loc cc0_scratch7) ↦{fullShare} f)) := by
  rw [payload_bar_false]; unfold barPayF; rw [xp_xp]
theorem payload_bar_true_paid : (rd (F := F) m ρ).payload (cell (yp c) .bar) 0 true =
    iprop(∃ f : Buf (Elt F) ((c : Thread nD τ).loc cc0_scratch8), ((c : Thread nD τ).loc cc0_scratch8) ↦{fullShare} f) := by
  rw [payload_bar_true]; unfold barPayT; rw [yp_yp]
theorem payload_xs (k : Fin 7) (d : Bool) : (rd (F := F) m ρ).payload (cell c (.xs k)) 0 d =
    ((xsS k).view.loc (c : Thread nD τ) ↦[(xsS k).view.set]{fullShare} xsndB m ρ c) := payload_cell m ρ c (.xs k) d
theorem payload_xr (k : Fin 7) (d : Bool) : (rd (F := F) m ρ).payload (cell c (.xr k)) 0 d =
    ((xrS k).view.loc (c : Thread nD τ) ↦[(xrS k).view.set]{fullShare} xrcvB m ρ c) := payload_cell m ρ c (.xr k) d
theorem payload_ds (d : Bool) : (rd (F := F) m ρ).payload (cell c .ds) 0 d =
    ((dsndM : Memref sig .tc .vmem S128x512 .bf16).view.loc (c : Thread nD τ) ↦[(dsndM : Memref sig .tc .vmem S128x512 .bf16).view.set]{fullShare} dsndB m ρ c) := payload_cell m ρ c .ds d
theorem payload_dr (d : Bool) : (rd (F := F) m ρ).payload (cell c .dr) 0 d =
    ((drcvM : Memref sig .tc .vmem S128x512 .bf16).view.loc (c : Thread nD τ) ↦[(drcvM : Memref sig .tc .vmem S128x512 .bf16).view.set]{fullShare} drcvB m ρ c) := payload_cell m ρ c .dr d
theorem payload_fs (k : Fin 7) (d : Bool) : (rd (F := F) m ρ).payload (cell c (.fs k)) 0 d =
    ((xrS k).view.loc (c : Thread nD τ) ↦[(xrS k).view.set]{fullShare.left} xrcvB m ρ c) := payload_cell m ρ c (.fs k) d
theorem payload_fr (k : Fin 7) (d : Bool) : (rd (F := F) m ρ).payload (cell c (.fr k)) 0 d =
    ((frS k).view.loc (c : Thread nD τ) ↦[(frS k).view.set]{fullShare} frcvB m ρ c) := payload_cell m ρ c (.fr k) d

end Sched

-- What a device owes at entry, as partial sums: `oN` is what is still owed when all but the first N signals are paid.
abbrev o1 (c : Dev nD) : CellTallies nD τ sig Unit := tallyAt (cell (yp c) (.fr 6)) () N₁
abbrev o2 (c : Dev nD) : CellTallies nD τ sig Unit := o1 c + tallyAt (cell (yp c) (.fr 5)) () N₁
abbrev o3 (c : Dev nD) : CellTallies nD τ sig Unit := o2 c + tallyAt (cell (yp c) (.fr 4)) () N₁
abbrev o4 (c : Dev nD) : CellTallies nD τ sig Unit := o3 c + tallyAt (cell (yp c) (.fr 3)) () N₁
abbrev o5 (c : Dev nD) : CellTallies nD τ sig Unit := o4 c + tallyAt (cell (yp c) (.fr 2)) () N₁
abbrev o6 (c : Dev nD) : CellTallies nD τ sig Unit := o5 c + tallyAt (cell (yp c) (.fr 1)) () N₁
abbrev o7 (c : Dev nD) : CellTallies nD τ sig Unit := o6 c + tallyAt (cell (yp c) (.fr 0)) () N₁
abbrev o8 (c : Dev nD) : CellTallies nD τ sig Unit := o7 c + tallyAt (cell (xp c) .dr) () N₂
abbrev o9 (c : Dev nD) : CellTallies nD τ sig Unit := o8 c + tallyAt (cell (xp c) (.xr 6)) () N₁
abbrev o10 (c : Dev nD) : CellTallies nD τ sig Unit := o9 c + tallyAt (cell (xp c) (.xr 5)) () N₁
abbrev o11 (c : Dev nD) : CellTallies nD τ sig Unit := o10 c + tallyAt (cell (xp c) (.xr 4)) () N₁
abbrev o12 (c : Dev nD) : CellTallies nD τ sig Unit := o11 c + tallyAt (cell (xp c) (.xr 3)) () N₁
abbrev o13 (c : Dev nD) : CellTallies nD τ sig Unit := o12 c + tallyAt (cell (xp c) (.xr 2)) () N₁
abbrev o14 (c : Dev nD) : CellTallies nD τ sig Unit := o13 c + tallyAt (cell (xp c) (.xr 1)) () N₁
abbrev o15 (c : Dev nD) : CellTallies nD τ sig Unit := o14 c + tallyAt (cell (xp c) (.xr 0)) () N₁
abbrev o16 (c : Dev nD) : CellTallies nD τ sig Unit := o15 c + tallyAt (cell (yp c) .bar) () 1
abbrev o17 (c : Dev nD) : CellTallies nD τ sig Unit := o16 c + tallyAt (cell (xp c) .bar) () 1

def O₀ (c : Dev nD) : CellTallies nD τ sig Unit := o17 c

def L (g : GSem nD τ sig) : Finset Unit := if g.1.2 = .tc then {()} else ∅

def lvK : Option CK → ℕ
  | some .bar => 1
  | some (.xr _) => 2
  | some .dr => 2
  | some (.fr _) => 3
  | _ => 0
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) (u : Unit) : lv (cell c k) u = lvK (some k) := by unfold lv; rw [kindOf_csem]

theorem lv_local (c : Dev nD) (i : Fin 47) (hi : i.val < 17) (u : Unit) : lv ((c : Thread nD τ), .dma i) u = 0 := by
  show lvK (kindN i.val) = 0
  unfold kindN; split_ifs <;> first | omega | rfl

def Above (n : ℕ) (O : CellTallies nD τ sig Unit) : Prop :=
  ∀ (g : GSem nD τ sig) (u : Unit), 0 < O g u → g.1.2 = .tc ∧ n < lv g u

theorem above_tally (n : ℕ) (c' : Dev nD) (k : CK) (a : ℕ) (hk : n < lvK (some k)) : Above n (tallyAt (cell c' k) () a) := by
  intro g u hg
  rw [tallyAt_apply] at hg
  by_cases hh : g = cell c' k ∧ u = ()
  · rw [hh.1]; exact ⟨rfl, by rw [lv_cell]; exact hk⟩
  · rw [if_neg hh] at hg; exact absurd hg (Nat.lt_irrefl 0)

theorem above_add {n : ℕ} {O O' : CellTallies nD τ sig Unit} (h : Above n O) (h' : Above n O') : Above n (O + O') := by
  intro g u hg
  rcases Pipeline.add_pos_cases hg with h1 | h2
  · exact h g u h1
  · exact h' g u h2

theorem mayWait_above (c : Dev nD) (sm : SemLoc sig) (n : ℕ) (O : CellTallies nD τ sig Unit)
    (hsm : lv ((c : Thread nD τ), sm) () ≤ n) (h : Above n O) :
    (levAts L lv : sProp 𝕄) ⊢ MayWait (c : Thread nD τ) sm () O :=
  Pipeline.mayWait_of_levAts (by rw [L_tc]; exact Finset.mem_singleton_self _)
    (fun g u hg => ⟨by unfold L; rw [if_pos (h g u hg).1]; exact Finset.mem_singleton_self _, lt_of_le_of_lt hsm (h g u hg).2⟩)

def mineB (c : Dev nD) : (cc0_scratch2 : Ref sig .tc).ty.Contents (Elt F) :=
  ((inM.slice (Rect.unit (s := S1x1024x1024) (k0_off1 c) S1x1024x512.size (k0_off1_inb c)) (fun _ => rfl)).squeeze S1024x512 squeezes_S1x1024x512_S1024x512).view.read (Elt F) (X m ρ c)

theorem inbM (k : Fin 7) (j : Fin 2) : ∀ a, (![128 * k.val, 256 * j.val] : Fin 2 → Nat) a + S128x256.size a ≤ S1024x512.size a := by
  revert k j; decide

def mineBlk (c : Dev nD) (k : Fin 7) (j : Fin 2) : Vec F S128x256 .f32 :=
  (mineM : Memref sig .tc .vmem S1024x512 .f32).view.readAt (Elt F) (Rect.unit (s := S1024x512) ![128 * k.val, 256 * j.val] S128x256.size (inbM k j)).toLoadRect (mineB m ρ c)

def xrcvBlk (c : Dev nD) (k : Fin 7) : Vec F S1x128x256 .bf16 :=
  (xrcvM : Memref sig .tc .vmem S7x128x256 .bf16).view.readAt (Elt F) (Rect.unit (s := S7x128x256) ![k.val, 0, 0] S1x128x256.size (inb7 k)).toLoadRect (xrcvB m ρ c)
def frcvBlk (c : Dev nD) (k : Fin 7) : Vec F S1x128x256 .bf16 :=
  (frcvM : Memref sig .tc .vmem S7x128x256 .bf16).view.readAt (Elt F) (Rect.unit (s := S7x128x256) ![k.val, 0, 0] S1x128x256.size (inb7 k)).toLoadRect (frcvB m ρ c)

def payA (k : Fin 7) : Vec F S128x256 .f32 → Vec F S1x128x256 .bf16 → FVec F S1x128x256 .f32 := match k with | 0 => k0_pay10 | 1 => k0_pay12 | 2 => k0_pay14 | 3 => k0_pay16 | 4 => k0_pay18 | 5 => k0_pay20 | 6 => k0_pay22
def payB (k : Fin 7) : Vec F S128x256 .f32 → Vec F S1x128x256 .bf16 → FVec F S1x128x256 .f32 := match k with | 0 => k0_pay11 | 1 => k0_pay13 | 2 => k0_pay15 | 3 => k0_pay17 | 4 => k0_pay19 | 5 => k0_pay21 | 6 => k0_pay23
def payC (k : Fin 7) : Vec F S128x256 .f32 → Vec F S1x128x256 .bf16 → FVec F S1x128x256 .f32 := match k with | 0 => k0_pay24 | 1 => k0_pay26 | 2 => k0_pay28 | 3 => k0_pay30 | 4 => k0_pay32 | 5 => k0_pay34 | 6 => k0_pay36
def payD (k : Fin 7) : Vec F S128x256 .f32 → Vec F S1x128x256 .bf16 → FVec F S1x128x256 .f32 := match k with | 0 => k0_pay25 | 1 => k0_pay27 | 2 => k0_pay29 | 3 => k0_pay31 | 4 => k0_pay33 | 5 => k0_pay35 | 6 => k0_pay37

def lowHalf (c : Dev nD) (k : Fin 7) : FVec F S1x128x256 .f32 :=
  if hb c = 0 then payA k (mineBlk m ρ c k 0) (xrcvBlk m ρ c k) else payD k (mineBlk m ρ c k 0) (frcvBlk m ρ c k)
def highHalf (c : Dev nD) (k : Fin 7) : FVec F S1x128x256 .f32 :=
  if hb c = 0 then payC k (mineBlk m ρ c k 1) (frcvBlk m ρ c k) else payB k (mineBlk m ρ c k 1) (xrcvBlk m ρ c k)

def lastRow (c : Dev nD) : FVec F S1x128x512 .f32 :=
  k0_pay38 ((mineM : Memref sig .tc .vmem S1024x512 .f32).view.readAt (Elt F) (Rect.unit (s := S1024x512) ![896, 0] S128x512.size inb_S1024x512_S128x512_896_0).toLoadRect (mineB m ρ c))
    ((drcvM : Memref sig .tc .vmem S128x512 .bf16).view.readAt (Elt F) (Rect.unit (s := S128x512) ![0, 0] S128x512.size inb_S128x512_S128x512_0_0).toLoadRect (drcvB m ρ c))

def idxLo (j : S8x128x512.Idx) (h : (j 2).val < 256) : S1x128x256.Idx := fun a =>
  match a with
  | ⟨0, _⟩ => (⟨0, by decide⟩ : Fin 1)
  | ⟨1, _⟩ => (j 1 : Fin 128)
  | ⟨2, _⟩ => (⟨(j 2).val, h⟩ : Fin 256)
  | ⟨_ + 3, h'⟩ => absurd h' (Nat.not_lt.2 (Nat.le_add_left _ _))
def idxHi (j : S8x128x512.Idx) (h : 256 ≤ (j 2).val) : S1x128x256.Idx := fun a =>
  match a with
  | ⟨0, _⟩ => (⟨0, by decide⟩ : Fin 1)
  | ⟨1, _⟩ => (j 1 : Fin 128)
  | ⟨2, _⟩ => (⟨(j 2).val - 256, by have h2 : (j 2).val < 512 := (j 2).isLt; omega⟩ : Fin 256)
  | ⟨_ + 3, h'⟩ => absurd h' (Nat.not_lt.2 (Nat.le_add_left _ _))
def idxRow (j : S8x128x512.Idx) : S1x128x512.Idx := fun a =>
  match a with
  | ⟨0, _⟩ => (⟨0, by decide⟩ : Fin 1)
  | ⟨1, _⟩ => (j 1 : Fin 128)
  | ⟨2, _⟩ => (j 2 : Fin 512)
  | ⟨_ + 3, h'⟩ => absurd h' (Nat.not_lt.2 (Nat.le_add_left _ _))

-- The result buffer: row blocks 0–6 as two halves (own columns plus what `xp c` sent, directly or through `yp c`), row block 7 whole.
def obufB (c : Dev nD) : (cc0_scratch3 : Ref sig .tc).ty.Contents (Elt F) :=
  show Vec F S8x128x512 .f32 from fun j =>
    if h7 : (j 0).val < 7 then
      if h2 : (j 2).val < 256 then lowHalf m ρ c ⟨(j 0).val, h7⟩ (idxLo j h2)
      else highHalf m ρ c ⟨(j 0).val, h7⟩ (idxHi j (Nat.le_of_not_lt h2))
    else lastRow m ρ c (idxRow j)

def idxOut (i : S1024x512.Idx) : S8x128x512.Idx := fun a =>
  match a with
  | ⟨0, _⟩ => (⟨(i 0).val / 128, by have h : (i 0).val < 1024 := (i 0).isLt; omega⟩ : Fin 8)
  | ⟨1, _⟩ => (⟨(i 0).val % 128, Nat.mod_lt _ (by decide)⟩ : Fin 128)
  | ⟨2, _⟩ => (i 1 : Fin 512)
  | ⟨_ + 3, h'⟩ => absurd h' (Nat.not_lt.2 (Nat.le_add_left _ _))

def outV (c : Dev nD) : Buf (Elt F) ((c : Thread nD τ).loc main_v1) :=
  show Vec F S1024x512 .f32 from fun i => obufB m ρ c (idxOut i)

def creds (c : Dev nD) : sProp 𝕄 :=
  iprop(cred (tallyAt (cell c .bar) () 2)
    ∗ cred (tallyAt (cell c (.xr 0)) () N₁)
    ∗ cred (tallyAt (cell c (.xr 1)) () N₁)
    ∗ cred (tallyAt (cell c (.xr 2)) () N₁)
    ∗ cred (tallyAt (cell c (.xr 3)) () N₁)
    ∗ cred (tallyAt (cell c (.xr 4)) () N₁)
    ∗ cred (tallyAt (cell c (.xr 5)) () N₁)
    ∗ cred (tallyAt (cell c (.xr 6)) () N₁)
    ∗ cred (tallyAt (cell c .dr) () N₂)
    ∗ cred (tallyAt (cell c (.fr 0)) () N₁)
    ∗ cred (tallyAt (cell c (.fr 1)) () N₁)
    ∗ cred (tallyAt (cell c (.fr 2)) () N₁)
    ∗ cred (tallyAt (cell c (.fr 3)) () N₁)
    ∗ cred (tallyAt (cell c (.fr 4)) () N₁)
    ∗ cred (tallyAt (cell c (.fr 5)) () N₁)
    ∗ cred (tallyAt (cell c (.fr 6)) () N₁))

def start (c : Dev nD) : sProp 𝕄 := iprop(G' (rd m ρ) c ∗ creds c ∗ levAts L lv)

def scratch9 (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f)
    ∗ (∃ f : Buf (Elt F) ((c : Thread nD τ).loc cc0_scratch8), ((c : Thread nD τ).loc cc0_scratch8) ↦{fullShare} f))

def Φ₀ (c : Dev nD) : sProp 𝕄 :=
  iprop(start m ρ c ∗ scratch9 c
    ∗ (((c : Thread nD τ).loc main_arg0) ↦{fullShare} X m ρ c)
    ∗ (((c : Thread nD τ).loc main_v1) ↦{fullShare} (s₀ m ρ).mem ((c : Thread nD τ).loc main_v1)))

def Φ₁ (c : Dev nD) : sProp 𝕄 :=
  iprop(scratch9 c
    ∗ Pipeline.ownSems0 (Ix := Unit) (Name := ℕ) (U := UU) (Lvl := ℕ) (Val := Elt F) (τ := τ) osem c
    ∗ (((c : Thread nD τ).loc main_arg0) ↦{fullShare} X m ρ c)
    ∗ (((c : Thread nD τ).loc main_v1) ↦{fullShare} outV m ρ c))

def dats (_ : Fin 1) (c : Dev nD) : Dat τ (Elt F) Unit ℕ UU ℕ cfg0 c where
  A w := w.elim0
  after w := w.elim0
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- info: 'Cert.KernelIdeal.RS.mayWait_above' depends on axioms: [propext, Classical.choice, Quot.sound] -/
#guard_msgs in #print axioms mayWait_above

end Cert.KernelIdeal.RS

end
-- ==== Proof.RunGen.lean ====
import proofs.«901040_g7700000000001041_dist_rs_v7x_xyz2x4x4_x_m1024_n512_bf16_1_alg».proof.Proof.Ghost
import Idealize.ShloMosaic.Lib.Pipeline.Launch
import Idealize.ShloMosaic.Lib.Pipeline.Kit
import Idealize.ShloMosaic.Lib.Rounds
import Idealize.ShloMosaic.Lib.Tactic

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def IsLanding : CK → Bool
  | .bar => true | .xr _ => true | .dr => true | .fr _ => true
  | .xs _ => false | .ds => false | .fs _ => false

def landing : Finset CK := Finset.univ.filter fun k => IsLanding k = true

def landingList : List CK := [.bar, .xr 0, .xr 1, .xr 2, .xr 3, .xr 4, .xr 5, .xr 6, .dr, .fr 0, .fr 1, .fr 2, .fr 3, .fr 4, .fr 5, .fr 6]
theorem landing_eq : landing = landingList.toFinset := by decide
theorem landingList_nodup : landingList.Nodup := by decide

def credOf (amt : CK → ℕ) (c : Dev nD) : CellTallies nD τ sig Unit := ∑ k ∈ landing, tallyAt (cell c k) () (amt k)

theorem credOf_own (amt : CK → ℕ) (d : Dev nD) (g : GSem nD τ sig) (h : credOf amt d g ≠ 0) : g.1 = (d.tc : Thread nD τ) := by
  unfold credOf at h
  rw [Finset.sum_apply] at h
  by_contra hne
  refine h (Finset.sum_eq_zero fun k _ => ?_)
  unfold tallyAt tallyOn
  exact Pi.single_eq_of_ne (fun hg => hne (by rw [hg])) _

theorem launchCred_landing (O₀ : Dev nD → CellTallies nD τ sig Unit) (amt : CK → ℕ) (hsum : (∑ d, O₀ d) = ∑ d, credOf amt d) (c : Dev nD) :
    (Pipeline.launchCred O₀ c : sProp (MT nD τ sig Unit (Elt F) ℕ UU ℕ)) = bigSep landing fun k => cred (tallyAt (cell c k) () (amt k)) := by
  rw [Pipeline.launchCred_of_sum O₀ (credOf amt) hsum (credOf_own amt) c]; unfold credOf; exact Pipeline.cred_finsetSum _ _

theorem bigSep_landing (Φ : CK → sProp (MT nD τ sig Unit (Elt F) ℕ UU ℕ)) :
    bigSep landing Φ = iprop(Φ .bar ∗ Φ (.xr 0) ∗ Φ (.xr 1) ∗ Φ (.xr 2) ∗ Φ (.xr 3) ∗ Φ (.xr 4) ∗ Φ (.xr 5) ∗ Φ (.xr 6) ∗ Φ .dr
      ∗ Φ (.fr 0) ∗ Φ (.fr 1) ∗ Φ (.fr 2) ∗ Φ (.fr 3) ∗ Φ (.fr 4) ∗ Φ (.fr 5) ∗ Φ (.fr 6)) :=
  bigSep_eq_bigSepL_of_eq landingList landing_eq landingList_nodup Φ

theorem sum_tally_xp (k : CK) (n : ℕ) : (∑ d : Dev nD, (tallyAt (cell (xp d) k) () n : CellTallies nD τ sig Unit)) = ∑ d : Dev nD, tallyAt (cell d k) () n :=
  Equiv.sum_comp xpEquiv (fun d : Dev nD => (tallyAt (cell d k) () n : CellTallies nD τ sig Unit))
theorem sum_tally_yp (k : CK) (n : ℕ) : (∑ d : Dev nD, (tallyAt (cell (yp d) k) () n : CellTallies nD τ sig Unit)) = ∑ d : Dev nD, tallyAt (cell d k) () n :=
  Equiv.sum_comp ypEquiv (fun d : Dev nD => (tallyAt (cell d k) () n : CellTallies nD τ sig Unit))

section Run
variable (m : (ℓ : Loc nD τ sig) → Buf (Elt F) ℓ) (ρ : Dev nD → PrngReg)

def QY (outV : (c : Dev nD) → Buf (Elt F) ((c : Thread nD τ).loc main_v1)) (c : Dev nD) (s : MemSt nD τ sig (Elt F)) : Prop :=
  s.mem ((c.tc : Thread nD τ).loc main_v1) = outV c ∧ s.mem ((c.tc : Thread nD τ).loc main_arg0) = m ((c.tc : Thread nD τ).loc main_arg0)

theorem ownSemFacts : Pipeline.OwnSemFacts cfg0.spec osem := by decide

set_option maxRecDepth 8000 in

theorem run_of
    (rd : Rounds.Schedule (GSem nD τ sig) Bool (MT nD τ sig Unit (Elt F) ℕ UU ℕ))
    [∀ g r d, BI.Storable (upEmb : UEmb _ (MT nD τ sig Unit (Elt F) ℕ UU ℕ)) (rd.payload g r d)]
    (O₀ : Dev nD → CellTallies nD τ sig Unit) (L : GSem nD τ sig → Finset Unit) (lv : GSem nD τ sig → Unit → ℕ)
    (hL : ∀ g : GSem nD τ sig, g.1.2 ≠ .tc → L g = ∅)
    (dats : (p : Fin 1) → (c : Dev nD) → Dat τ (Elt F) Unit ℕ UU ℕ (cfgs p) c)
    (hbody : ∀ c : Dev nD, BodyObligation (dats 0 c) (defs₀ (F := F)) 𝒱₀ () Set.univ)
    (h0 : ∀ c : Dev nD, (dats 0 c).owed 0 = O₀ c) (hN : ∀ c : Dev nD, (dats 0 c).owed (Fin.last _) = 0)
    (outV : (c : Dev nD) → Buf (Elt F) ((c : Thread nD τ).loc main_v1))
    (X : Dev nD → sProp (MT nD τ sig Unit (Elt F) ℕ UU ℕ))
    (hX : ∀ c : Dev nD, iprop(Pipeline.unscopedRestP Pipeline.Prefetch.none cfg0.spec c (fun b => m ((c : Thread nD τ).loc b)) ∗ levAts L lv
        ∗ Pipeline.launchCred O₀ c ∗ prngReg c (ρ c) ∗ G' rd c) ⊢ |={Set.univ}=> iprop(X c ∗ emp))
    (hin : ∀ c : Dev nD, iprop(X c ∗ Pipeline.prefHeld Pipeline.Prefetch.none c (fun _ => fullShare.right) (fun k => k.elim0) ∗ Pipeline.scopedRest cfg0.spec c) ⊢ (dats 0 c).Φ 0)
    (hout : ∀ c : Dev nD, (dats 0 c).Φ (Fin.last cfg0.N) ⊢ iprop(((((c : Thread nD τ).loc main_arg0) ↦{fullShare} (m ((c : Thread nD τ).loc main_arg0))) ∗ (((c : Thread nD τ).loc main_v1) ↦{fullShare} (outV c)))
        ∗ Pipeline.ownSems0 osem c ∗ Pipeline.scopedRest cfg0.spec c)) :
    θ_run defs (onTc (τ := τ) (main (F := F))) (s₀ m ρ) (fun r => ∀ c : Dev nD,
        r.2.mem ((c.tc : Thread nD τ).loc main_v1) = outV c ∧ r.2.mem ((c.tc : Thread nD τ).loc main_arg0) = m ((c.tc : Thread nD τ).loc main_arg0)) :=
  Pipeline.θ_run_region_owing_glob_pf (fun p => (cfgs p).toPCfg) (fun p => (cfgs p).toPCfg_adm) dats () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := fun c w => w.elim0)
    (hdistinct := winFacts0.arr_inj)
    (O₀ := O₀) (howed₀ := h0) (howedN := hN)
    (L := L) (lv := lv) (hL := hL) (hwaits := fun c => Pipeline.cellsWaits_intro cfgs dats () 0 c fun w s t => w.elim0)
    (G := G rd) (G' := G' rd) (u₀ := u₀)
    (hu₀ := hu0 rd)
    (hglob := glob rd)
    (hA := fun _ w => w.elim0) (hpf := fun _ k => k.elim0)
    (X := X) (Y := fun c => iprop((((c : Thread nD τ).loc main_arg0) ↦{fullShare} (m ((c : Thread nD τ).loc main_arg0))) ∗ (((c : Thread nD τ).loc main_v1) ↦{fullShare} (outV c)))) (Z := fun _ => iprop(emp))
    (hX := hX) (hin := hin) (hout := hout)
    (QY := QY m outV)
    (hY := fun c s' => by
      iintro ⟨⟨Hin, Hout⟩, -, HSI⟩
      icombine HSI Hin gives %h1
      icombine HSI Hout gives %h2
      imodintro
      isplitr; · ipureintro; exact ⟨Buf.eq_of_forall_mem_univ h2, Buf.eq_of_forall_mem_univ h1⟩
      iexact HSI)
    (hQ := fun s h c => (h c).2.2)

end Run

/-- info: 'Cert.KernelIdeal.RS.run_of' depends on axioms: [propext, Classical.choice, Quot.sound] -/
#guard_msgs in #print axioms run_of

end Cert.KernelIdeal.RS

end
-- ==== Proof.RunPre.lean ====
import proofs.«901040_g7700000000001041_dist_rs_v7x_xyz2x4x4_x_m1024_n512_bf16_1_alg».proof.Proof.Proto
import proofs.«901040_g7700000000001041_dist_rs_v7x_xyz2x4x4_x_m1024_n512_bf16_1_alg».proof.Proof.RunGen

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def amt : CK → ℕ
  | .bar => 2 | .dr => N₂ | .ds => N₂ | _ => N₁

theorem O₀_sum : (∑ d : Dev nD, O₀ d) = ∑ d : Dev nD, credOf amt d := by
  unfold O₀ o17 o16 o15 o14 o13 o12 o11 o10 o9 o8 o7 o6 o5 o4 o3 o2 o1 credOf
  rw [Finset.sum_comm, landing_eq, List.sum_toFinset _ landingList_nodup]
  simp only [Finset.sum_add_distrib, sum_tally_xp, sum_tally_yp, landingList, List.map_cons, List.map_nil, List.sum_cons, List.sum_nil, amt,
    ← tallyAt_add _ () 1 1, add_zero]
  ac_rfl

theorem creds_intro (c : Dev nD) : (Pipeline.launchCred O₀ c : sProp (MT nD τ sig Unit (Elt F) ℕ UU ℕ)) ⊢ creds c := by
  rw [launchCred_landing O₀ amt O₀_sum c, bigSep_landing]
  unfold creds
  exact BI.Entails.refl _

def X₀ (c : Dev nD) : sProp 𝕄 :=
  iprop(start m ρ c
    ∗ (((c : Thread nD τ).loc main_arg0) ↦{fullShare} (m ((c : Thread nD τ).loc main_arg0)))
    ∗ (((c : Thread nD τ).loc main_v1) ↦{fullShare} (m ((c : Thread nD τ).loc main_v1))))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (rd m ρ) c)
      ⊢ |={Set.univ}=> iprop(X₀ m ρ c ∗ emp) := by
  rw [Pipeline.unscopedRestP_none, unscopedRest0_eq]
  iintro ⟨⟨Hin, Hout⟩, Hlev, Hcr, -, HG⟩
  ihave Hc := (creds_intro (F := F) c) $$ Hcr
  imodintro
  unfold X₀ start
  isplitl
  · isplitl [HG Hc Hlev]
    · iframe
    isplitl [Hin]; · iexact Hin
    iexact Hout
  · iempintro

theorem phi0_intro (c : Dev nD) :
    iprop(X₀ m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ X₀ scratch9 X
  iintro ⟨⟨Hs, Hin, Hout⟩, -, Hscr⟩
  isplitl [Hs]; · iexact Hs
  isplitl [Hscr]; · iexact Hscr
  isplitl [Hin]; · iexact Hin
  iexact Hout

theorem phi1_exit (c : Dev nD) :
    (dats m ρ 0 c).Φ (Fin.last cfg0.N) ⊢ iprop(((((c : Thread nD τ).loc main_arg0) ↦{fullShare} (m ((c : Thread nD τ).loc main_arg0))) ∗ (((c : Thread nD τ).loc main_v1) ↦{fullShare} (outV m ρ c)))
        ∗ Pipeline.ownSems0 osem c ∗ Pipeline.scopedRest cfg0.spec c) := by
  rw [show (dats m ρ 0 c).Φ (Fin.last cfg0.N) = Φ₁ m ρ c from rfl, scopedRest0_eq]
  unfold Φ₁ scratch9 X
  iintro ⟨Hscr, Hos, Hin, Hout⟩
  isplitl [Hin Hout]
  · isplitl [Hin]; · iexact Hin
    iexact Hout
  isplitl [Hos]; · iexact Hos
  iexact Hscr

theorem run_main_of (hbody : ∀ c : Dev nD, BodyObligation (dats (F := F) m ρ 0 c) (defs₀ (F := F)) 𝒱₀ () Set.univ) :
    θ_run defs (onTc (τ := τ) (main (F := F))) (s₀ m ρ) (fun r => ∀ c : Dev nD,
      r.2.mem ((c.tc : Thread nD τ).loc main_v1) = outV m ρ c ∧ r.2.mem ((c.tc : Thread nD τ).loc main_arg0) = m ((c.tc : Thread nD τ).loc main_arg0)) :=
  run_of m ρ (rd m ρ) O₀ L lv L_of_ne (dats m ρ) hbody (fun _ => rfl) (fun _ => rfl) (outV m ρ) (X₀ m ρ)
    (start_intro m ρ) (phi0_intro m ρ) (phi1_exit m ρ)

/-- info: 'Cert.KernelIdeal.RS.run_main_of' depends on axioms: [propext, Classical.choice, Quot.sound] -/
#guard_msgs in #print axioms run_main_of

end Cert.KernelIdeal.RS

end
-- ==== Proof.Close.lean ====
import proofs.«901040_g7700000000001041_dist_rs_v7x_xyz2x4x4_x_m1024_n512_bf16_1_alg».proof.Proof.Proto

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev slotRect (k : Fin 7) : Rect S7x128x256 := Rect.unit (s := S7x128x256) ![k.val, 0, 0] S1x128x256.size (inb7 k)

theorem slotRect_disjoint {k k' : Fin 7} (h : k ≠ k') : Disjoint (slotRect k).set (slotRect k').set := by
  have hv : k.val ≠ k'.val := fun e => h (Fin.ext e)
  refine Rect.unit_disjoint (0 : Fin 3) ?_
  show k.val + 1 ≤ k'.val ∨ k'.val + 1 ≤ k.val
  omega

theorem mem_slotRect {k : Fin 7} {i : S7x128x256.Idx} : i ∈ (slotRect k).set ↔ (i 0).val = k.val := by
  rw [Rect.mem_set_unit]
  constructor
  · intro h
    have h0 := h 0
    have e1 : (![k.val, 0, 0] : Fin 3 → Nat) 0 = k.val := rfl
    have e2 : S1x128x256.size 0 = 1 := rfl
    rw [e1, e2] at h0
    omega
  · intro h a
    have h0 : ((i 0 : Fin 7) : Nat) < 7 := (i 0).isLt
    have h1 : ((i 1 : Fin 128) : Nat) < 128 := (i 1).isLt
    have h2 : ((i 2 : Fin 256) : Nat) < 256 := (i 2).isLt
    fin_cases a
    · show k.val ≤ (i 0).val ∧ (i 0).val < k.val + 1; omega
    · show 0 ≤ (i 1).val ∧ (i 1).val < 0 + 128; omega
    · show 0 ≤ (i 2).val ∧ (i 2).val < 0 + 256; omega

theorem slotRect_cover : (Finset.univ : Finset (Fin 7)).biUnion (fun k => (slotRect k).set) = Finset.univ := by
  ext i
  simp only [Finset.mem_biUnion, Finset.mem_univ, true_and, iff_true]
  exact ⟨(i 0 : Fin 7), mem_slotRect.mpr rfl⟩

theorem xs_set (k : Fin 7) : (xsS k).view.set = (slotRect k).set := by
  show ((View.whole cc0_scratch4).slice (slotRect k) |>.reshape S128x256 _).set = _
  rw [View.set_reshape, View.set_slice_whole]
theorem xr_set (k : Fin 7) : (xrS k).view.set = (slotRect k).set := by
  show ((View.whole cc0_scratch6).slice (slotRect k) |>.reshape S128x256 _).set = _
  rw [View.set_reshape, View.set_slice_whole]
theorem fr_set (k : Fin 7) : (frS k).view.set = (slotRect k).set := by
  show ((View.whole cc0_scratch8).slice (slotRect k) |>.reshape S128x256 _).set = _
  rw [View.set_reshape, View.set_slice_whole]

theorem bigSep_fin7 (Φ : Fin 7 → sProp (MT nD τ sig Unit (Elt F) ℕ UU ℕ)) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem xs_slots (c : Dev nD) (q : PosShare TreeShare) (f : Buf (Elt F) ((c : Thread nD τ).loc cc0_scratch4)) :
    (((c : Thread nD τ).loc cc0_scratch4) ↦{q} f : sProp (MT nD τ sig Unit (Elt F) ℕ UU ℕ))
      = bigSep Finset.univ fun k : Fin 7 => ((xsS k).view.loc (c : Thread nD τ) ↦[(xsS k).view.set]{q} f) := by
  rw [bigSep_congr (s := Finset.univ) (Ψ := fun k : Fin 7 => (((c : Thread nD τ).loc cc0_scratch4) ↦[(slotRect k).set]{q} f : sProp 𝕄))
    fun k _ => by rw [xs_set]]
  have h := pointsTo_biUnion (Ix := Unit) (Name := ℕ) (U := UU) (Lvl := ℕ) (ℓ := (c : Thread nD τ).loc cc0_scratch4) (q := q) (f := f) Finset.univ
    (fun k : Fin 7 => (slotRect k).set) (fun k _ k' _ h => slotRect_disjoint h)
  rw [slotRect_cover] at h
  exact h

theorem xr_slots (c : Dev nD) (q : PosShare TreeShare) (f : Buf (Elt F) ((c : Thread nD τ).loc cc0_scratch6)) :
    (((c : Thread nD τ).loc cc0_scratch6) ↦{q} f : sProp (MT nD τ sig Unit (Elt F) ℕ UU ℕ))
      = bigSep Finset.univ fun k : Fin 7 => ((xrS k).view.loc (c : Thread nD τ) ↦[(xrS k).view.set]{q} f) := by
  rw [bigSep_congr (s := Finset.univ) (Ψ := fun k : Fin 7 => (((c : Thread nD τ).loc cc0_scratch6) ↦[(slotRect k).set]{q} f : sProp 𝕄))
    fun k _ => by rw [xr_set]]
  have h := pointsTo_biUnion (Ix := Unit) (Name := ℕ) (U := UU) (Lvl := ℕ) (ℓ := (c : Thread nD τ).loc cc0_scratch6) (q := q) (f := f) Finset.univ
    (fun k : Fin 7 => (slotRect k).set) (fun k _ k' _ h => slotRect_disjoint h)
  rw [slotRect_cover] at h
  exact h

theorem fr_slots (c : Dev nD) (q : PosShare TreeShare) (f : Buf (Elt F) ((c : Thread nD τ).loc cc0_scratch8)) :
    (((c : Thread nD τ).loc cc0_scratch8) ↦{q} f : sProp (MT nD τ sig Unit (Elt F) ℕ UU ℕ))
      = bigSep Finset.univ fun k : Fin 7 => ((frS k).view.loc (c : Thread nD τ) ↦[(frS k).view.set]{q} f) := by
  rw [bigSep_congr (s := Finset.univ) (Ψ := fun k : Fin 7 => (((c : Thread nD τ).loc cc0_scratch8) ↦[(slotRect k).set]{q} f : sProp 𝕄))
    fun k _ => by rw [fr_set]]
  have h := pointsTo_biUnion (Ix := Unit) (Name := ℕ) (U := UU) (Lvl := ℕ) (ℓ := (c : Thread nD τ).loc cc0_scratch8) (q := q) (f := f) Finset.univ
    (fun k : Fin 7 => (slotRect k).set) (fun k _ k' _ h => slotRect_disjoint h)
  rw [slotRect_cover] at h
  exact h

theorem pts_halves (ℓ : Loc nD τ sig) (I : Finset (Idx ℓ)) (f : Buf (Elt F) ℓ) :
    (ℓ ↦[I]{fullShare} f : sProp (MT nD τ sig Unit (Elt F) ℕ UU ℕ)) ⊣⊢ iprop((ℓ ↦[I]{fullShare.left} f) ∗ ℓ ↦[I]{fullShare.right} f) :=
  pointsTo_share (PosShare.mem_left_op_right fullShare)

theorem pts_split (ℓ : Loc nD τ sig) (I : Finset (Idx ℓ)) (f : Buf (Elt F) ℓ) :
    (ℓ ↦[I]{fullShare} f : sProp (MT nD τ sig Unit (Elt F) ℕ UU ℕ)) ⊢ iprop((ℓ ↦[I]{fullShare.left} f) ∗ ℓ ↦[I]{fullShare.right} f) :=
  (pts_halves ℓ I f).1
theorem pts_join (ℓ : Loc nD τ sig) (I : Finset (Idx ℓ)) (f : Buf (Elt F) ℓ) :
    iprop((ℓ ↦[I]{fullShare.left} f) ∗ ℓ ↦[I]{fullShare.right} f) ⊢ (ℓ ↦[I]{fullShare} f : sProp (MT nD τ sig Unit (Elt F) ℕ UU ℕ)) :=
  (pts_halves ℓ I f).2

theorem xs_slots7 (c : Dev nD) (q : PosShare TreeShare) (f : Buf (Elt F) ((c : Thread nD τ).loc cc0_scratch4)) :
    (((c : Thread nD τ).loc cc0_scratch4) ↦{q} f : sProp (MT nD τ sig Unit (Elt F) ℕ UU ℕ))
      = iprop(((xsS 0).view.loc (c : Thread nD τ) ↦[(xsS 0).view.set]{q} f) ∗ ((xsS 1).view.loc (c : Thread nD τ) ↦[(xsS 1).view.set]{q} f)
        ∗ ((xsS 2).view.loc (c : Thread nD τ) ↦[(xsS 2).view.set]{q} f) ∗ ((xsS 3).view.loc (c : Thread nD τ) ↦[(xsS 3).view.set]{q} f)
        ∗ ((xsS 4).view.loc (c : Thread nD τ) ↦[(xsS 4).view.set]{q} f) ∗ ((xsS 5).view.loc (c : Thread nD τ) ↦[(xsS 5).view.set]{q} f)
        ∗ ((xsS 6).view.loc (c : Thread nD τ) ↦[(xsS 6).view.set]{q} f)) := by
  rw [xs_slots, bigSep_fin7]
theorem xr_slots7 (c : Dev nD) (q : PosShare TreeShare) (f : Buf (Elt F) ((c : Thread nD τ).loc cc0_scratch6)) :
    (((c : Thread nD τ).loc cc0_scratch6) ↦{q} f : sProp (MT nD τ sig Unit (Elt F) ℕ UU ℕ))
      = iprop(((xrS 0).view.loc (c : Thread nD τ) ↦[(xrS 0).view.set]{q} f) ∗ ((xrS 1).view.loc (c : Thread nD τ) ↦[(xrS 1).view.set]{q} f)
        ∗ ((xrS 2).view.loc (c : Thread nD τ) ↦[(xrS 2).view.set]{q} f) ∗ ((xrS 3).view.loc (c : Thread nD τ) ↦[(xrS 3).view.set]{q} f)
        ∗ ((xrS 4).view.loc (c : Thread nD τ) ↦[(xrS 4).view.set]{q} f) ∗ ((xrS 5).view.loc (c : Thread nD τ) ↦[(xrS 5).view.set]{q} f)
        ∗ ((xrS 6).view.loc (c : Thread nD τ) ↦[(xrS 6).view.set]{q} f)) := by
  rw [xr_slots, bigSep_fin7]
theorem fr_slots7 (c : Dev nD) (q : PosShare TreeShare) (f : Buf (Elt F) ((c : Thread nD τ).loc cc0_scratch8)) :
    (((c : Thread nD τ).loc cc0_scratch8) ↦{q} f : sProp (MT nD τ sig Unit (Elt F) ℕ UU ℕ))
      = iprop(((frS 0).view.loc (c : Thread nD τ) ↦[(frS 0).view.set]{q} f) ∗ ((frS 1).view.loc (c : Thread nD τ) ↦[(frS 1).view.set]{q} f)
        ∗ ((frS 2).view.loc (c : Thread nD τ) ↦[(frS 2).view.set]{q} f) ∗ ((frS 3).view.loc (c : Thread nD τ) ↦[(frS 3).view.set]{q} f)
        ∗ ((frS 4).view.loc (c : Thread nD τ) ↦[(frS 4).view.set]{q} f) ∗ ((frS 5).view.loc (c : Thread nD τ) ↦[(frS 5).view.set]{q} f)
        ∗ ((frS 6).view.loc (c : Thread nD τ) ↦[(frS 6).view.set]{q} f)) := by
  rw [fr_slots, bigSep_fin7]

variable (m : (ℓ : Loc nD τ sig) → Buf (Elt F) ℓ) (ρ : Dev nD → PrngReg)

theorem close_one (K : Dev nD × CK → ℕ) (c : Dev nD) (k : CK) :
    iprop(records (rd m ρ) K ∗ atPos ER (cell c k) 1 ∅ 0) ⊢ (|={Set.univ}=> semVal (cell c k) 0 : sProp (MT nD τ sig Unit (Elt F) ℕ UU ℕ)) := by
  iintro ⟨#HR, Hat⟩
  iapply (Rounds.cell_close ER (rd m ρ) (Set.mem_univ (K (c, k))) (fun h => h) (R := 1) (duties_later m ρ (cell c k)))
  isplitr
  · iapply (inv_at (rd m ρ) K c k); iexact HR
  iexact Hat

theorem close_all (K : Dev nD × CK → ℕ) (c : Dev nD) :
    iprop(records (rd m ρ) K ∗ (bigSep Finset.univ fun k : CK => atPos ER (cell c k) 1 ∅ 0) ∗ localSems0 c)
      ⊢ |={Set.univ}=> (Pipeline.ownSems0 (Ix := Unit) (Name := ℕ) (U := UU) (Lvl := ℕ) (Val := Elt F) (τ := τ) osem c : sProp (MT nD τ sig Unit (Elt F) ℕ UU ℕ)) := by
  rw [bigSep_univ_at (fun k : CK => (atPos ER (cell c k) 1 ∅ 0 : sProp 𝕄)) CK.bar]
  iintro ⟨#HR, ⟨-, Hat⟩, Hloc⟩
  imod (show iprop(records (rd m ρ) K ∗ bigSep (Finset.univ.erase CK.bar) fun k : CK => atPos ER (cell c k) 1 ∅ 0)
      ⊢ (|={Set.univ}=> bigSep (Finset.univ.erase CK.bar) fun k : CK => semVal (cell c k) 0 : sProp 𝕄) from
        (bigSep_with_persistent (R := records (rd m ρ) K) fun k _ => close_one m ρ K c k).trans (bigSep_fupd _ _)) $$ [Hat] with Hv
  · isplitr; · iexact HR
    iexact Hat
  imodintro
  iapply (ownSems0_intro (F := F) c)
  isplitl [Hv]; · iexact Hv
  iexact Hloc

/-- info: 'Cert.KernelIdeal.RS.close_all' depends on axioms: [propext, Classical.choice, Quot.sound] -/
#guard_msgs in #print axioms close_all

/-- info: 'Cert.KernelIdeal.RS.xr_slots7' depends on axioms: [propext, Classical.choice, Quot.sound] -/
#guard_msgs in #print axioms xr_slots7

end Cert.KernelIdeal.RS

end
-- ==== Proof.Wrap.lean ====
import proofs.«901040_g7700000000001041_dist_rs_v7x_xyz2x4x4_x_m1024_n512_bf16_1_alg».proof.Proof.Proto
import proofs.«901040_g7700000000001041_dist_rs_v7x_xyz2x4x4_x_m1024_n512_bf16_1_alg».proof.Proof.Close

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

variable (m : (ℓ : Loc nD τ sig) → Buf (Elt F) ℓ) (ρ : Dev nD → PrngReg)

def bodyPre (K : Dev nD × CK → ℕ) (c : Dev nD) (W : Waits sig Unit)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (f5 : Buf (Elt F) ((c : Thread nD τ).loc cc0_scratch5))
    (f6 : Buf (Elt F) ((c : Thread nD τ).loc cc0_scratch6)) (f7 : Buf (Elt F) ((c : Thread nD τ).loc cc0_scratch7))
    (f8 : Buf (Elt F) ((c : Thread nD τ).loc cc0_scratch8)) : sProp 𝕄 :=
  iprop(records (rd m ρ) K ∗ linear c ∗ creds c ∗ levAts L lv
    ∗ ((stgM : Memref sig .tc .vmem S7x128x256 .f32).view.loc (c : Thread nD τ) ↦{fullShare} f0)
    ∗ ((dstgM : Memref sig .tc .vmem S128x512 .f32).view.loc (c : Thread nD τ) ↦{fullShare} f1)
    ∗ ((mineM : Memref sig .tc .vmem S1024x512 .f32).view.loc (c : Thread nD τ) ↦{fullShare} f2)
    ∗ ((obufM : Memref sig .tc .vmem S8x128x512 .f32).view.loc (c : Thread nD τ) ↦{fullShare} f3)
    ∗ ((xsndM : Memref sig .tc .vmem S7x128x256 .bf16).view.loc (c : Thread nD τ) ↦{fullShare} f4)
    ∗ ((dsndM : Memref sig .tc .vmem S128x512 .bf16).view.loc (c : Thread nD τ) ↦{fullShare} f5)
    ∗ ((xrcvM : Memref sig .tc .vmem S7x128x256 .bf16).view.loc (c : Thread nD τ) ↦{fullShare} f6)
    ∗ ((drcvM : Memref sig .tc .vmem S128x512 .bf16).view.loc (c : Thread nD τ) ↦{fullShare} f7)
    ∗ ((frcvM : Memref sig .tc .vmem S7x128x256 .bf16).view.loc (c : Thread nD τ) ↦{fullShare} f8)
    ∗ ((inM : Memref sig .tc .hbm S1x1024x1024 .f32).view.loc (c : Thread nD τ) ↦{fullShare} X m ρ c)
    ∗ ((outM : Memref sig .tc .hbm S1024x512 .f32).view.loc (c : Thread nD τ) ↦{fullShare} (s₀ m ρ).mem ((c : Thread nD τ).loc main_v1))
    ∗ owes (c : Thread nD τ) (O₀ c) W)

def bodyPost (c : Dev nD) : sProp 𝕄 :=
  iprop(Φ₁ m ρ c ∗ ∃ W' : Waits sig Unit, owes (c : Thread nD τ) (0 : CellTallies nD τ sig Unit) W')

theorem body_obligation_of
    (hbody : ∀ (K : Dev nD × CK → ℕ) (c : Dev nD) (W : Waits sig Unit)
      (f0 : Buf (Elt F) ((c : Thread nD τ).loc cc0_scratch0)) (f1 : Buf (Elt F) ((c : Thread nD τ).loc cc0_scratch1))
      (f2 : Buf (Elt F) ((c : Thread nD τ).loc cc0_scratch2)) (f3 : Buf (Elt F) ((c : Thread nD τ).loc cc0_scratch3))
      (f4 : Buf (Elt F) ((c : Thread nD τ).loc cc0_scratch4)) (f5 : Buf (Elt F) ((c : Thread nD τ).loc cc0_scratch5))
      (f6 : Buf (Elt F) ((c : Thread nD τ).loc cc0_scratch6)) (f7 : Buf (Elt F) ((c : Thread nD τ).loc cc0_scratch7))
      (f8 : Buf (Elt F) ((c : Thread nD τ).loc cc0_scratch8)),
      bodyPre m ρ K c W f0 f1 f2 f3 f4 f5 f6 f7 f8
        ⊢ wp frame (wpE (defs₀ (F := F)) 𝒱₀ (c : Thread nD τ) none) Set.univ (bodyAt0 (F := F) t0_0) (fun _ => bodyPost m ρ c))
    (c : Dev nD) : BodyObligation (dats (F := F) m ρ 0 c) (defs₀ (F := F)) 𝒱₀ () Set.univ := fun t => by
  rw [fin_N0 t]
  rw [show (Finset.univ : Finset (Fin cfg0.W)) = ∅ from rfl, bigSep_empty, bigSep_empty]
  show iprop(Φ₀ m ρ c ∗ (dats (F := F) m ρ 0 c).owesAt () t0_0.castSucc ∗ emp)
    ⊢ wp frame (wpE (defs₀ (F := F)) 𝒱₀ (c : Thread nD τ) none) Set.univ (bodyAt0 (F := F) t0_0)
        (fun _ => iprop(Φ₁ m ρ c ∗ (dats (F := F) m ρ 0 c).owesAt () t0_0.succ ∗ emp))
  unfold Φ₀ start G' scratch9 Dat.owesAt Pipeline.owesWithin
  rw [show (dats (F := F) m ρ 0 c).owed t0_0.castSucc = O₀ c from rfl, show (dats (F := F) m ρ 0 c).owed t0_0.succ = 0 from rfl]
  iintro ⟨⟨⟨⟨%K, Hrec, Hlin⟩, Hcr, Hlev⟩, ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, Hin, Hout⟩, ⟨%W, -, HO⟩, -⟩
  iapply (wp_mono _ _ _ (Q := fun _ => bodyPost m ρ c) fun _ => show bodyPost m ρ c ⊢ _ from by
    unfold bodyPost
    iintro ⟨HΦ, %W', HO'⟩
    isplitl [HΦ]; · iexact HΦ
    isplitl [HO']
    · iexists W'
      isplitr; · ipureintro; exact fun _ _ => Or.inl trivial
      iexact HO'
    · iempintro)
  iapply (hbody K c W f0 f1 f2 f3 f4 f5 f6 f7 f8)
  unfold bodyPre
  iframe

/-- info: 'Cert.KernelIdeal.RS.body_obligation_of' depends on axioms: [propext, Classical.choice, Quot.sound] -/
#guard_msgs in #print axioms body_obligation_of

theorem post_intro (K : Dev nD × CK → ℕ) (c : Dev nD) (W' : Waits sig Unit)
    (g0 : Buf (Elt F) ((c : Thread nD τ).loc cc0_scratch0)) (g1 : Buf (Elt F) ((c : Thread nD τ).loc cc0_scratch1))
    (g2 : Buf (Elt F) ((c : Thread nD τ).loc cc0_scratch2)) (g3 : Buf (Elt F) ((c : Thread nD τ).loc cc0_scratch3))
    (g4 : Buf (Elt F) ((c : Thread nD τ).loc cc0_scratch4)) (g5 : Buf (Elt F) ((c : Thread nD τ).loc cc0_scratch5))
    (g6 : Buf (Elt F) ((c : Thread nD τ).loc cc0_scratch6)) (g7 : Buf (Elt F) ((c : Thread nD τ).loc cc0_scratch7))
    (g8 : Buf (Elt F) ((c : Thread nD τ).loc cc0_scratch8)) :
    iprop(records (rd m ρ) K ∗ (bigSep Finset.univ fun k : CK => atPos ER (cell c k) 1 ∅ 0) ∗ localSems0 c
        ∗ ((stgM : Memref sig .tc .vmem S7x128x256 .f32).view.loc (c : Thread nD τ) ↦{fullShare} g0)
        ∗ ((dstgM : Memref sig .tc .vmem S128x512 .f32).view.loc (c : Thread nD τ) ↦{fullShare} g1)
        ∗ ((mineM : Memref sig .tc .vmem S1024x512 .f32).view.loc (c : Thread nD τ) ↦{fullShare} g2)
        ∗ ((obufM : Memref sig .tc .vmem S8x128x512 .f32).view.loc (c : Thread nD τ) ↦{fullShare} g3)
        ∗ ((xsndM : Memref sig .tc .vmem S7x128x256 .bf16).view.loc (c : Thread nD τ) ↦{fullShare} g4)
        ∗ ((dsndM : Memref sig .tc .vmem S128x512 .bf16).view.loc (c : Thread nD τ) ↦{fullShare} g5)
        ∗ ((xrcvM : Memref sig .tc .vmem S7x128x256 .bf16).view.loc (c : Thread nD τ) ↦{fullShare} g6)
        ∗ ((drcvM : Memref sig .tc .vmem S128x512 .bf16).view.loc (c : Thread nD τ) ↦{fullShare} g7)
        ∗ ((frcvM : Memref sig .tc .vmem S7x128x256 .bf16).view.loc (c : Thread nD τ) ↦{fullShare} g8)
        ∗ ((inM : Memref sig .tc .hbm S1x1024x1024 .f32).view.loc (c : Thread nD τ) ↦{fullShare} X m ρ c)
        ∗ ((outM : Memref sig .tc .hbm S1024x512 .f32).view.loc (c : Thread nD τ) ↦{fullShare} outV m ρ c)
        ∗ owes (c : Thread nD τ) (0 : CellTallies nD τ sig Unit) W')
      ⊢ |={Set.univ}=> bodyPost m ρ c := by
  iintro ⟨#HR, Hat, Hloc, H0, H1, H2, H3, H4, H5, H6, H7, H8, Hin, Hout, HO⟩
  imod (close_all m ρ K c) $$ [Hat Hloc] with Hos
  · isplitr; · iexact HR
    isplitl [Hat] <;> iassumption
  imodintro
  unfold bodyPost Φ₁ scratch9
  isplitr [HO]
  · isplitl [H0 H1 H2 H3 H4 H5 H6 H7 H8]
    · isplitl [H0]; · iexists g0; iexact H0
      isplitl [H1]; · iexists g1; iexact H1
      isplitl [H2]; · iexists g2; iexact H2
      isplitl [H3]; · iexists g3; iexact H3
      isplitl [H4]; · iexists g4; iexact H4
      isplitl [H5]; · iexists g5; iexact H5
      isplitl [H6]; · iexists g6; iexact H6
      isplitl [H7]; · iexists g7; iexact H7
      iexists g8; iexact H8
    iframe
  · iexists W'; iexact HO

/-- info: 'Cert.KernelIdeal.RS.post_intro' depends on axioms: [propext, Classical.choice, Quot.sound] -/
#guard_msgs in #print axioms post_intro

end Cert.KernelIdeal.RS

end
-- ==== Proof.Devices.lean ====
import proofs.«901040_g7700000000001041_dist_rs_v7x_xyz2x4x4_x_m1024_n512_bf16_1_alg».proof.Proof.Common

noncomputable section

namespace Cert.KernelIdeal.RS

open Cert.KernelIdeal Cert.KernelIdeal.Gen
open Idealize.ShloMosaic

theorem hb_cases (c : Dev nD) : hb c = 0 ∨ hb c = 1 := by
  have h := hb_lt c
  omega

@[sl_canon] theorem dev1_eq (c : Dev nD) : (⟨k0_dev1 c, Gen.k0_dev1_lt c⟩ : Dev nD) = xp c := by
  revert c; decide +kernel
@[sl_canon] theorem dev3_eq (c : Dev nD) : (⟨k0_dev3 c, Gen.k0_dev3_lt c⟩ : Dev nD) = xp c := by
  revert c; decide +kernel
@[sl_canon] theorem dev4_eq (c : Dev nD) : (⟨k0_dev4 c, Gen.k0_dev4_lt c⟩ : Dev nD) = xp c := by
  revert c; decide +kernel
@[sl_canon] theorem dev5_eq (c : Dev nD) : (⟨k0_dev5 c, Gen.k0_dev5_lt c⟩ : Dev nD) = xp c := by
  revert c; decide +kernel
@[sl_canon] theorem dev6_eq (c : Dev nD) : (⟨k0_dev6 c, Gen.k0_dev6_lt c⟩ : Dev nD) = xp c := by
  revert c; decide +kernel
@[sl_canon] theorem dev7_eq (c : Dev nD) : (⟨k0_dev7 c, Gen.k0_dev7_lt c⟩ : Dev nD) = xp c := by
  revert c; decide +kernel
@[sl_canon] theorem dev8_eq (c : Dev nD) : (⟨k0_dev8 c, Gen.k0_dev8_lt c⟩ : Dev nD) = xp c := by
  revert c; decide +kernel
@[sl_canon] theorem dev9_eq (c : Dev nD) : (⟨k0_dev9 c, Gen.k0_dev9_lt c⟩ : Dev nD) = xp c := by
  revert c; decide +kernel
@[sl_canon] theorem dev10_eq (c : Dev nD) : (⟨k0_dev10 c, Gen.k0_dev10_lt c⟩ : Dev nD) = xp c := by
  revert c; decide +kernel

@[sl_canon] theorem dev2_eq (c : Dev nD) : (⟨k0_dev2 c, Gen.k0_dev2_lt c⟩ : Dev nD) = yp c := by
  revert c; decide +kernel
@[sl_canon] theorem dev11_eq (c : Dev nD) : (⟨k0_dev11 c, Gen.k0_dev11_lt c⟩ : Dev nD) = yp c := by
  revert c; decide +kernel
@[sl_canon] theorem dev12_eq (c : Dev nD) : (⟨k0_dev12 c, Gen.k0_dev12_lt c⟩ : Dev nD) = yp c := by
  revert c; decide +kernel
@[sl_canon] theorem dev13_eq (c : Dev nD) : (⟨k0_dev13 c, Gen.k0_dev13_lt c⟩ : Dev nD) = yp c := by
  revert c; decide +kernel
@[sl_canon] theorem dev14_eq (c : Dev nD) : (⟨k0_dev14 c, Gen.k0_dev14_lt c⟩ : Dev nD) = yp c := by
  revert c; decide +kernel
@[sl_canon] theorem dev15_eq (c : Dev nD) : (⟨k0_dev15 c, Gen.k0_dev15_lt c⟩ : Dev nD) = yp c := by
  revert c; decide +kernel
@[sl_canon] theorem dev16_eq (c : Dev nD) : (⟨k0_dev16 c, Gen.k0_dev16_lt c⟩ : Dev nD) = yp c := by
  revert c; decide +kernel
@[sl_canon] theorem dev17_eq (c : Dev nD) : (⟨k0_dev17 c, Gen.k0_dev17_lt c⟩ : Dev nD) = yp c := by
  revert c; decide +kernel

theorem dev_eqs (c : Dev nD) :
    (⟨k0_dev1 c, Gen.k0_dev1_lt c⟩ : Dev nD) = xp c ∧
    (⟨k0_dev2 c, Gen.k0_dev2_lt c⟩ : Dev nD) = yp c ∧
    (⟨k0_dev3 c, Gen.k0_dev3_lt c⟩ : Dev nD) = xp c ∧
    (⟨k0_dev4 c, Gen.k0_dev4_lt c⟩ : Dev nD) = xp c ∧
    (⟨k0_dev5 c, Gen.k0_dev5_lt c⟩ : Dev nD) = xp c ∧
    (⟨k0_dev6 c, Gen.k0_dev6_lt c⟩ : Dev nD) = xp c ∧
    (⟨k0_dev7 c, Gen.k0_dev7_lt c⟩ : Dev nD) = xp c ∧
    (⟨k0_dev8 c, Gen.k0_dev8_lt c⟩ : Dev nD) = xp c ∧
    (⟨k0_dev9 c, Gen.k0_dev9_lt c⟩ : Dev nD) = xp c ∧
    (⟨k0_dev10 c, Gen.k0_dev10_lt c⟩ : Dev nD) = xp c ∧
    (⟨k0_dev11 c, Gen.k0_dev11_lt c⟩ : Dev nD) = yp c ∧
    (⟨k0_dev12 c, Gen.k0_dev12_lt c⟩ : Dev nD) = yp c ∧
    (⟨k0_dev13 c, Gen.k0_dev13_lt c⟩ : Dev nD) = yp c ∧
    (⟨k0_dev14 c, Gen.k0_dev14_lt c⟩ : Dev nD) = yp c ∧
    (⟨k0_dev15 c, Gen.k0_dev15_lt c⟩ : Dev nD) = yp c ∧
    (⟨k0_dev16 c, Gen.k0_dev16_lt c⟩ : Dev nD) = yp c ∧
    (⟨k0_dev17 c, Gen.k0_dev17_lt c⟩ : Dev nD) = yp c :=
  ⟨dev1_eq c, dev2_eq c, dev3_eq c, dev4_eq c, dev5_eq c, dev6_eq c, dev7_eq c, dev8_eq c, dev9_eq c, dev10_eq c, dev11_eq c, dev12_eq c, dev13_eq c, dev14_eq c, dev15_eq c, dev16_eq c, dev17_eq c⟩

theorem off1_eq (c : Dev nD) : k0_off1 c = ![0, 0, 512 * mx c] := Gen.k0_off1_eq c

theorem off2_eq (c : Dev nD) : k0_off2 c = ![0, 0, (512 - 512 * mx c) + 256 * hb c] := by
  revert c; decide +kernel

theorem off3_eq (c : Dev nD) : k0_off3 c = ![0, 128, (512 - 512 * mx c) + 256 * hb c] := by
  revert c; decide +kernel

theorem off4_eq (c : Dev nD) : k0_off4 c = ![0, 256, (512 - 512 * mx c) + 256 * hb c] := by
  revert c; decide +kernel

theorem off5_eq (c : Dev nD) : k0_off5 c = ![0, 384, (512 - 512 * mx c) + 256 * hb c] := by
  revert c; decide +kernel

theorem off6_eq (c : Dev nD) : k0_off6 c = ![0, 512, (512 - 512 * mx c) + 256 * hb c] := by
  revert c; decide +kernel

theorem off7_eq (c : Dev nD) : k0_off7 c = ![0, 640, (512 - 512 * mx c) + 256 * hb c] := by
  revert c; decide +kernel

theorem off8_eq (c : Dev nD) : k0_off8 c = ![0, 768, (512 - 512 * mx c) + 256 * hb c] := by
  revert c; decide +kernel

theorem off9_eq (c : Dev nD) : k0_off9 c = ![0, 896, 512 - 512 * mx c] := Gen.k0_off9_eq c

instance closedOff_k0_off2 (c : Dev nD) : ClosedOff (k0_off2 c) := ⟨![0, 0, (512 - 512 * mx c) + 256 * hb c], off2_eq c⟩
instance closedOff_k0_off3 (c : Dev nD) : ClosedOff (k0_off3 c) := ⟨![0, 128, (512 - 512 * mx c) + 256 * hb c], off3_eq c⟩
instance closedOff_k0_off4 (c : Dev nD) : ClosedOff (k0_off4 c) := ⟨![0, 256, (512 - 512 * mx c) + 256 * hb c], off4_eq c⟩
instance closedOff_k0_off5 (c : Dev nD) : ClosedOff (k0_off5 c) := ⟨![0, 384, (512 - 512 * mx c) + 256 * hb c], off5_eq c⟩
instance closedOff_k0_off6 (c : Dev nD) : ClosedOff (k0_off6 c) := ⟨![0, 512, (512 - 512 * mx c) + 256 * hb c], off6_eq c⟩
instance closedOff_k0_off7 (c : Dev nD) : ClosedOff (k0_off7 c) := ⟨![0, 640, (512 - 512 * mx c) + 256 * hb c], off7_eq c⟩
instance closedOff_k0_off8 (c : Dev nD) : ClosedOff (k0_off8 c) := ⟨![0, 768, (512 - 512 * mx c) + 256 * hb c], off8_eq c⟩

def x2word (c : Dev nD) : BitVec 32 := Scalar.remsi (Scalar.divsi (Dev.word c) 16#32) 2#32

def y5word (c : Dev nD) : BitVec 32 := Scalar.remsi (Scalar.divsi (Dev.word c) 4#32) 4#32

def z8word (c : Dev nD) : BitVec 32 := Scalar.remsi (Scalar.divsi (Dev.word c) 1#32) 4#32

def x9word (c : Dev nD) : BitVec 32 := Scalar.subi 1#32 (x2word c)

def y10word (c : Dev nD) : BitVec 32 := Scalar.xori (y5word c) 1#32

def hword (c : Dev nD) : BitVec 32 :=
  let v5 : BitVec 32 := y5word c
  let v11 : BitVec 1 := Scalar.cmpi .eq (2#32 : BitVec 32) 0#32
  let v12 : BitVec 32 := Scalar.select v11 1#32 2#32
  let v13 : BitVec 32 := Scalar.remsi v5 v12
  let v14 : BitVec 1 := Scalar.cmpi .ne v13 0#32
  let v15 : BitVec 1 := Scalar.cmpi .slt v13 0#32
  let v16 : BitVec 1 := Scalar.cmpi .slt v12 0#32
  let v17 : BitVec 1 := Scalar.xori v15 v16
  let v18 : BitVec 1 := Scalar.andi v17 v14
  let v19 : BitVec 32 := Scalar.addi v13 v12
  Scalar.select v18 v19 v13

theorem cond0_eq (c : Dev nD) :
    Scalar.cmpi .ne (Scalar.extui (Scalar.cmpi .eq (hword c) 0#32)) 0#32 = (if hb c = 0 then 1#1 else 0#1) := by
  revert c; decide +kernel
theorem cond1_eq (c : Dev nD) :
    Scalar.cmpi .ne (Scalar.extui (Scalar.cmpi .eq (hword c) 1#32)) 0#32 = (if hb c = 1 then 1#1 else 0#1) := by
  revert c; decide +kernel

theorem cond0_of_h0 (c : Dev nD) (h : hb c = 0) :
    Scalar.cmpi .ne (Scalar.extui (Scalar.cmpi .eq (hword c) 0#32)) 0#32 = 1#1 := by
  rw [cond0_eq, if_pos h]
theorem cond0_of_h1 (c : Dev nD) (h : hb c = 1) :
    Scalar.cmpi .ne (Scalar.extui (Scalar.cmpi .eq (hword c) 0#32)) 0#32 = 0#1 := by
  rw [cond0_eq, if_neg (by omega)]
theorem cond1_of_h0 (c : Dev nD) (h : hb c = 0) :
    Scalar.cmpi .ne (Scalar.extui (Scalar.cmpi .eq (hword c) 1#32)) 0#32 = 0#1 := by
  rw [cond1_eq, if_neg (by omega)]
theorem cond1_of_h1 (c : Dev nD) (h : hb c = 1) :
    Scalar.cmpi .ne (Scalar.extui (Scalar.cmpi .eq (hword c) 1#32)) 0#32 = 1#1 := by
  rw [cond1_eq, if_pos h]

/-- info: 'Cert.KernelIdeal.RS.dev2_eq' depends on axioms: [propext, Quot.sound] -/
#guard_msgs in #print axioms dev2_eq
/-- info: 'Cert.KernelIdeal.RS.cond0_eq' depends on axioms: [propext, Quot.sound] -/
#guard_msgs in #print axioms cond0_eq
/-- info: 'Cert.KernelIdeal.RS.off2_eq' depends on axioms: [propext, Classical.choice, Quot.sound] -/
#guard_msgs in #print axioms off2_eq

end Cert.KernelIdeal.RS

end
-- ==== Proof.BodyInv.lean ====
import proofs.«901040_g7700000000001041_dist_rs_v7x_xyz2x4x4_x_m1024_n512_bf16_1_alg».proof.Proof.Wrap
import proofs.«901040_g7700000000001041_dist_rs_v7x_xyz2x4x4_x_m1024_n512_bf16_1_alg».proof.Proof.Devices

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

section Chain

def tail3 (arg0 : Memref sig .tc .hbm S1x1024x1024 .f32) (harg0 : arg0.IsWhole) (arg1 : Memref sig .tc .hbm S1024x512 .f32) (harg1 : arg1.IsWhole) (arg2 : Memref sig .tc .vmem S7x128x256 .f32) (harg2 : arg2.IsWhole) (arg3 : Memref sig .tc .vmem S128x512 .f32) (harg3 : arg3.IsWhole) (arg4 : Memref sig .tc .vmem S1024x512 .f32) (harg4 : arg4.IsWhole) (arg5 : Memref sig .tc .vmem S8x128x512 .f32) (harg5 : arg5.IsWhole) (arg6 : Memref sig .tc .vmem S7x128x256 .bf16) (harg6 : arg6.IsWhole) (arg7 : Memref sig .tc .vmem S128x512 .bf16) (harg7 : arg7.IsWhole) (arg8 : Memref sig .tc .vmem S7x128x256 .bf16) (harg8 : arg8.IsWhole) (arg9 : Memref sig .tc .vmem S128x512 .bf16) (harg9 : arg9.IsWhole) (arg10 : Memref sig .tc .vmem S7x128x256 .bf16) (harg10 : arg10.IsWhole) (arg11 : DmaSems sig S7) (arg12 : DmaSems sig S_) (arg13 : DmaSems sig S_) (arg14 : DmaSems sig S8) (arg15 : DmaSems sig S7) (arg16 : DmaSems sig S7) (arg17 : DmaSems sig S_) (arg18 : DmaSems sig S_) (arg19 : DmaSems sig S7) (arg20 : DmaSems sig S7) : Prog (TpuEff nD τ sig (Elt F) Λ₀ .tc) PUnit := do
  let v804 : Memref sig .tc .vmem S1x128x512 .f32 := arg5.slice (Rect.unit (s := S8x128x512) ![6, 0, 0] S1x128x512.size inb_S8x128x512_S1x128x512_6_0_0) (fun _ => rfl)
  let v805 : Memref sig .tc .vmem S128x512 .f32 := v804.squeeze S128x512 squeezes_S1x128x512_S128x512
  let v801 : DmaSems sig S1 := arg14.slice (Rect.unit (s := S8) ![6] S1.size inb_S8_S1_6)
  let v802 : DmaSems sig S_ := v801.squeeze S_ squeezes_S1_S_
  let v803 : Memref sig .tc .hbm S128x512 .f32 := arg1.slice (Rect.unit (s := S1024x512) ![768, 0] S128x512.size inb_S1024x512_S128x512_768_0) (fun _ => rfl)
  Prog.lift (.waitDma2 v802.sem v805 v803 ((View.wordExact_bits rfl).reshape _ _) (View.wordExact_bits rfl))
  Prog.lift (.waitDma2 arg17.sem arg9 arg7 harg9.wordExact harg7.wordExact)
  let v806 : DmaSems sig S1 := arg14.slice (Rect.unit (s := S8) ![7] S1.size inb_S8_S1_7)
  let v807 : DmaSems sig S_ := v806.squeeze S_ squeezes_S1_S_
  let v808 : Memref sig .tc .hbm S128x512 .f32 := arg1.slice (Rect.unit (s := S1024x512) ![896, 0] S128x512.size inb_S1024x512_S128x512_896_0) (fun _ => rfl)
  let v809 : Memref sig .tc .vmem S1x128x512 .f32 := arg5.slice (Rect.unit (s := S8x128x512) ![7, 0, 0] S1x128x512.size inb_S8x128x512_S1x128x512_7_0_0) (fun _ => rfl)
  let v810 : Memref sig .tc .vmem S128x512 .f32 := v809.squeeze S128x512 squeezes_S1x128x512_S128x512
  Prog.lift (.waitDma2 v807.sem v810 v808 ((View.wordExact_bits rfl).reshape _ _) (View.wordExact_bits rfl))
  pure ⟨⟩

variable (arg0 : Memref sig .tc .hbm S1x1024x1024 .f32) (harg0 : arg0.IsWhole) (arg1 : Memref sig .tc .hbm S1024x512 .f32) (harg1 : arg1.IsWhole) (arg2 : Memref sig .tc .vmem S7x128x256 .f32) (harg2 : arg2.IsWhole) (arg3 : Memref sig .tc .vmem S128x512 .f32) (harg3 : arg3.IsWhole) (arg4 : Memref sig .tc .vmem S1024x512 .f32) (harg4 : arg4.IsWhole) (arg5 : Memref sig .tc .vmem S8x128x512 .f32) (harg5 : arg5.IsWhole) (arg6 : Memref sig .tc .vmem S7x128x256 .bf16) (harg6 : arg6.IsWhole) (arg7 : Memref sig .tc .vmem S128x512 .bf16) (harg7 : arg7.IsWhole) (arg8 : Memref sig .tc .vmem S7x128x256 .bf16) (harg8 : arg8.IsWhole) (arg9 : Memref sig .tc .vmem S128x512 .bf16) (harg9 : arg9.IsWhole) (arg10 : Memref sig .tc .vmem S7x128x256 .bf16) (harg10 : arg10.IsWhole) (arg11 : DmaSems sig S7) (arg12 : DmaSems sig S_) (arg13 : DmaSems sig S_) (arg14 : DmaSems sig S8) (arg15 : DmaSems sig S7) (arg16 : DmaSems sig S7) (arg17 : DmaSems sig S_) (arg18 : DmaSems sig S_) (arg19 : DmaSems sig S7) (arg20 : DmaSems sig S7)

def seg3 (v2 v5 v8 v9 v10 v20 v503 c0_i32_428 : BitVec 32) : Prog (TpuEff nD τ sig (Elt F) Λ₀ .tc) PUnit := do
  k0_part18 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 v2 v8 v10 v20 v503 c0_i32_428
  k0_part19 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 v2 v8 v10 v20
  k0_part20 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 v2 v8 v10 v20
  let v617 : BitVec 1 ← k0_part21 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 v2 v8 v10 v20
  k0_part22 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 v2 v8 v10 v20 v617
  let ⟨v672, v673⟩ : Σ' (v672 : BitVec 32), BitVec 32 ← k0_part23 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 v2 v5 v8 v9 v10 v20
  k0_part24 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 v672 v673
  k0_part25 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20
  k0_part26 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20
  k0_part27 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20
  k0_part28 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20
  let v791 : Memref sig .tc .vmem S1x128x256 .bf16 := arg6.slice (Rect.unit (s := S7x128x256) ![6, 0, 0] S1x128x256.size inb_S7x128x256_S1x128x256_6_0_0) (fun _ => rfl)
  let v792 : Memref sig .tc .vmem S128x256 .bf16 := v791.squeeze S128x256 squeezes_S1x128x256_S128x256
  let v793 : Memref sig .tc .vmem S1x128x256 .bf16 := arg8.slice (Rect.unit (s := S7x128x256) ![6, 0, 0] S1x128x256.size inb_S7x128x256_S1x128x256_6_0_0) (fun _ => rfl)
  let v794 : Memref sig .tc .vmem S128x256 .bf16 := v793.squeeze S128x256 squeezes_S1x128x256_S128x256
  let v789 : DmaSems sig S1 := arg15.slice (Rect.unit (s := S7) ![6] S1.size inb_S7_S1_6)
  let v790 : DmaSems sig S_ := v789.squeeze S_ squeezes_S1_S_
  Prog.lift (.waitDma2 v790.sem v794 v792 ((harg8.wordExact_slice rfl _ wordsbf16_S7x128x256_S1x128x256_6_0_0).reshape _ _) ((harg6.wordExact_slice rfl _ wordsbf16_S7x128x256_S1x128x256_6_0_0).reshape _ _))
  let v795 : DmaSems sig S1 := arg19.slice (Rect.unit (s := S7) ![6] S1.size inb_S7_S1_6)
  let v796 : DmaSems sig S_ := v795.squeeze S_ squeezes_S1_S_
  let v797 : Memref sig .tc .vmem S1x128x256 .bf16 := arg8.slice (Rect.unit (s := S7x128x256) ![6, 0, 0] S1x128x256.size inb_S7x128x256_S1x128x256_6_0_0) (fun _ => rfl)
  let v798 : Memref sig .tc .vmem S128x256 .bf16 := v797.squeeze S128x256 squeezes_S1x128x256_S128x256
  let v799 : Memref sig .tc .vmem S1x128x256 .bf16 := arg10.slice (Rect.unit (s := S7x128x256) ![6, 0, 0] S1x128x256.size inb_S7x128x256_S1x128x256_6_0_0) (fun _ => rfl)
  let v800 : Memref sig .tc .vmem S128x256 .bf16 := v799.squeeze S128x256 squeezes_S1x128x256_S128x256
  Prog.lift (.waitDma2 v796.sem v800 v798 ((harg10.wordExact_slice rfl _ wordsbf16_S7x128x256_S1x128x256_6_0_0).reshape _ _) ((harg8.wordExact_slice rfl _ wordsbf16_S7x128x256_S1x128x256_6_0_0).reshape _ _))
  pure ⟨⟩

def seg2 {α : Type} (d0 : Dev nD) (v2 v5 v8 v9 v10 v20 : BitVec 32) (Kt : BitVec 32 → BitVec 32 → Prog (TpuEff nD τ sig (Elt F) Λ₀ .tc) α) : Prog (TpuEff nD τ sig (Elt F) Λ₀ .tc) α := do
  k0_part11 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 d0 v2 v5 v8 v9 v10 v20
  let ⟨v351, c1_i32_298⟩ : Σ' (v351 : BitVec 32), BitVec 32 ← k0_part12 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 d0 v2 v5 v8 v9 v10 v20
  let v381 : BitVec 32 ← k0_part13 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 d0 v2 v8 v9 v10 v20 v351 c1_i32_298
  k0_part14 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 d0 v2 v5 v8 v10 v20 v381
  k0_part15 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 d0 v2 v5 v8 v9 v10 v20
  let v473 : BitVec 1 ← k0_part16 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 d0 v2 v5 v8 v9 v10 v20
  let ⟨v503, c0_i32_428⟩ : Σ' (v503 : BitVec 32), BitVec 32 ← k0_part17 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 d0 v2 v5 v8 v9 v10 v20 v473
  Kt v503 c0_i32_428

def seg1 {α : Type} (Kt : Dev nD → BitVec 32 → BitVec 32 → BitVec 32 → BitVec 32 → BitVec 32 → BitVec 32 → Prog (TpuEff nD τ sig (Elt F) Λ₀ .tc) α) : Prog (TpuEff nD τ sig (Elt F) Λ₀ .tc) α := do
  let ⟨d0, v2, v5, v8, v9, v10, v20⟩ : Σ' (d0 : Dev nD) (v2 : BitVec 32) (v5 : BitVec 32) (v8 : BitVec 32) (v9 : BitVec 32) (v10 : BitVec 32), BitVec 32 ← k0_part1 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20
  k0_part2 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 d0
  let ⟨v86, v87⟩ : Σ' (v86 : Sems sig S_), BitVec 32 ← k0_part3 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 d0 v9
  k0_part4 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 d0 v2 v5 v8 v9 v10 v86 v87
  k0_part5 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 d0 v5 v8 v9
  let ⟨v173, v174⟩ : Σ' (v173 : FVec F S128x256 .bf16), Vec F S1x128x256 .bf16 ← k0_part6 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 d0 v5 v8 v9
  k0_part7 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 d0 v5 v8 v9 v173 v174
  let v232 : BitVec 32 ← k0_part8 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 d0 v5 v8 v9
  k0_part9 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 d0 v5 v8 v9 v232
  k0_part10 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 d0 v5 v8 v9
  Kt d0 v2 v5 v8 v9 v10 v20

set_option maxRecDepth 65536 in
theorem part29_split : k0_part29_skel (F := F) arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20
    = seg1 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 (fun d0 v2 v5 v8 v9 v10 v20 => seg2 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 d0 v2 v5 v8 v9 v10 v20
        (fun v503 c0 => seg3 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 v2 v5 v8 v9 v10 v20 v503 c0)) := rfl

set_option maxRecDepth 65536 in
theorem body_split : cc0_body_skel (F := F) arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 = (k0_part29 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 >>= fun _ => tail3 arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20) := rfl

end Chain

abbrev seg1₀ {α : Type} (Kt : Dev nD → BitVec 32 → BitVec 32 → BitVec 32 → BitVec 32 → BitVec 32 → BitVec 32 → Prog (TpuEff nD τ sig (Elt F) Λ₀ .tc) α) : Prog (TpuEff nD τ sig (Elt F) Λ₀ .tc) α :=
  seg1 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 Kt
abbrev seg2₀ {α : Type} (d0 : Dev nD) (v2 v5 v8 v9 v10 v20 : BitVec 32) (Kt : BitVec 32 → BitVec 32 → Prog (TpuEff nD τ sig (Elt F) Λ₀ .tc) α) : Prog (TpuEff nD τ sig (Elt F) Λ₀ .tc) α :=
  seg2 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 d0 v2 v5 v8 v9 v10 v20 Kt
abbrev seg3₀ (v2 v5 v8 v9 v10 v20 v503 c0 : BitVec 32) : Prog (TpuEff nD τ sig (Elt F) Λ₀ .tc) PUnit :=
  seg3 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 v2 v5 v8 v9 v10 v20 v503 c0
abbrev tail3₀ : Prog (TpuEff nD τ sig (Elt F) Λ₀ .tc) PUnit := tail3 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18

variable (m : (ℓ : Loc nD τ sig) → Buf (Elt F) ℓ) (ρ : Dev nD → PrngReg)

def obuf17 (c : Dev nD) (g : (cc0_scratch3 : Ref sig .tc).ty.Contents (Elt F)) : (cc0_scratch3 : Ref sig .tc).ty.Contents (Elt F) :=
  show Vec F S8x128x512 .f32 from fun j =>
    if (j 0).val < 6 ∧ (if hb c = 0 then (j 2).val < 256 else 256 ≤ (j 2).val) then (show Vec F S8x128x512 .f32 from obufB m ρ c) j
    else (show Vec F S8x128x512 .f32 from g) j

-- What a device holds when its eight copies to `xp c` are in flight.
def inv10 (K : Dev nD × CK → ℕ) (c : Dev nD) : sProp 𝕄 :=
  iprop(records (rd m ρ) K
    ∗ levAts L lv
    ∗ atPos ER (cell c .bar) 1 ∅ 0
    ∗ atPos ER (cell c (.xs 0)) 0 ∅ 0
    ∗ atPos ER (cell c (.xs 1)) 0 ∅ 0
    ∗ atPos ER (cell c (.xs 2)) 0 ∅ 0
    ∗ atPos ER (cell c (.xs 3)) 0 ∅ 0
    ∗ atPos ER (cell c (.xs 4)) 0 ∅ 0
    ∗ atPos ER (cell c (.xs 5)) 0 ∅ 0
    ∗ atPos ER (cell c (.xs 6)) 0 ∅ 0
    ∗ atPos ER (cell c (.xr 0)) 0 ∅ 0
    ∗ atPos ER (cell c (.xr 1)) 0 ∅ 0
    ∗ atPos ER (cell c (.xr 2)) 0 ∅ 0
    ∗ atPos ER (cell c (.xr 3)) 0 ∅ 0
    ∗ atPos ER (cell c (.xr 4)) 0 ∅ 0
    ∗ atPos ER (cell c (.xr 5)) 0 ∅ 0
    ∗ atPos ER (cell c (.xr 6)) 0 ∅ 0
    ∗ atPos ER (cell c .ds) 0 ∅ 0
    ∗ atPos ER (cell c .dr) 0 ∅ 0
    ∗ atPos ER (cell c (.fs 0)) 0 ∅ 0
    ∗ atPos ER (cell c (.fs 1)) 0 ∅ 0
    ∗ atPos ER (cell c (.fs 2)) 0 ∅ 0
    ∗ atPos ER (cell c (.fs 3)) 0 ∅ 0
    ∗ atPos ER (cell c (.fs 4)) 0 ∅ 0
    ∗ atPos ER (cell c (.fs 5)) 0 ∅ 0
    ∗ atPos ER (cell c (.fs 6)) 0 ∅ 0
    ∗ atPos ER (cell c (.fr 0)) 0 ∅ 0
    ∗ atPos ER (cell c (.fr 1)) 0 ∅ 0
    ∗ atPos ER (cell c (.fr 2)) 0 ∅ 0
    ∗ atPos ER (cell c (.fr 3)) 0 ∅ 0
    ∗ atPos ER (cell c (.fr 4)) 0 ∅ 0
    ∗ atPos ER (cell c (.fr 5)) 0 ∅ 0
    ∗ atPos ER (cell c (.fr 6)) 0 ∅ 0
    ∗ dutyTok ER (cell c (.fs 0)) 0 false
    ∗ dutyTok ER (cell c (.fs 1)) 0 false
    ∗ dutyTok ER (cell c (.fs 2)) 0 false
    ∗ dutyTok ER (cell c (.fs 3)) 0 false
    ∗ dutyTok ER (cell c (.fs 4)) 0 false
    ∗ dutyTok ER (cell c (.fs 5)) 0 false
    ∗ dutyTok ER (cell c (.fs 6)) 0 false
    ∗ dutyTok ER (cell (yp c) (.fr 0)) 0 false
    ∗ dutyTok ER (cell (yp c) (.fr 1)) 0 false
    ∗ dutyTok ER (cell (yp c) (.fr 2)) 0 false
    ∗ dutyTok ER (cell (yp c) (.fr 3)) 0 false
    ∗ dutyTok ER (cell (yp c) (.fr 4)) 0 false
    ∗ dutyTok ER (cell (yp c) (.fr 5)) 0 false
    ∗ dutyTok ER (cell (yp c) (.fr 6)) 0 false
    ∗ cred (tallyAt (cell c (.xr 0)) () N₁)
    ∗ cred (tallyAt (cell c (.xr 1)) () N₁)
    ∗ cred (tallyAt (cell c (.xr 2)) () N₁)
    ∗ cred (tallyAt (cell c (.xr 3)) () N₁)
    ∗ cred (tallyAt (cell c (.xr 4)) () N₁)
    ∗ cred (tallyAt (cell c (.xr 5)) () N₁)
    ∗ cred (tallyAt (cell c (.xr 6)) () N₁)
    ∗ cred (tallyAt (cell c .dr) () N₂)
    ∗ cred (tallyAt (cell c (.fr 0)) () N₁)
    ∗ cred (tallyAt (cell c (.fr 1)) () N₁)
    ∗ cred (tallyAt (cell c (.fr 2)) () N₁)
    ∗ cred (tallyAt (cell c (.fr 3)) () N₁)
    ∗ cred (tallyAt (cell c (.fr 4)) () N₁)
    ∗ cred (tallyAt (cell c (.fr 5)) () N₁)
    ∗ cred (tallyAt (cell c (.fr 6)) () N₁)
    ∗ cred (tallyAt (cell c (.xs 0)) () N₁)
    ∗ cred (tallyAt (cell c (.xs 1)) () N₁)
    ∗ cred (tallyAt (cell c (.xs 2)) () N₁)
    ∗ cred (tallyAt (cell c (.xs 3)) () N₁)
    ∗ cred (tallyAt (cell c (.xs 4)) () N₁)
    ∗ cred (tallyAt (cell c (.xs 5)) () N₁)
    ∗ cred (tallyAt (cell c (.xs 6)) () N₁)
    ∗ cred (tallyAt (cell c .ds) () N₂)
    ∗ localSems0 c
    ∗ (∃ g : Buf (Elt F) ((stgM : Memref sig .tc .vmem S7x128x256 .f32).view.loc (c : Thread nD τ)), (stgM : Memref sig .tc .vmem S7x128x256 .f32).view.loc (c : Thread nD τ) ↦{fullShare} g)
    ∗ (∃ g : Buf (Elt F) ((dstgM : Memref sig .tc .vmem S128x512 .f32).view.loc (c : Thread nD τ)), (dstgM : Memref sig .tc .vmem S128x512 .f32).view.loc (c : Thread nD τ) ↦{fullShare} g)
    ∗ ((mineM : Memref sig .tc .vmem S1024x512 .f32).view.loc (c : Thread nD τ) ↦{fullShare} mineB m ρ c)
    ∗ (∃ g : Buf (Elt F) ((obufM : Memref sig .tc .vmem S8x128x512 .f32).view.loc (c : Thread nD τ)), (obufM : Memref sig .tc .vmem S8x128x512 .f32).view.loc (c : Thread nD τ) ↦{fullShare} g)
    ∗ (∃ g : Buf (Elt F) ((frcvM : Memref sig .tc .vmem S7x128x256 .bf16).view.loc (yp c : Thread nD τ)), (frcvM : Memref sig .tc .vmem S7x128x256 .bf16).view.loc (yp c : Thread nD τ) ↦{fullShare} g)
    ∗ ((inM : Memref sig .tc .hbm S1x1024x1024 .f32).view.loc (c : Thread nD τ) ↦{fullShare} X m ρ c)
    ∗ ((outM : Memref sig .tc .hbm S1024x512 .f32).view.loc (c : Thread nD τ) ↦{fullShare} (s₀ m ρ).mem ((c : Thread nD τ).loc main_v1))
    ∗ (∃ W' : Waits sig Unit, owes (c : Thread nD τ) (tallyAt (cell (yp c) (.fr 6)) () N₁ + tallyAt (cell (yp c) (.fr 5)) () N₁ + tallyAt (cell (yp c) (.fr 4)) () N₁ + tallyAt (cell (yp c) (.fr 3)) () N₁ + tallyAt (cell (yp c) (.fr 2)) () N₁ + tallyAt (cell (yp c) (.fr 1)) () N₁ + tallyAt (cell (yp c) (.fr 0)) () N₁) W'))

-- What it holds when the seven forwards to `yp c` are also in flight and the halves received from `xp c` are summed.
def inv17 (K : Dev nD × CK → ℕ) (c : Dev nD) : sProp 𝕄 :=
  iprop(records (rd m ρ) K
    ∗ levAts L lv
    ∗ atPos ER (cell c .bar) 1 ∅ 0
    ∗ atPos ER (cell c (.xs 0)) 0 ∅ 0
    ∗ atPos ER (cell c (.xs 1)) 0 ∅ 0
    ∗ atPos ER (cell c (.xs 2)) 0 ∅ 0
    ∗ atPos ER (cell c (.xs 3)) 0 ∅ 0
    ∗ atPos ER (cell c (.xs 4)) 0 ∅ 0
    ∗ atPos ER (cell c (.xs 5)) 0 ∅ 0
    ∗ atPos ER (cell c (.xs 6)) 0 ∅ 0
    ∗ atPos ER (cell c (.xr 0)) 1 ∅ 0
    ∗ atPos ER (cell c (.xr 1)) 1 ∅ 0
    ∗ atPos ER (cell c (.xr 2)) 1 ∅ 0
    ∗ atPos ER (cell c (.xr 3)) 1 ∅ 0
    ∗ atPos ER (cell c (.xr 4)) 1 ∅ 0
    ∗ atPos ER (cell c (.xr 5)) 1 ∅ 0
    ∗ atPos ER (cell c (.xr 6)) 1 ∅ 0
    ∗ atPos ER (cell c .ds) 0 ∅ 0
    ∗ atPos ER (cell c .dr) 0 ∅ 0
    ∗ atPos ER (cell c (.fs 0)) 0 ∅ 0
    ∗ atPos ER (cell c (.fs 1)) 0 ∅ 0
    ∗ atPos ER (cell c (.fs 2)) 0 ∅ 0
    ∗ atPos ER (cell c (.fs 3)) 0 ∅ 0
    ∗ atPos ER (cell c (.fs 4)) 0 ∅ 0
    ∗ atPos ER (cell c (.fs 5)) 0 ∅ 0
    ∗ atPos ER (cell c (.fs 6)) 0 ∅ 0
    ∗ atPos ER (cell c (.fr 0)) 0 ∅ 0
    ∗ atPos ER (cell c (.fr 1)) 0 ∅ 0
    ∗ atPos ER (cell c (.fr 2)) 0 ∅ 0
    ∗ atPos ER (cell c (.fr 3)) 0 ∅ 0
    ∗ atPos ER (cell c (.fr 4)) 0 ∅ 0
    ∗ atPos ER (cell c (.fr 5)) 0 ∅ 0
    ∗ atPos ER (cell c (.fr 6)) 0 ∅ 0
    ∗ cred (tallyAt (cell c .dr) () N₂)
    ∗ cred (tallyAt (cell c (.fr 0)) () N₁)
    ∗ cred (tallyAt (cell c (.fr 1)) () N₁)
    ∗ cred (tallyAt (cell c (.fr 2)) () N₁)
    ∗ cred (tallyAt (cell c (.fr 3)) () N₁)
    ∗ cred (tallyAt (cell c (.fr 4)) () N₁)
    ∗ cred (tallyAt (cell c (.fr 5)) () N₁)
    ∗ cred (tallyAt (cell c (.fr 6)) () N₁)
    ∗ cred (tallyAt (cell c (.xs 0)) () N₁)
    ∗ cred (tallyAt (cell c (.xs 1)) () N₁)
    ∗ cred (tallyAt (cell c (.xs 2)) () N₁)
    ∗ cred (tallyAt (cell c (.xs 3)) () N₁)
    ∗ cred (tallyAt (cell c (.xs 4)) () N₁)
    ∗ cred (tallyAt (cell c (.xs 5)) () N₁)
    ∗ cred (tallyAt (cell c (.xs 6)) () N₁)
    ∗ cred (tallyAt (cell c .ds) () N₂)
    ∗ cred (tallyAt (cell c (.fs 0)) () N₁)
    ∗ cred (tallyAt (cell c (.fs 1)) () N₁)
    ∗ cred (tallyAt (cell c (.fs 2)) () N₁)
    ∗ cred (tallyAt (cell c (.fs 3)) () N₁)
    ∗ cred (tallyAt (cell c (.fs 4)) () N₁)
    ∗ cred (tallyAt (cell c (.fs 5)) () N₁)
    ∗ cred (tallyAt (cell c (.fs 6)) () N₁)
    ∗ localSems0 c
    ∗ (∃ g : Buf (Elt F) ((stgM : Memref sig .tc .vmem S7x128x256 .f32).view.loc (c : Thread nD τ)), (stgM : Memref sig .tc .vmem S7x128x256 .f32).view.loc (c : Thread nD τ) ↦{fullShare} g)
    ∗ (∃ g : Buf (Elt F) ((dstgM : Memref sig .tc .vmem S128x512 .f32).view.loc (c : Thread nD τ)), (dstgM : Memref sig .tc .vmem S128x512 .f32).view.loc (c : Thread nD τ) ↦{fullShare} g)
    ∗ ((mineM : Memref sig .tc .vmem S1024x512 .f32).view.loc (c : Thread nD τ) ↦{fullShare} mineB m ρ c)
    ∗ (∃ g : Buf (Elt F) ((obufM : Memref sig .tc .vmem S8x128x512 .f32).view.loc (c : Thread nD τ)), (obufM : Memref sig .tc .vmem S8x128x512 .f32).view.loc (c : Thread nD τ) ↦{fullShare} obuf17 m ρ c g)
    ∗ ((xrS 0).view.loc (c : Thread nD τ) ↦[(xrS 0).view.set]{fullShare.right} xrcvB m ρ c)
    ∗ ((xrS 1).view.loc (c : Thread nD τ) ↦[(xrS 1).view.set]{fullShare.right} xrcvB m ρ c)
    ∗ ((xrS 2).view.loc (c : Thread nD τ) ↦[(xrS 2).view.set]{fullShare.right} xrcvB m ρ c)
    ∗ ((xrS 3).view.loc (c : Thread nD τ) ↦[(xrS 3).view.set]{fullShare.right} xrcvB m ρ c)
    ∗ ((xrS 4).view.loc (c : Thread nD τ) ↦[(xrS 4).view.set]{fullShare.right} xrcvB m ρ c)
    ∗ ((xrS 5).view.loc (c : Thread nD τ) ↦[(xrS 5).view.set]{fullShare.right} xrcvB m ρ c)
    ∗ ((xrS 6).view.loc (c : Thread nD τ) ↦[(xrS 6).view.set]{fullShare.right} xrcvB m ρ c)
    ∗ ((inM : Memref sig .tc .hbm S1x1024x1024 .f32).view.loc (c : Thread nD τ) ↦{fullShare} X m ρ c)
    ∗ ((outM : Memref sig .tc .hbm S1024x512 .f32).view.loc (c : Thread nD τ) ↦{fullShare} (s₀ m ρ).mem ((c : Thread nD τ).loc main_v1))
    ∗ (∃ W' : Waits sig Unit, owes (c : Thread nD τ) (0 : CellTallies nD τ sig Unit) W'))

def Run1 : Prop :=
  ∀ (K : Dev nD × CK → ℕ) (c : Dev nD) (W : Waits sig Unit) (f0 : Buf (Elt F) ((c : Thread nD τ).loc cc0_scratch0)) (f1 : Buf (Elt F) ((c : Thread nD τ).loc cc0_scratch1)) (f2 : Buf (Elt F) ((c : Thread nD τ).loc cc0_scratch2)) (f3 : Buf (Elt F) ((c : Thread nD τ).loc cc0_scratch3)) (f4 : Buf (Elt F) ((c : Thread nD τ).loc cc0_scratch4)) (f5 : Buf (Elt F) ((c : Thread nD τ).loc cc0_scratch5)) (f6 : Buf (Elt F) ((c : Thread nD τ).loc cc0_scratch6)) (f7 : Buf (Elt F) ((c : Thread nD τ).loc cc0_scratch7)) (f8 : Buf (Elt F) ((c : Thread nD τ).loc cc0_scratch8)) (α : Type)
    (Kt : Dev nD → BitVec 32 → BitVec 32 → BitVec 32 → BitVec 32 → BitVec 32 → BitVec 32 → Prog (TpuEff nD τ sig (Elt F) Λ₀ .tc) α) (Q : α → sProp 𝕄),
    iprop(bodyPre m ρ K c W f0 f1 f2 f3 f4 f5 f6 f7 f8 ∗ (inv10 m ρ K c -∗ wp frame (wpE (defs₀ (F := F)) 𝒱₀ (c : Thread nD τ) none) Set.univ (Kt c (x2word c) (y5word c) (z8word c) (x9word c) (y10word c) (hword c)) Q))
      ⊢ wp frame (wpE (defs₀ (F := F)) 𝒱₀ (c : Thread nD τ) none) Set.univ (seg1₀ Kt) Q

abbrev Run2At (K : Dev nD × CK → ℕ) (c : Dev nD) : Prop :=
  ∀ (α : Type) (Kt : BitVec 32 → BitVec 32 → Prog (TpuEff nD τ sig (Elt F) Λ₀ .tc) α) (Q : α → sProp 𝕄),
    iprop(inv10 m ρ K c ∗ (inv17 m ρ K c -∗ wp frame (wpE (defs₀ (F := F)) 𝒱₀ (c : Thread nD τ) none) Set.univ (Kt (Scalar.extui (Scalar.cmpi .eq (hword c) 0#32)) 0#32) Q))
      ⊢ wp frame (wpE (defs₀ (F := F)) 𝒱₀ (c : Thread nD τ) none) Set.univ (seg2₀ c (x2word c) (y5word c) (z8word c) (x9word c) (y10word c) (hword c) Kt) Q

def Run2 : Prop := ∀ K c, Run2At (F := F) m ρ K c

abbrev Run3At (K : Dev nD × CK → ℕ) (c : Dev nD) : Prop :=
  inv17 m ρ K c
    ⊢ wp frame (wpE (defs₀ (F := F)) 𝒱₀ (c : Thread nD τ) none) Set.univ (seg3₀ (x2word c) (y5word c) (z8word c) (x9word c) (y10word c) (hword c) (Scalar.extui (Scalar.cmpi .eq (hword c) 0#32)) 0#32)
        (fun _ => wp frame (wpE (defs₀ (F := F)) 𝒱₀ (c : Thread nD τ) none) Set.univ (tail3₀ (F := F)) (fun _ => bodyPost m ρ c))

def Run3 : Prop := ∀ K c, Run3At (F := F) m ρ K c

set_option maxRecDepth 65536 in
theorem sound_body_of (h1 : Run1 (F := F) m ρ) (h2 : Run2 (F := F) m ρ) (h3 : Run3 (F := F) m ρ)
    (K : Dev nD × CK → ℕ) (c : Dev nD) (W : Waits sig Unit) (f0 : Buf (Elt F) ((c : Thread nD τ).loc cc0_scratch0)) (f1 : Buf (Elt F) ((c : Thread nD τ).loc cc0_scratch1)) (f2 : Buf (Elt F) ((c : Thread nD τ).loc cc0_scratch2)) (f3 : Buf (Elt F) ((c : Thread nD τ).loc cc0_scratch3)) (f4 : Buf (Elt F) ((c : Thread nD τ).loc cc0_scratch4)) (f5 : Buf (Elt F) ((c : Thread nD τ).loc cc0_scratch5)) (f6 : Buf (Elt F) ((c : Thread nD τ).loc cc0_scratch6)) (f7 : Buf (Elt F) ((c : Thread nD τ).loc cc0_scratch7)) (f8 : Buf (Elt F) ((c : Thread nD τ).loc cc0_scratch8)) :
    bodyPre m ρ K c W f0 f1 f2 f3 f4 f5 f6 f7 f8 ⊢ wp frame (wpE (defs₀ (F := F)) 𝒱₀ (c : Thread nD τ) none) Set.univ (bodyAt0 (F := F) t0_0) (fun _ => bodyPost m ρ c) := by
  unfold bodyAt0
  rw [cc0_body_eq_skeleton, body_split, wp_bind, k0_part29_eq_skeleton, part29_split]
  iintro Hpre
  iapply (h1 K c W f0 f1 f2 f3 f4 f5 f6 f7 f8)
  isplitl [Hpre]; · iexact Hpre
  iintro H10
  iapply (h2 K c)
  isplitl [H10]; · iexact H10
  iintro H17
  iapply (h3 K c)
  iexact H17

/-- info: 'Cert.KernelIdeal.RS.sound_body_of' depends on axioms: [propext, Classical.choice, Quot.sound] -/
#guard_msgs in #print axioms sound_body_of

end Cert.KernelIdeal.RS

end
-- ==== Proof.Send.lean ====
import proofs.«901040_g7700000000001041_dist_rs_v7x_xyz2x4x4_x_m1024_n512_bf16_1_alg».proof.Proof.Proto
import proofs.«901040_g7700000000001041_dist_rs_v7x_xyz2x4x4_x_m1024_n512_bf16_1_alg».proof.Proof.Devices
import Idealize.ShloMosaic.Lib.Pipeline.Value

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

variable (m : (ℓ : Loc nD τ sig) → Buf (Elt F) ℓ) (ρ : Dev nD → PrngReg)

theorem xrcvB_xp (c : Dev nD) : xrcvB m ρ (xp c) = xsndB m ρ c := by unfold xrcvB; rw [xp_xp]
theorem drcvB_xp (c : Dev nD) : drcvB m ρ (xp c) = dsndB m ρ c := by unfold drcvB; rw [xp_xp]
theorem frcvB_yp (c : Dev nD) : frcvB m ρ (yp c) = xrcvB m ρ c := by unfold frcvB; rw [yp_yp]

theorem xr_landed (c : Dev nD) (k : Fin 7) (fd : Buf (Elt F) ((xrS k).view.loc (xp c : Thread nD τ))) :
    ((xrS k).view.loc (xp c : Thread nD τ) ↦[(xrS k).view.set]{fullShare}
        (xrS k).view.write (Elt F) fd ((xsS k).view.read (Elt F) (xsndB m ρ c)) Finset.univ : sProp 𝕄)
      = ((xrS k).view.loc (xp c : Thread nD τ) ↦[(xrS k).view.set]{fullShare} xrcvB m ρ (xp c)) := by
  refine pointsTo_congr fun i hi => ?_
  obtain ⟨x, rfl⟩ := View.exists_emb_of_mem_set _ hi
  rw [View.write_emb_of_mem _ _ (Finset.mem_univ x), xrcvB_xp]
  rfl

theorem fr_landed (c : Dev nD) (k : Fin 7) (fd : Buf (Elt F) ((frS k).view.loc (yp c : Thread nD τ))) :
    ((frS k).view.loc (yp c : Thread nD τ) ↦[(frS k).view.set]{fullShare}
        (frS k).view.write (Elt F) fd ((xrS k).view.read (Elt F) (xrcvB m ρ c)) Finset.univ : sProp 𝕄)
      = ((frS k).view.loc (yp c : Thread nD τ) ↦[(frS k).view.set]{fullShare} frcvB m ρ (yp c)) := by
  refine pointsTo_congr fun i hi => ?_
  obtain ⟨x, rfl⟩ := View.exists_emb_of_mem_set _ hi
  rw [View.write_emb_of_mem _ _ (Finset.mem_univ x), frcvB_yp]
  rfl

theorem dr_landed (c : Dev nD) (fd : Buf (Elt F) ((drcvM : Memref sig .tc .vmem S128x512 .bf16).view.loc (xp c : Thread nD τ))) :
    (drcvM : Memref sig .tc .vmem S128x512 .bf16).view.write (Elt F) fd ((dsndM : Memref sig .tc .vmem S128x512 .bf16).view.read (Elt F) (dsndB m ρ c)) Finset.univ
      = drcvB m ρ (xp c) := by
  show (View.whole cc0_scratch7).write (Elt F) fd ((View.whole cc0_scratch5).read (Elt F) (dsndB m ρ c)) Finset.univ = _
  rw [View.read_whole, drcvB_xp]
  exact View.write_whole_univ _ _ _

section Sends
variable (K : Dev nD × CK → ℕ)

theorem wp_send_x (c n : Dev nD) (hn : n = xp c) (k : Fin 7)
    {hsc : (xrS k : Memref sig (Dev.tc n : Thread nD τ).2.kind .vmem S128x256 .bf16).view.ref.isScScratch = false}
    {hsrc : (xsS k).view.WordExact} {hdst : (xrS k).view.WordExact}
    {hsem : DmaTarget.Typed .vmem (csem (.xr k)) (.remote (Dev.tc n : Thread nD τ) (xrS k) (csem (.xs k)) hsc)}
    {α : Type} {Q : α → sProp 𝕄} {kk : PUnit → Prog (TpuEff nD τ sig (Elt F) Λ₀ .tc) α}
    (fd : Buf (Elt F) ((xrS k).view.loc (xp c : Thread nD τ))) (O : CellTallies nD τ sig Unit) (W : Waits sig Unit) :
    iprop(cellInv ER (rd m ρ) (K (c, .xs k)) (cell c (.xs k)) ∗ cellInv ER (rd m ρ) (K (xp c, .xr k)) (cell (xp c) (.xr k))
        ∗ ((xsS k).view.loc (c : Thread nD τ) ↦[(xsS k).view.set]{fullShare} xsndB m ρ c)
        ∗ ((xrS k).view.loc (xp c : Thread nD τ) ↦[(xrS k).view.set]{fullShare} fd)
        ∗ owes (c : Thread nD τ) (O + tallyAt (cell (xp c) (.xr k)) () N₁) W
        ∗ dutyTok ER (cell c (.xs k)) 0 false ∗ reached ER (cell c (.xs k)) 0
        ∗ dutyTok ER (cell (xp c) (.xr k)) 0 false ∗ reached ER (cell (xp c) (.xr k)) 0)
      ⊢ iprop(((cred (tallyAt (cell c (.xs k)) () N₁) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (xsS k) (.remote (Dev.tc n : Thread nD τ) (xrS k) (csem (.xs k)) hsc) (csem (.xr k)) hsrc hdst hsem) kk) Q) := by
  subst hn
  exact Rounds.wp_send_pointsTo 𝒱₀ ER (rd m ρ) (c : Thread nD τ) none (κ₁ := K (c, .xs k)) (κ₂ := K (xp c, .xr k))
    (c' := (xp c : Thread nD τ)) (src := xsS k) (dst := xrS k) (sS := csem (.xs k)) (sem := csem (.xr k)) (sp := .vmem) (sp' := .vmem) (s := S128x256) (e := .bf16)
    (r₁ := 0) (r₂ := 0) (d₁ := false) (d₂ := false) (q := fullShare) (fs := xsndB m ρ c) (fd := fd)
    (by rw [duties_xs]; exact Finset.mem_singleton_self _) (by rw [duties_xr]; exact Finset.mem_singleton_self _)
    () () N₁ rfl (amount_xs m ρ c k false) (amount_xr m ρ (xp c) k false) O rfl (W := W)
    (by rw [payload_xs])
    (by rw [payload_xr]; exact Entails.of_eq (xr_landed m ρ c k fd))

theorem wp_send_d (c n : Dev nD) (hn : n = xp c)
    {hsc : (drcvM : Memref sig (Dev.tc n : Thread nD τ).2.kind .vmem S128x512 .bf16).view.ref.isScScratch = false}
    {hsrc : (dsndM : Memref sig .tc .vmem S128x512 .bf16).view.WordExact} {hdst : (drcvM : Memref sig .tc .vmem S128x512 .bf16).view.WordExact}
    {hsem : DmaTarget.Typed .vmem (csem .dr) (.remote (Dev.tc n : Thread nD τ) (drcvM : Memref sig .tc .vmem S128x512 .bf16) (csem .ds) hsc)}
    {α : Type} {Q : α → sProp 𝕄} {kk : PUnit → Prog (TpuEff nD τ sig (Elt F) Λ₀ .tc) α}
    (fd : Buf (Elt F) ((drcvM : Memref sig .tc .vmem S128x512 .bf16).view.loc (xp c : Thread nD τ))) (O : CellTallies nD τ sig Unit) (W : Waits sig Unit) :
    iprop(cellInv ER (rd m ρ) (K (c, .ds)) (cell c .ds) ∗ cellInv ER (rd m ρ) (K (xp c, .dr)) (cell (xp c) .dr)
        ∗ ((dsndM : Memref sig .tc .vmem S128x512 .bf16).view.loc (c : Thread nD τ) ↦[(dsndM : Memref sig .tc .vmem S128x512 .bf16).view.set]{fullShare} dsndB m ρ c)
        ∗ ((drcvM : Memref sig .tc .vmem S128x512 .bf16).view.loc (xp c : Thread nD τ) ↦[(drcvM : Memref sig .tc .vmem S128x512 .bf16).view.set]{fullShare} fd)
        ∗ owes (c : Thread nD τ) (O + tallyAt (cell (xp c) .dr) () N₂) W
        ∗ dutyTok ER (cell c .ds) 0 false ∗ reached ER (cell c .ds) 0
        ∗ dutyTok ER (cell (xp c) .dr) 0 false ∗ reached ER (cell (xp c) .dr) 0)
      ⊢ iprop(((cred (tallyAt (cell c .ds) () N₂) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (dsndM : Memref sig .tc .vmem S128x512 .bf16) (.remote (Dev.tc n : Thread nD τ) (drcvM : Memref sig .tc .vmem S128x512 .bf16) (csem .ds) hsc) (csem .dr) hsrc hdst hsem) kk) Q) := by
  subst hn
  exact Rounds.wp_send_pointsTo 𝒱₀ ER (rd m ρ) (c : Thread nD τ) none (κ₁ := K (c, .ds)) (κ₂ := K (xp c, .dr))
    (c' := (xp c : Thread nD τ)) (src := (dsndM : Memref sig .tc .vmem S128x512 .bf16)) (dst := (drcvM : Memref sig .tc .vmem S128x512 .bf16)) (sS := csem .ds) (sem := csem .dr) (sp := .vmem) (sp' := .vmem) (s := S128x512) (e := .bf16)
    (r₁ := 0) (r₂ := 0) (d₁ := false) (d₂ := false) (q := fullShare) (fs := dsndB m ρ c) (fd := fd)
    (by rw [duties_ds]; exact Finset.mem_singleton_self _) (by rw [duties_dr]; exact Finset.mem_singleton_self _)
    () () N₂ rfl (amount_ds m ρ c false) (amount_dr m ρ (xp c) false) O rfl (W := W)
    (by rw [payload_ds])
    (by rw [payload_dr, dr_landed])

theorem wp_send_f (c n : Dev nD) (hn : n = yp c) (k : Fin 7)
    {hsc : (frS k : Memref sig (Dev.tc n : Thread nD τ).2.kind .vmem S128x256 .bf16).view.ref.isScScratch = false}
    {hsrc : (xrS k).view.WordExact} {hdst : (frS k).view.WordExact}
    {hsem : DmaTarget.Typed .vmem (csem (.fr k)) (.remote (Dev.tc n : Thread nD τ) (frS k) (csem (.fs k)) hsc)}
    {α : Type} {Q : α → sProp 𝕄} {kk : PUnit → Prog (TpuEff nD τ sig (Elt F) Λ₀ .tc) α}
    (fd : Buf (Elt F) ((frS k).view.loc (yp c : Thread nD τ))) (O : CellTallies nD τ sig Unit) (W : Waits sig Unit) :
    iprop(cellInv ER (rd m ρ) (K (c, .fs k)) (cell c (.fs k)) ∗ cellInv ER (rd m ρ) (K (yp c, .fr k)) (cell (yp c) (.fr k))
        ∗ ((xrS k).view.loc (c : Thread nD τ) ↦[(xrS k).view.set]{fullShare.left} xrcvB m ρ c)
        ∗ ((frS k).view.loc (yp c : Thread nD τ) ↦[(frS k).view.set]{fullShare} fd)
        ∗ owes (c : Thread nD τ) (O + tallyAt (cell (yp c) (.fr k)) () N₁) W
        ∗ dutyTok ER (cell c (.fs k)) 0 false ∗ reached ER (cell c (.fs k)) 0
        ∗ dutyTok ER (cell (yp c) (.fr k)) 0 false ∗ reached ER (cell (yp c) (.fr k)) 0)
      ⊢ iprop(((cred (tallyAt (cell c (.fs k)) () N₁) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (xrS k) (.remote (Dev.tc n : Thread nD τ) (frS k) (csem (.fs k)) hsc) (csem (.fr k)) hsrc hdst hsem) kk) Q) := by
  subst hn
  exact Rounds.wp_send_pointsTo 𝒱₀ ER (rd m ρ) (c : Thread nD τ) none (κ₁ := K (c, .fs k)) (κ₂ := K (yp c, .fr k))
    (c' := (yp c : Thread nD τ)) (src := xrS k) (dst := frS k) (sS := csem (.fs k)) (sem := csem (.fr k)) (sp := .vmem) (sp' := .vmem) (s := S128x256) (e := .bf16)
    (r₁ := 0) (r₂ := 0) (d₁ := false) (d₂ := false) (q := fullShare.left) (fs := xrcvB m ρ c) (fd := fd)
    (by rw [duties_fs]; exact Finset.mem_singleton_self _) (by rw [duties_fr]; exact Finset.mem_singleton_self _)
    () () N₁ rfl (amount_fs m ρ c k false) (amount_fr m ρ (yp c) k false) O rfl (W := W)
    (by rw [payload_fs])
    (by rw [payload_fr]; exact Entails.of_eq (fr_landed m ρ c k fd))

end Sends

/-- info: 'Cert.KernelIdeal.RS.wp_send_f' depends on axioms: [propext, Classical.choice, Quot.sound] -/
#guard_msgs in #print axioms wp_send_f

end Cert.KernelIdeal.RS

end
-- ==== Proof.Run1Lemmas.lean ====
import proofs.«901040_g7700000000001041_dist_rs_v7x_xyz2x4x4_x_m1024_n512_bf16_1_alg».proof.Proof.BodyInv
import proofs.«901040_g7700000000001041_dist_rs_v7x_xyz2x4x4_x_m1024_n512_bf16_1_alg».proof.Proof.Send

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

theorem toks9_join {ℓ : Loc nD τ sig} {S : Finset (Idx ℓ)} {f : Buf (Elt F) ℓ} (q : PosShare TreeShare) :
    iprop((ℓ ↦[S]{Transfers.shareDrop q 9} f) ∗ (ℓ ↦[S]{Transfers.shareTokN q 0} f) ∗ (ℓ ↦[S]{Transfers.shareTokN q 1} f) ∗ (ℓ ↦[S]{Transfers.shareTokN q 2} f) ∗ (ℓ ↦[S]{Transfers.shareTokN q 3} f) ∗ (ℓ ↦[S]{Transfers.shareTokN q 4} f) ∗ (ℓ ↦[S]{Transfers.shareTokN q 5} f) ∗ (ℓ ↦[S]{Transfers.shareTokN q 6} f) ∗ (ℓ ↦[S]{Transfers.shareTokN q 7} f) ∗ (ℓ ↦[S]{Transfers.shareTokN q 8} f))
      ⊢ (ℓ ↦[S]{q} f : sProp 𝕄) := by
  have h : iprop((ℓ ↦[S]{Transfers.shareDrop q 9} f) ∗ BI.bigSep (Finset.range 9) (fun i => ℓ ↦[S]{Transfers.shareTokN q i} f)) ⊢ (ℓ ↦[S]{q} f : sProp 𝕄) :=
    (Transfers.pointsTo_toks_range (Lvl := ℕ) q 9).2
  rw [bigSep_eq_bigSepL_of_eq ([0, 1, 2, 3, 4, 5, 6, 7, 8] : List ℕ) (by decide) (by decide)] at h
  exact h

variable (m : (ℓ : Loc nD τ sig) → Buf (Elt F) ℓ) (ρ : Dev nD → PrngReg)

abbrev dsrc (c : Dev nD) : Memref sig .tc .hbm S128x512 .f32 :=
  (inM.slice (Rect.unit (s := S1x1024x1024) (k0_off9 c) S1x128x512.size (k0_off9_inb c)) (fun _ => rfl)).squeeze S128x512 squeezes_S1x128x512_S128x512

theorem zero2 : (![0, 0] : Fin 2 → Nat) = fun _ => 0 := by
  funext a; fin_cases a <;> rfl

theorem dstg_read (c : Dev nD) (g : (cc0_scratch1 : Ref sig .tc).ty.Contents (Elt F)) :
    (dstgM : Memref sig .tc .vmem S128x512 .f32).view.readAt (Elt F) (Rect.unit (s := S128x512) ![0, 0] S128x512.size inb_S128x512_S128x512_0_0).toLoadRect
        ((dstgM : Memref sig .tc .vmem S128x512 .f32).view.write (Elt F) g (ReadAs.same.apply ((dsrc c).view.read (Elt F) (X m ρ c))) Finset.univ)
      = dstageL m ρ c := by
  refine (Memref.readAt_unit_zero (Elt F) (cc0_scratch1 : Ref sig .tc) zero2 inb_S128x512_S128x512_0_0 _).trans ?_
  exact View.write_whole_univ _ _ _

theorem ds_stored (c : Dev nD) (g : (cc0_scratch5 : Ref sig .tc).ty.Contents (Elt F)) :
    (dsndM : Memref sig .tc .vmem S128x512 .bf16).view.writes (Elt F) g [⟨Rect.unit (s := S128x512) ![0, 0] S128x512.size inb_S128x512_S128x512_0_0, k0_pay9 (dstageL m ρ c)⟩]
      = dsndB m ρ c := by
  rw [View.writes_cons, View.writes_nil]
  exact Memref.write_access_unit_zero_univ (Elt F) (cc0_scratch5 : Ref sig .tc) zero2 inb_S128x512_S128x512_0_0 g _

abbrev msrc (c : Dev nD) : Memref sig .tc .hbm S1024x512 .f32 :=
  (inM.slice (Rect.unit (s := S1x1024x1024) (k0_off1 c) S1x1024x512.size (k0_off1_inb c)) (fun _ => rfl)).squeeze S1024x512 squeezes_S1x1024x512_S1024x512

theorem mine_copied (c : Dev nD) (g : (cc0_scratch2 : Ref sig .tc).ty.Contents (Elt F)) :
    (mineM : Memref sig .tc .vmem S1024x512 .f32).view.write (Elt F) g (ReadAs.same.apply ((msrc c).view.read (Elt F) (X m ρ c))) Finset.univ
      = mineB m ρ c :=
  View.write_whole_univ _ _ _

/-- info: 'Cert.KernelIdeal.RS.toks9_join' depends on axioms: [propext, Classical.choice, Quot.sound] -/
#guard_msgs in #print axioms toks9_join

/-- info: 'Cert.KernelIdeal.RS.dstg_read' depends on axioms: [propext, Classical.choice, Quot.sound] -/
#guard_msgs in #print axioms dstg_read

/-- info: 'Cert.KernelIdeal.RS.ds_stored' depends on axioms: [propext, Classical.choice, Quot.sound] -/
#guard_msgs in #print axioms ds_stored

/-- info: 'Cert.KernelIdeal.RS.mine_copied' depends on axioms: [propext, Classical.choice, Quot.sound] -/
#guard_msgs in #print axioms mine_copied

end Cert.KernelIdeal.RS

end
-- ==== Proof.Run1.lean ====
import proofs.«901040_g7700000000001041_dist_rs_v7x_xyz2x4x4_x_m1024_n512_bf16_1_alg».proof.Proof.BodyInv
import proofs.«901040_g7700000000001041_dist_rs_v7x_xyz2x4x4_x_m1024_n512_bf16_1_alg».proof.Proof.Send
import proofs.«901040_g7700000000001041_dist_rs_v7x_xyz2x4x4_x_m1024_n512_bf16_1_alg».proof.Proof.Run1Lemmas

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

variable (m : (ℓ : Loc nD τ sig) → Buf (Elt F) ℓ) (ρ : Dev nD → PrngReg)

section Glue

abbrev srcS (k : Fin 7) (c : Dev nD) : Memref sig .tc .hbm S128x256 .f32 :=
  (inM.slice (Rect.unit (s := S1x1024x1024) (offS k c) S1x128x256.size (offS_inb k c)) (fun _ => rfl)).squeeze S128x256 squeezes_S1x128x256_S128x256

theorem stg_set (k : Fin 7) : (slot7 (stgM : Memref sig .tc .vmem S7x128x256 .f32) k).view.set = (slotRect k).set := by
  show ((View.whole cc0_scratch0).slice (slotRect k) |>.reshape S128x256 _).set = _
  rw [View.set_reshape, View.set_slice_whole]

theorem stg_read_other {k j : Fin 7} (hkj : k ≠ j) (g : (cc0_scratch0 : Ref sig .tc).ty.Contents (Elt F)) (P : S128x256.Idx → Elt F .f32) :
    (stgM : Memref sig .tc .vmem S7x128x256 .f32).view.readAt (Elt F) (slotRect k).toLoadRect ((slot7 (stgM : Memref sig .tc .vmem S7x128x256 .f32) j).view.write (Elt F) g P Finset.univ)
      = (stgM : Memref sig .tc .vmem S7x128x256 .f32).view.readAt (Elt F) (slotRect k).toLoadRect g := by
  refine View.readAt_congr fun i hi => View.write_of_not_mem _ _ _ ?_
  rw [View.setOn_univ, stg_set]
  have hi' : i ∈ (slotRect k).set := by
    obtain ⟨y, hy, rfl⟩ := Finset.mem_map.mp hi
    exact hy
  exact Finset.disjoint_left.mp (slotRect_disjoint hkj) hi'

theorem stg_read_hit (k : Fin 7) (c : Dev nD) (g : (cc0_scratch0 : Ref sig .tc).ty.Contents (Elt F)) :
    (stgM : Memref sig .tc .vmem S7x128x256 .f32).view.readAt (Elt F) (slotRect k).toLoadRect
        ((slot7 (stgM : Memref sig .tc .vmem S7x128x256 .f32) k).view.write (Elt F) g (ReadAs.same.apply ((srcS k c).view.read (Elt F) (X m ρ c))) Finset.univ)
      = stageL m ρ k c := by
  funext x
  rw [View.readAt_rect, View.read_apply]
  have he : ((stgM : Memref sig .tc .vmem S7x128x256 .f32).view.slice (slotRect k)).emb x
      = (slot7 (stgM : Memref sig .tc .vmem S7x128x256 .f32) k).view.emb ((Shape.reshapeEquiv (squeezes_S1x128x256_S128x256).numel_eq).symm x) := by
    show _ = ((Shape.reshapeEquiv _).toEmbedding.trans _) _
    simp
  rw [he, View.write_emb_of_mem _ _ (Finset.mem_univ _)]
  rw [cast_cast, cast_eq]
  unfold stageL
  show (srcS k c).view.read (Elt F) (X m ρ c) ((Shape.reshapeEquiv (squeezes_S1x128x256_S128x256).numel_eq).symm x) = _
  rw [View.read_apply, View.read_apply]
  have he2 : (srcS k c).view.emb ((Shape.reshapeEquiv (squeezes_S1x128x256_S128x256).numel_eq).symm x)
      = ((inM : Memref sig .tc .hbm S1x1024x1024 .f32).slice (Rect.unit (s := S1x1024x1024) (offS k c) S1x128x256.size (offS_inb k c)) (fun _ => rfl)).view.emb x := by
    show ((Shape.reshapeEquiv _).toEmbedding.trans _) _ = _
    simp
  rw [he2]

theorem xsndB_block (k : Fin 7) (c : Dev nD) (x : (slotRect k).shape.Idx) :
    xsndB m ρ c ((slotRect k).emb x) = payS k (stageL m ρ k c) x := by
  have h1 : ((x 0 : Fin 1) : ℕ) < 1 := (x 0).isLt
  have h0 : ((slotRect k).emb x) 0 = k := Fin.ext (by show k.val + 1 * ((x 0 : Fin 1) : ℕ) = k.val; omega)
  have hl : low3 ((slotRect k).emb x) = x := by
    funext a
    match a with
    | ⟨0, _⟩ => exact Fin.ext (by show 0 = ((x 0 : Fin 1) : ℕ); omega)
    | ⟨1, _⟩ => exact Fin.ext (by show 0 + 1 * ((x 1 : Fin 128) : ℕ) = ((x 1 : Fin 128) : ℕ); omega)
    | ⟨2, _⟩ => exact Fin.ext (by show 0 + 1 * ((x 2 : Fin 256) : ℕ) = ((x 2 : Fin 256) : ℕ); omega)
    | ⟨_ + 3, h'⟩ => exact absurd h' (Nat.not_lt.2 (Nat.le_add_left _ _))
  show payS (((slotRect k).emb x) 0) (stageL m ρ (((slotRect k).emb x) 0) c) (low3 ((slotRect k).emb x)) = _
  rw [h0, hl]

set_option maxHeartbeats 1000000 in

theorem xs_stored (k : Fin 7) (c : Dev nD) (g : (cc0_scratch4 : Ref sig .tc).ty.Contents (Elt F))
    (L : List (View.Piece (Elt F) S7x128x256 .bf16)) :
    ∀ i ∈ (xsS k).view.set,
      (xsndM : Memref sig .tc .vmem S7x128x256 .bf16).view.writes (Elt F) g (⟨slotRect k, payS k (stageL m ρ k c)⟩ :: L) i = xsndB m ρ c i := by
  intro i hi
  rw [xs_set] at hi
  obtain ⟨x, -, rfl⟩ := Finset.mem_map.mp (by rw [Rect.map_emb_univ]; exact hi : i ∈ Finset.univ.map (slotRect k).emb)
  have h := View.read_writes_cons_emb (v := (xsndM : Memref sig .tc .vmem S7x128x256 .bf16).view) (f := g) (slotRect k) (payS k (stageL m ρ k c)) L x
  have h' : (View.whole cc0_scratch4).read (Elt F)
      ((xsndM : Memref sig .tc .vmem S7x128x256 .bf16).view.writes (Elt F) g (⟨slotRect k, payS k (stageL m ρ k c)⟩ :: L)) ((slotRect k).emb x)
        = payS k (stageL m ρ k c) x := h
  rw [View.read_whole] at h'
  rw [xsndB_block]
  exact h'

theorem xs_stored' (k : Fin 7) (c : Dev nD) (g : (cc0_scratch4 : Ref sig .tc).ty.Contents (Elt F))
    (L : List (View.Piece (Elt F) S7x128x256 .bf16)) (V : Vec F S1x128x256 .f32) (hV : V = stageL m ρ k c) :
    ∀ i ∈ (xsS k).view.set,
      (xsndM : Memref sig .tc .vmem S7x128x256 .bf16).view.writes (Elt F) g (⟨slotRect k, payS k V⟩ :: L) i = xsndB m ρ c i := by
  subst hV; exact xs_stored m ρ k c g L

theorem ds_stored' (c : Dev nD) (g : (cc0_scratch5 : Ref sig .tc).ty.Contents (Elt F)) (V : Vec F S128x512 .f32) (hV : V = dstageL m ρ c) :
    (dsndM : Memref sig .tc .vmem S128x512 .bf16).view.writes (Elt F) g [⟨Rect.unit (s := S128x512) ![0, 0] S128x512.size inb_S128x512_S128x512_0_0, k0_pay9 V⟩] = dsndB m ρ c := by
  subst hV; exact ds_stored m ρ c g
theorem ds_set : (dsndM : Memref sig .tc .vmem S128x512 .bf16).view.set = Finset.univ := View.set_whole _
theorem dr_set : (drcvM : Memref sig .tc .vmem S128x512 .bf16).view.set = Finset.univ := View.set_whole _

theorem bar_rest (c : Dev nD) : bigSep Finset.univ (fun d : Bool => (rd (F := F) m ρ).payload (cell c .bar) 0 d)
    = iprop(((∃ f : Buf (Elt F) ((xrcvM : Memref sig .tc .vmem S7x128x256 .bf16).view.loc (xp c : Thread nD τ)), (xrcvM : Memref sig .tc .vmem S7x128x256 .bf16).view.loc (xp c : Thread nD τ) ↦{fullShare} f)
      ∗ (∃ f : Buf (Elt F) ((drcvM : Memref sig .tc .vmem S128x512 .bf16).view.loc (xp c : Thread nD τ)), (drcvM : Memref sig .tc .vmem S128x512 .bf16).view.loc (xp c : Thread nD τ) ↦{fullShare} f))
      ∗ (∃ f : Buf (Elt F) ((frcvM : Memref sig .tc .vmem S7x128x256 .bf16).view.loc (yp c : Thread nD τ)), (frcvM : Memref sig .tc .vmem S7x128x256 .bf16).view.loc (yp c : Thread nD τ) ↦{fullShare} f)) := by
  rw [bigSep_univ_eq_bigSepL [false, true] (by decide) (by decide), bigSepL_cons_cons, bigSepL_singleton, payload_bar_false, payload_bar_true]
  rfl

end Glue

section Body
open Idealize.ShloMosaic.Tactic

theorem toks9 {ℓ : Loc nD τ sig} {S : Finset (Idx ℓ)} {f : Buf (Elt F) ℓ} (q : PosShare TreeShare) :
    (ℓ ↦[S]{q} f : sProp 𝕄) ⊢ iprop((ℓ ↦[S]{Transfers.shareDrop q 9} f) ∗ (ℓ ↦[S]{Transfers.shareTokN q 0} f) ∗ (ℓ ↦[S]{Transfers.shareTokN q 1} f) ∗ (ℓ ↦[S]{Transfers.shareTokN q 2} f) ∗ (ℓ ↦[S]{Transfers.shareTokN q 3} f) ∗ (ℓ ↦[S]{Transfers.shareTokN q 4} f) ∗ (ℓ ↦[S]{Transfers.shareTokN q 5} f) ∗ (ℓ ↦[S]{Transfers.shareTokN q 6} f) ∗ (ℓ ↦[S]{Transfers.shareTokN q 7} f) ∗ (ℓ ↦[S]{Transfers.shareTokN q 8} f)) := by
  refine (Transfers.pointsTo_toks_range (Lvl := ℕ) q 9).1.trans ?_
  rw [bigSep_eq_bigSepL_of_eq ([0, 1, 2, 3, 4, 5, 6, 7, 8] : List ℕ) (by decide) (by decide)]
  exact Entails.of_eq rfl

variable (K : Dev nD × CK → ℕ)

theorem tbl_bar_false_paid (c : Dev nD) : (rd (F := F) m ρ).payload (cell (xp c) .bar) 0 false =
    iprop((∃ f : Buf (Elt F) ((xrcvM : Memref sig .tc .vmem S7x128x256 .bf16).view.loc (c : Thread nD τ)), (xrcvM : Memref sig .tc .vmem S7x128x256 .bf16).view.loc (c : Thread nD τ) ↦{fullShare} f)
      ∗ (∃ f : Buf (Elt F) ((drcvM : Memref sig .tc .vmem S128x512 .bf16).view.loc (c : Thread nD τ)), (drcvM : Memref sig .tc .vmem S128x512 .bf16).view.loc (c : Thread nD τ) ↦{fullShare} f)) :=
  payload_bar_false_paid m ρ c
theorem tbl_bar_true_paid (c : Dev nD) : (rd (F := F) m ρ).payload (cell (yp c) .bar) 0 true =
    iprop(∃ f : Buf (Elt F) ((frcvM : Memref sig .tc .vmem S7x128x256 .bf16).view.loc (c : Thread nD τ)), (frcvM : Memref sig .tc .vmem S7x128x256 .bf16).view.loc (c : Thread nD τ) ↦{fullShare} f) :=
  payload_bar_true_paid m ρ c
theorem tbl_bar_false (c : Dev nD) : (rd (F := F) m ρ).payload (cell c .bar) 0 false =
    iprop((∃ f : Buf (Elt F) ((xrcvM : Memref sig .tc .vmem S7x128x256 .bf16).view.loc (xp c : Thread nD τ)), (xrcvM : Memref sig .tc .vmem S7x128x256 .bf16).view.loc (xp c : Thread nD τ) ↦{fullShare} f)
      ∗ (∃ f : Buf (Elt F) ((drcvM : Memref sig .tc .vmem S128x512 .bf16).view.loc (xp c : Thread nD τ)), (drcvM : Memref sig .tc .vmem S128x512 .bf16).view.loc (xp c : Thread nD τ) ↦{fullShare} f)) :=
  payload_bar_false m ρ c
theorem tbl_bar_true (c : Dev nD) : (rd (F := F) m ρ).payload (cell c .bar) 0 true =
    iprop(∃ f : Buf (Elt F) ((frcvM : Memref sig .tc .vmem S7x128x256 .bf16).view.loc (yp c : Thread nD τ)), (frcvM : Memref sig .tc .vmem S7x128x256 .bf16).view.loc (yp c : Thread nD τ) ↦{fullShare} f) :=
  payload_bar_true m ρ c

attribute [local sl_rounds] duties_bar duties_xs duties_xr duties_ds duties_dr duties_fs duties_fr
  amount_bar amount_xs amount_xr amount_ds amount_dr amount_fs amount_fr
  expect_bar expect_xs expect_xr expect_ds expect_dr expect_fs expect_fr
  tbl_bar_false tbl_bar_true
  payload_xs payload_xr payload_ds payload_dr payload_fs payload_fr
attribute [local sl_rounds high] tbl_bar_false_paid tbl_bar_true_paid

set_option maxHeartbeats 4000000 in
set_option maxRecDepth 65536 in
theorem run1 : Run1 (F := F) m ρ := by
  intro K c W f0 f1 f2 f3 f4 f5 f6 f7 f8 α Kt Q
  unfold bodyPre linear creds O₀ o17 o16 o15 o14 o13 o12 o11 o10 o9 o8 o7 o6 o5 o4 o3 o2 o1 seg1₀ seg1
  rw [bigSep_CK, payToks_eq, localSems0_eq]
  iintro ⟨⟨#Hrec, ⟨⟨Hat_bar, Hat_xs0, Hat_xs1, Hat_xs2, Hat_xs3, Hat_xs4, Hat_xs5, Hat_xs6, Hat_xr0, Hat_xr1, Hat_xr2, Hat_xr3, Hat_xr4, Hat_xr5, Hat_xr6, Hat_ds, Hat_dr, Hat_fs0, Hat_fs1, Hat_fs2, Hat_fs3, Hat_fs4, Hat_fs5, Hat_fs6, Hat_fr0, Hat_fr1, Hat_fr2, Hat_fr3, Hat_fr4, Hat_fr5, Hat_fr6⟩, ⟨Htk_yp_bar, Htk_xp_bar, Htk_c_xs0, Htk_c_xs1, Htk_c_xs2, Htk_c_xs3, Htk_c_xs4, Htk_c_xs5, Htk_c_xs6, Htk_xp_xr0, Htk_xp_xr1, Htk_xp_xr2, Htk_xp_xr3, Htk_xp_xr4, Htk_xp_xr5, Htk_xp_xr6, Htk_c_ds, Htk_xp_dr, Htk_c_fs0, Htk_c_fs1, Htk_c_fs2, Htk_c_fs3, Htk_c_fs4, Htk_c_fs5, Htk_c_fs6, Htk_yp_fr0, Htk_yp_fr1, Htk_yp_fr2, Htk_yp_fr3, Htk_yp_fr4, Htk_yp_fr5, Htk_yp_fr6⟩, ⟨Hs0, Hs1, Hs2, Hs3, Hs4, Hs5, Hs6, Hs7, Hs8, Hs9, Hs10, Hs11, Hs12, Hs13, Hs14, Hs15, Hs16⟩⟩, ⟨Hc_bar, Hc_xr0, Hc_xr1, Hc_xr2, Hc_xr3, Hc_xr4, Hc_xr5, Hc_xr6, Hc_dr, Hc_fr0, Hc_fr1, Hc_fr2, Hc_fr3, Hc_fr4, Hc_fr5, Hc_fr6⟩, #Hlev, Hb0, Hb1, Hb2, Hb3, Hb4, Hb5, Hb6, Hb7, Hb8, Hin, Hout, HO⟩, Hk⟩
  ihave #HI_c_bar := (inv_at (rd m ρ) K c .bar) $$ Hrec
  ihave #HI_c_xs0 := (inv_at (rd m ρ) K c (.xs 0)) $$ Hrec
  ihave #HI_c_xs1 := (inv_at (rd m ρ) K c (.xs 1)) $$ Hrec
  ihave #HI_c_xs2 := (inv_at (rd m ρ) K c (.xs 2)) $$ Hrec
  ihave #HI_c_xs3 := (inv_at (rd m ρ) K c (.xs 3)) $$ Hrec
  ihave #HI_c_xs4 := (inv_at (rd m ρ) K c (.xs 4)) $$ Hrec
  ihave #HI_c_xs5 := (inv_at (rd m ρ) K c (.xs 5)) $$ Hrec
  ihave #HI_c_xs6 := (inv_at (rd m ρ) K c (.xs 6)) $$ Hrec
  ihave #HI_c_xr0 := (inv_at (rd m ρ) K c (.xr 0)) $$ Hrec
  ihave #HI_c_xr1 := (inv_at (rd m ρ) K c (.xr 1)) $$ Hrec
  ihave #HI_c_xr2 := (inv_at (rd m ρ) K c (.xr 2)) $$ Hrec
  ihave #HI_c_xr3 := (inv_at (rd m ρ) K c (.xr 3)) $$ Hrec
  ihave #HI_c_xr4 := (inv_at (rd m ρ) K c (.xr 4)) $$ Hrec
  ihave #HI_c_xr5 := (inv_at (rd m ρ) K c (.xr 5)) $$ Hrec
  ihave #HI_c_xr6 := (inv_at (rd m ρ) K c (.xr 6)) $$ Hrec
  ihave #HI_c_ds := (inv_at (rd m ρ) K c .ds) $$ Hrec
  ihave #HI_c_dr := (inv_at (rd m ρ) K c .dr) $$ Hrec
  ihave #HI_c_fs0 := (inv_at (rd m ρ) K c (.fs 0)) $$ Hrec
  ihave #HI_c_fs1 := (inv_at (rd m ρ) K c (.fs 1)) $$ Hrec
  ihave #HI_c_fs2 := (inv_at (rd m ρ) K c (.fs 2)) $$ Hrec
  ihave #HI_c_fs3 := (inv_at (rd m ρ) K c (.fs 3)) $$ Hrec
  ihave #HI_c_fs4 := (inv_at (rd m ρ) K c (.fs 4)) $$ Hrec
  ihave #HI_c_fs5 := (inv_at (rd m ρ) K c (.fs 5)) $$ Hrec
  ihave #HI_c_fs6 := (inv_at (rd m ρ) K c (.fs 6)) $$ Hrec
  ihave #HI_c_fr0 := (inv_at (rd m ρ) K c (.fr 0)) $$ Hrec
  ihave #HI_c_fr1 := (inv_at (rd m ρ) K c (.fr 1)) $$ Hrec
  ihave #HI_c_fr2 := (inv_at (rd m ρ) K c (.fr 2)) $$ Hrec
  ihave #HI_c_fr3 := (inv_at (rd m ρ) K c (.fr 3)) $$ Hrec
  ihave #HI_c_fr4 := (inv_at (rd m ρ) K c (.fr 4)) $$ Hrec
  ihave #HI_c_fr5 := (inv_at (rd m ρ) K c (.fr 5)) $$ Hrec
  ihave #HI_c_fr6 := (inv_at (rd m ρ) K c (.fr 6)) $$ Hrec
  ihave #HI_xp_bar := (inv_at (rd m ρ) K (xp c) .bar) $$ Hrec
  ihave #HI_yp_bar := (inv_at (rd m ρ) K (yp c) .bar) $$ Hrec
  ihave #HI_xp_xr0 := (inv_at (rd m ρ) K (xp c) (.xr 0)) $$ Hrec
  ihave #HI_xp_xr1 := (inv_at (rd m ρ) K (xp c) (.xr 1)) $$ Hrec
  ihave #HI_xp_xr2 := (inv_at (rd m ρ) K (xp c) (.xr 2)) $$ Hrec
  ihave #HI_xp_xr3 := (inv_at (rd m ρ) K (xp c) (.xr 3)) $$ Hrec
  ihave #HI_xp_xr4 := (inv_at (rd m ρ) K (xp c) (.xr 4)) $$ Hrec
  ihave #HI_xp_xr5 := (inv_at (rd m ρ) K (xp c) (.xr 5)) $$ Hrec
  ihave #HI_xp_xr6 := (inv_at (rd m ρ) K (xp c) (.xr 6)) $$ Hrec
  ihave #HI_xp_dr := (inv_at (rd m ρ) K (xp c) .dr) $$ Hrec
  ihave #HI_yp_fr0 := (inv_at (rd m ρ) K (yp c) (.fr 0)) $$ Hrec
  ihave #HI_yp_fr1 := (inv_at (rd m ρ) K (yp c) (.fr 1)) $$ Hrec
  ihave #HI_yp_fr2 := (inv_at (rd m ρ) K (yp c) (.fr 2)) $$ Hrec
  ihave #HI_yp_fr3 := (inv_at (rd m ρ) K (yp c) (.fr 3)) $$ Hrec
  ihave #HI_yp_fr4 := (inv_at (rd m ρ) K (yp c) (.fr 4)) $$ Hrec
  ihave #HI_yp_fr5 := (inv_at (rd m ρ) K (yp c) (.fr 5)) $$ Hrec
  ihave #HI_yp_fr6 := (inv_at (rd m ρ) K (yp c) (.fr 6)) $$ Hrec
  ihave #HR_yp_bar := (reached_at (rd m ρ) K (yp c) .bar) $$ Hrec
  ihave #HR_xp_bar := (reached_at (rd m ρ) K (xp c) .bar) $$ Hrec
  ihave #HR_c_xs0 := (reached_at (rd m ρ) K c (.xs 0)) $$ Hrec
  ihave #HR_c_xs1 := (reached_at (rd m ρ) K c (.xs 1)) $$ Hrec
  ihave #HR_c_xs2 := (reached_at (rd m ρ) K c (.xs 2)) $$ Hrec
  ihave #HR_c_xs3 := (reached_at (rd m ρ) K c (.xs 3)) $$ Hrec
  ihave #HR_c_xs4 := (reached_at (rd m ρ) K c (.xs 4)) $$ Hrec
  ihave #HR_c_xs5 := (reached_at (rd m ρ) K c (.xs 5)) $$ Hrec
  ihave #HR_c_xs6 := (reached_at (rd m ρ) K c (.xs 6)) $$ Hrec
  ihave #HR_xp_xr0 := (reached_at (rd m ρ) K (xp c) (.xr 0)) $$ Hrec
  ihave #HR_xp_xr1 := (reached_at (rd m ρ) K (xp c) (.xr 1)) $$ Hrec
  ihave #HR_xp_xr2 := (reached_at (rd m ρ) K (xp c) (.xr 2)) $$ Hrec
  ihave #HR_xp_xr3 := (reached_at (rd m ρ) K (xp c) (.xr 3)) $$ Hrec
  ihave #HR_xp_xr4 := (reached_at (rd m ρ) K (xp c) (.xr 4)) $$ Hrec
  ihave #HR_xp_xr5 := (reached_at (rd m ρ) K (xp c) (.xr 5)) $$ Hrec
  ihave #HR_xp_xr6 := (reached_at (rd m ρ) K (xp c) (.xr 6)) $$ Hrec
  ihave #HR_c_ds := (reached_at (rd m ρ) K c .ds) $$ Hrec
  ihave #HR_xp_dr := (reached_at (rd m ρ) K (xp c) .dr) $$ Hrec
  ihave #HR_c_fs0 := (reached_at (rd m ρ) K c (.fs 0)) $$ Hrec
  ihave #HR_c_fs1 := (reached_at (rd m ρ) K c (.fs 1)) $$ Hrec
  ihave #HR_c_fs2 := (reached_at (rd m ρ) K c (.fs 2)) $$ Hrec
  ihave #HR_c_fs3 := (reached_at (rd m ρ) K c (.fs 3)) $$ Hrec
  ihave #HR_c_fs4 := (reached_at (rd m ρ) K c (.fs 4)) $$ Hrec
  ihave #HR_c_fs5 := (reached_at (rd m ρ) K c (.fs 5)) $$ Hrec
  ihave #HR_c_fs6 := (reached_at (rd m ρ) K c (.fs 6)) $$ Hrec
  ihave #HR_yp_fr0 := (reached_at (rd m ρ) K (yp c) (.fr 0)) $$ Hrec
  ihave #HR_yp_fr1 := (reached_at (rd m ρ) K (yp c) (.fr 1)) $$ Hrec
  ihave #HR_yp_fr2 := (reached_at (rd m ρ) K (yp c) (.fr 2)) $$ Hrec
  ihave #HR_yp_fr3 := (reached_at (rd m ρ) K (yp c) (.fr 3)) $$ Hrec
  ihave #HR_yp_fr4 := (reached_at (rd m ρ) K (yp c) (.fr 4)) $$ Hrec
  ihave #HR_yp_fr5 := (reached_at (rd m ρ) K (yp c) (.fr 5)) $$ Hrec
  ihave #HR_yp_fr6 := (reached_at (rd m ρ) K (yp c) (.fr 6)) $$ Hrec
  ihave Hin' := (toks9 (F := F) fullShare) $$ Hin
  icases Hin' with ⟨Hin_rest, Hin0, Hin1, Hin2, Hin3, Hin4, Hin5, Hin6, Hin7, Hin8⟩
  have hmw_s0 : (levAts L lv : sProp 𝕄) ⊢ MayWait (c : Thread nD τ) (.dma ⟨0, by decide⟩) () (o17 c) :=
    mayWait_above (F := F) c _ 0 _ (le_of_eq (lv_local c ⟨0, by decide⟩ (by decide) ())) (by repeat' (first | exact above_tally _ _ _ _ (by decide) | apply above_add))
  have hmw_s1 : (levAts L lv : sProp 𝕄) ⊢ MayWait (c : Thread nD τ) (.dma ⟨1, by decide⟩) () (o14 c) :=
    mayWait_above (F := F) c _ 0 _ (le_of_eq (lv_local c ⟨1, by decide⟩ (by decide) ())) (by repeat' (first | exact above_tally _ _ _ _ (by decide) | apply above_add))
  have hmw_s2 : (levAts L lv : sProp 𝕄) ⊢ MayWait (c : Thread nD τ) (.dma ⟨2, by decide⟩) () (o13 c) :=
    mayWait_above (F := F) c _ 0 _ (le_of_eq (lv_local c ⟨2, by decide⟩ (by decide) ())) (by repeat' (first | exact above_tally _ _ _ _ (by decide) | apply above_add))
  have hmw_s3 : (levAts L lv : sProp 𝕄) ⊢ MayWait (c : Thread nD τ) (.dma ⟨3, by decide⟩) () (o12 c) :=
    mayWait_above (F := F) c _ 0 _ (le_of_eq (lv_local c ⟨3, by decide⟩ (by decide) ())) (by repeat' (first | exact above_tally _ _ _ _ (by decide) | apply above_add))
  have hmw_s4 : (levAts L lv : sProp 𝕄) ⊢ MayWait (c : Thread nD τ) (.dma ⟨4, by decide⟩) () (o11 c) :=
    mayWait_above (F := F) c _ 0 _ (le_of_eq (lv_local c ⟨4, by decide⟩ (by decide) ())) (by repeat' (first | exact above_tally _ _ _ _ (by decide) | apply above_add))
  have hmw_s5 : (levAts L lv : sProp 𝕄) ⊢ MayWait (c : Thread nD τ) (.dma ⟨5, by decide⟩) () (o10 c) :=
    mayWait_above (F := F) c _ 0 _ (le_of_eq (lv_local c ⟨5, by decide⟩ (by decide) ())) (by repeat' (first | exact above_tally _ _ _ _ (by decide) | apply above_add))
  have hmw_s6 : (levAts L lv : sProp 𝕄) ⊢ MayWait (c : Thread nD τ) (.dma ⟨6, by decide⟩) () (o9 c) :=
    mayWait_above (F := F) c _ 0 _ (le_of_eq (lv_local c ⟨6, by decide⟩ (by decide) ())) (by repeat' (first | exact above_tally _ _ _ _ (by decide) | apply above_add))
  have hmw_s7 : (levAts L lv : sProp 𝕄) ⊢ MayWait (c : Thread nD τ) (.dma ⟨7, by decide⟩) () (o8 c) :=
    mayWait_above (F := F) c _ 0 _ (le_of_eq (lv_local c ⟨7, by decide⟩ (by decide) ())) (by repeat' (first | exact above_tally _ _ _ _ (by decide) | apply above_add))
  have hmw_s8 : (levAts L lv : sProp 𝕄) ⊢ MayWait (c : Thread nD τ) (.dma ⟨8, by decide⟩) () (o7 c) :=
    mayWait_above (F := F) c _ 0 _ (le_of_eq (lv_local c ⟨8, by decide⟩ (by decide) ())) (by repeat' (first | exact above_tally _ _ _ _ (by decide) | apply above_add))
  have hmw_bar : (levAts L lv : sProp 𝕄) ⊢ MayWait (c : Thread nD τ) (csem .bar) () (o15 c) :=
    mayWait_above (F := F) c _ 1 _ (le_of_eq (lv_cell c .bar ())) (by repeat' (first | exact above_tally _ _ _ _ (by decide) | apply above_add))
  have hmw_xr0 : (levAts L lv : sProp 𝕄) ⊢ MayWait (c : Thread nD τ) (csem (.xr 0)) () (o7 c) :=
    mayWait_above (F := F) c _ 2 _ (le_of_eq (lv_cell c (.xr 0) ())) (by repeat' (first | exact above_tally _ _ _ _ (by decide) | apply above_add))
  have hmw_xr1 : (levAts L lv : sProp 𝕄) ⊢ MayWait (c : Thread nD τ) (csem (.xr 1)) () (o6 c) :=
    mayWait_above (F := F) c _ 2 _ (le_of_eq (lv_cell c (.xr 1) ())) (by repeat' (first | exact above_tally _ _ _ _ (by decide) | apply above_add))
  have hmw_xr2 : (levAts L lv : sProp 𝕄) ⊢ MayWait (c : Thread nD τ) (csem (.xr 2)) () (o5 c) :=
    mayWait_above (F := F) c _ 2 _ (le_of_eq (lv_cell c (.xr 2) ())) (by repeat' (first | exact above_tally _ _ _ _ (by decide) | apply above_add))
  have hmw_xr3 : (levAts L lv : sProp 𝕄) ⊢ MayWait (c : Thread nD τ) (csem (.xr 3)) () (o4 c) :=
    mayWait_above (F := F) c _ 2 _ (le_of_eq (lv_cell c (.xr 3) ())) (by repeat' (first | exact above_tally _ _ _ _ (by decide) | apply above_add))
  have hmw_xr4 : (levAts L lv : sProp 𝕄) ⊢ MayWait (c : Thread nD τ) (csem (.xr 4)) () (o3 c) :=
    mayWait_above (F := F) c _ 2 _ (le_of_eq (lv_cell c (.xr 4) ())) (by repeat' (first | exact above_tally _ _ _ _ (by decide) | apply above_add))
  have hmw_xr5 : (levAts L lv : sProp 𝕄) ⊢ MayWait (c : Thread nD τ) (csem (.xr 5)) () (o2 c) :=
    mayWait_above (F := F) c _ 2 _ (le_of_eq (lv_cell c (.xr 5) ())) (by repeat' (first | exact above_tally _ _ _ _ (by decide) | apply above_add))
  have hmw_xr6 : (levAts L lv : sProp 𝕄) ⊢ MayWait (c : Thread nD τ) (csem (.xr 6)) () (tallyAt (cell (yp c) (.fr 6)) () N₁) :=
    mayWait_above (F := F) c _ 2 _ (le_of_eq (lv_cell c (.xr 6) ())) (by repeat' (first | exact above_tally _ _ _ _ (by decide) | apply above_add))
  set_option sl_exec.dmaWindow true in
  sl_exec_parts (disch := simp only [dev_eqs])

  ihave ⟨⟨⟨%g6, Hx6⟩, ⟨%g7, Hx7⟩⟩, ⟨%g8, Hy8⟩⟩ := (Entails.of_eq (bar_rest m ρ c)) $$ Hat_bar_pay1
  ihave ⟨Hd0, Hd1, Hd2, Hd3, Hd4, Hd5, Hd6⟩ := (Entails.of_eq (xr_slots7 (F := F) (xp c) fullShare g6)) $$ Hx6

  have hv0 : run1.sl.v80 m ρ c f0 = stageL m ρ 0 c :=
    (stg_read_other (k := 0) (j := 6) (by decide) _ _).trans <| (stg_read_other (k := 0) (j := 5) (by decide) _ _).trans <| (stg_read_other (k := 0) (j := 4) (by decide) _ _).trans <| (stg_read_other (k := 0) (j := 3) (by decide) _ _).trans <| (stg_read_other (k := 0) (j := 2) (by decide) _ _).trans <| (stg_read_other (k := 0) (j := 1) (by decide) _ _).trans <| stg_read_hit m ρ 0 c _
  have hL0 : run1.sl.Hb4_1 m ρ c f0 = [⟨slotRect 0, payS 0 (stageL m ρ 0 c)⟩] := by
    unfold run1.sl.Hb4_1; rw [hv0]; rfl
  ihave ⟨Hsrc0, Hb4⟩ := (pointsTo_split_subset (Finset.subset_univ (xsS 0).view.set)).1 $$ Hb4
  ihave Hsrc0 := (Entails.of_eq (pointsTo_congr (g := xsndB m ρ c) (fun i hi => by rw [hL0]; exact xs_stored m ρ 0 c f4 [] i hi))) $$ Hsrc0
  iapply (wp_send_x m ρ K c (xp c) rfl 0 g6 _ _) $$ [Hsrc0 Hd0 HO Htk_c_xs0 Htk_xp_xr0]
  · iframe ∗ #
  iintro ⟨Hcr_xs0, HO⟩
  set_option sl_exec.dmaWindow true in
  sl_exec_parts (disch := simp only [dev_eqs])

  ihave ⟨Hsrc1, Hb4⟩ := (pointsTo_split_subset (Finset.subset_sdiff.mpr ⟨(Finset.subset_univ _), (by rw [xs_set, xs_set]; exact slotRect_disjoint (by decide) : Disjoint (xsS 1).view.set (xsS 0).view.set)⟩)).1 $$ Hb4
  ihave Hsrc1 := (Entails.of_eq (pointsTo_congr (g := xsndB m ρ c) (fun i hi => by
    sl_unfold_run_names
    exact xs_stored' m ρ 1 c f4 _ _ ((stg_read_other (k := 1) (j := 6) (by decide) _ _).trans <| (stg_read_other (k := 1) (j := 5) (by decide) _ _).trans <| (stg_read_other (k := 1) (j := 4) (by decide) _ _).trans <| (stg_read_other (k := 1) (j := 3) (by decide) _ _).trans <| (stg_read_other (k := 1) (j := 2) (by decide) _ _).trans <| stg_read_hit m ρ 1 c _) i hi))) $$ Hsrc1
  iapply (wp_send_x m ρ K c (xp c) rfl 1 g6 _ _) $$ [Hsrc1 Hd1 HO Htk_c_xs1 Htk_xp_xr1]
  · iframe ∗ #
  iintro ⟨Hcr_xs1, HO⟩
  set_option sl_exec.dmaWindow true in
  sl_exec_parts (disch := simp only [dev_eqs])

  ihave ⟨Hsrc2, Hb4⟩ := (pointsTo_split_subset (Finset.subset_sdiff.mpr ⟨(Finset.subset_sdiff.mpr ⟨(Finset.subset_univ _), (by rw [xs_set, xs_set]; exact slotRect_disjoint (by decide) : Disjoint (xsS 2).view.set (xsS 0).view.set)⟩), (by rw [xs_set, xs_set]; exact slotRect_disjoint (by decide) : Disjoint (xsS 2).view.set (xsS 1).view.set)⟩)).1 $$ Hb4
  ihave Hsrc2 := (Entails.of_eq (pointsTo_congr (g := xsndB m ρ c) (fun i hi => by
    sl_unfold_run_names
    exact xs_stored' m ρ 2 c f4 _ _ ((stg_read_other (k := 2) (j := 6) (by decide) _ _).trans <| (stg_read_other (k := 2) (j := 5) (by decide) _ _).trans <| (stg_read_other (k := 2) (j := 4) (by decide) _ _).trans <| (stg_read_other (k := 2) (j := 3) (by decide) _ _).trans <| stg_read_hit m ρ 2 c _) i hi))) $$ Hsrc2
  iapply (wp_send_x m ρ K c (xp c) rfl 2 g6 _ _) $$ [Hsrc2 Hd2 HO Htk_c_xs2 Htk_xp_xr2]
  · iframe ∗ #
  iintro ⟨Hcr_xs2, HO⟩
  set_option sl_exec.dmaWindow true in
  sl_exec_parts (disch := simp only [dev_eqs])

  ihave ⟨Hsrc3, Hb4⟩ := (pointsTo_split_subset (Finset.subset_sdiff.mpr ⟨(Finset.subset_sdiff.mpr ⟨(Finset.subset_sdiff.mpr ⟨(Finset.subset_univ _), (by rw [xs_set, xs_set]; exact slotRect_disjoint (by decide) : Disjoint (xsS 3).view.set (xsS 0).view.set)⟩), (by rw [xs_set, xs_set]; exact slotRect_disjoint (by decide) : Disjoint (xsS 3).view.set (xsS 1).view.set)⟩), (by rw [xs_set, xs_set]; exact slotRect_disjoint (by decide) : Disjoint (xsS 3).view.set (xsS 2).view.set)⟩)).1 $$ Hb4
  ihave Hsrc3 := (Entails.of_eq (pointsTo_congr (g := xsndB m ρ c) (fun i hi => by
    sl_unfold_run_names
    exact xs_stored' m ρ 3 c f4 _ _ ((stg_read_other (k := 3) (j := 6) (by decide) _ _).trans <| (stg_read_other (k := 3) (j := 5) (by decide) _ _).trans <| (stg_read_other (k := 3) (j := 4) (by decide) _ _).trans <| stg_read_hit m ρ 3 c _) i hi))) $$ Hsrc3
  iapply (wp_send_x m ρ K c (xp c) rfl 3 g6 _ _) $$ [Hsrc3 Hd3 HO Htk_c_xs3 Htk_xp_xr3]
  · iframe ∗ #
  iintro ⟨Hcr_xs3, HO⟩
  set_option sl_exec.dmaWindow true in
  sl_exec_parts (disch := simp only [dev_eqs])

  ihave ⟨Hsrc4, Hb4⟩ := (pointsTo_split_subset (Finset.subset_sdiff.mpr ⟨(Finset.subset_sdiff.mpr ⟨(Finset.subset_sdiff.mpr ⟨(Finset.subset_sdiff.mpr ⟨(Finset.subset_univ _), (by rw [xs_set, xs_set]; exact slotRect_disjoint (by decide) : Disjoint (xsS 4).view.set (xsS 0).view.set)⟩), (by rw [xs_set, xs_set]; exact slotRect_disjoint (by decide) : Disjoint (xsS 4).view.set (xsS 1).view.set)⟩), (by rw [xs_set, xs_set]; exact slotRect_disjoint (by decide) : Disjoint (xsS 4).view.set (xsS 2).view.set)⟩), (by rw [xs_set, xs_set]; exact slotRect_disjoint (by decide) : Disjoint (xsS 4).view.set (xsS 3).view.set)⟩)).1 $$ Hb4
  ihave Hsrc4 := (Entails.of_eq (pointsTo_congr (g := xsndB m ρ c) (fun i hi => by
    sl_unfold_run_names
    exact xs_stored' m ρ 4 c f4 _ _ ((stg_read_other (k := 4) (j := 6) (by decide) _ _).trans <| (stg_read_other (k := 4) (j := 5) (by decide) _ _).trans <| stg_read_hit m ρ 4 c _) i hi))) $$ Hsrc4
  iapply (wp_send_x m ρ K c (xp c) rfl 4 g6 _ _) $$ [Hsrc4 Hd4 HO Htk_c_xs4 Htk_xp_xr4]
  · iframe ∗ #
  iintro ⟨Hcr_xs4, HO⟩
  set_option sl_exec.dmaWindow true in
  sl_exec_parts (disch := simp only [dev_eqs])

  ihave ⟨Hsrc5, Hb4⟩ := (pointsTo_split_subset (Finset.subset_sdiff.mpr ⟨(Finset.subset_sdiff.mpr ⟨(Finset.subset_sdiff.mpr ⟨(Finset.subset_sdiff.mpr ⟨(Finset.subset_sdiff.mpr ⟨(Finset.subset_univ _), (by rw [xs_set, xs_set]; exact slotRect_disjoint (by decide) : Disjoint (xsS 5).view.set (xsS 0).view.set)⟩), (by rw [xs_set, xs_set]; exact slotRect_disjoint (by decide) : Disjoint (xsS 5).view.set (xsS 1).view.set)⟩), (by rw [xs_set, xs_set]; exact slotRect_disjoint (by decide) : Disjoint (xsS 5).view.set (xsS 2).view.set)⟩), (by rw [xs_set, xs_set]; exact slotRect_disjoint (by decide) : Disjoint (xsS 5).view.set (xsS 3).view.set)⟩), (by rw [xs_set, xs_set]; exact slotRect_disjoint (by decide) : Disjoint (xsS 5).view.set (xsS 4).view.set)⟩)).1 $$ Hb4
  ihave Hsrc5 := (Entails.of_eq (pointsTo_congr (g := xsndB m ρ c) (fun i hi => by
    sl_unfold_run_names
    exact xs_stored' m ρ 5 c f4 _ _ ((stg_read_other (k := 5) (j := 6) (by decide) _ _).trans <| stg_read_hit m ρ 5 c _) i hi))) $$ Hsrc5
  iapply (wp_send_x m ρ K c (xp c) rfl 5 g6 _ _) $$ [Hsrc5 Hd5 HO Htk_c_xs5 Htk_xp_xr5]
  · iframe ∗ #
  iintro ⟨Hcr_xs5, HO⟩
  set_option sl_exec.dmaWindow true in
  sl_exec_parts (disch := simp only [dev_eqs])

  ihave ⟨Hsrc6, Hb4⟩ := (pointsTo_split_subset (Finset.subset_sdiff.mpr ⟨(Finset.subset_sdiff.mpr ⟨(Finset.subset_sdiff.mpr ⟨(Finset.subset_sdiff.mpr ⟨(Finset.subset_sdiff.mpr ⟨(Finset.subset_sdiff.mpr ⟨(Finset.subset_univ _), (by rw [xs_set, xs_set]; exact slotRect_disjoint (by decide) : Disjoint (xsS 6).view.set (xsS 0).view.set)⟩), (by rw [xs_set, xs_set]; exact slotRect_disjoint (by decide) : Disjoint (xsS 6).view.set (xsS 1).view.set)⟩), (by rw [xs_set, xs_set]; exact slotRect_disjoint (by decide) : Disjoint (xsS 6).view.set (xsS 2).view.set)⟩), (by rw [xs_set, xs_set]; exact slotRect_disjoint (by decide) : Disjoint (xsS 6).view.set (xsS 3).view.set)⟩), (by rw [xs_set, xs_set]; exact slotRect_disjoint (by decide) : Disjoint (xsS 6).view.set (xsS 4).view.set)⟩), (by rw [xs_set, xs_set]; exact slotRect_disjoint (by decide) : Disjoint (xsS 6).view.set (xsS 5).view.set)⟩)).1 $$ Hb4
  ihave Hsrc6 := (Entails.of_eq (pointsTo_congr (g := xsndB m ρ c) (fun i hi => by
    sl_unfold_run_names
    exact xs_stored' m ρ 6 c f4 _ _ (stg_read_hit m ρ 6 c _) i hi))) $$ Hsrc6
  iapply (wp_send_x m ρ K c (xp c) rfl 6 g6 _ _) $$ [Hsrc6 Hd6 HO Htk_c_xs6 Htk_xp_xr6]
  · iframe ∗ #
  iintro ⟨Hcr_xs6, HO⟩
  set_option sl_exec.maxSteps 4 in
  set_option sl_exec.dmaWindow true in
  sl_exec_parts (disch := simp only [dev_eqs])

  ihave Hsrcd := (Entails.of_eq (pointsTo_congr (g := dsndB m ρ c) (fun i _ => by
    sl_unfold_run_names
    exact congrFun (ds_stored' m ρ c f5 _ (dstg_read m ρ c _)) i))) $$ Hb5
  ihave Hsrcd := (Entails.of_eq (show ((dsndM : Memref sig .tc .vmem S128x512 .bf16).view.loc (c : Thread nD τ) ↦{fullShare} dsndB m ρ c : sProp 𝕄)
      = ((dsndM : Memref sig .tc .vmem S128x512 .bf16).view.loc (c : Thread nD τ) ↦[(dsndM : Memref sig .tc .vmem S128x512 .bf16).view.set]{fullShare} dsndB m ρ c) from by rw [ds_set])) $$ Hsrcd
  ihave Hx7 := (Entails.of_eq (show ((drcvM : Memref sig .tc .vmem S128x512 .bf16).view.loc (xp c : Thread nD τ) ↦{fullShare} g7 : sProp 𝕄)
      = ((drcvM : Memref sig .tc .vmem S128x512 .bf16).view.loc (xp c : Thread nD τ) ↦[(drcvM : Memref sig .tc .vmem S128x512 .bf16).view.set]{fullShare} g7) from by rw [dr_set])) $$ Hx7
  iapply (wp_send_d m ρ K c _ (dev10_eq c) g7 _ _) $$ [Hsrcd Hx7 HO Htk_c_ds Htk_xp_dr]
  · iframe ∗ #
  iintro ⟨Hcr_ds, HO⟩
  simp only [Prog.bind]
  set_option sl_exec.dmaWindow true in
  sl_exec_parts (disch := simp only [dev_eqs])

  have e2 : run1.sl.v2 c = x2word c := rfl
  have e5 : run1.sl.v5 c = y5word c := rfl
  have e8 : run1.sl.v8 c = z8word c := rfl
  have e9 : run1.sl.v9 c = x9word c := rfl
  have e10 : run1.sl.v10 c = y10word c := rfl
  have e20 : run1.sl.v20 c = hword c := (by decide +kernel : ∀ d : Dev nD, run1.sl.v20 d = hword d) c
  rw [e2, e5, e8, e9, e10, e20]
  iapply Hk
  unfold inv10
  rw [localSems0_eq]
  ihave Hm := (Entails.of_eq (congrArg (fun f => ((mineM : Memref sig .tc .vmem S1024x512 .f32).view.loc (c : Thread nD τ) ↦{fullShare} f : sProp 𝕄)) (show _ = mineB m ρ c from by unfold run1.sl.dma0; exact mine_copied m ρ c f2))) $$ Hb2
  ihave Hin := (toks9_join (F := F) fullShare) $$ [Hin_rest Hin0 Hin1 Hin2 Hin3 Hin4 Hin5 Hin6 Hin7 Hin8]
  · iframe
  iframe ∗ #
  isplitl [Hb0]; · iexists _; iexact Hb0
  isplitl [Hb1]; · iexists _; iexact Hb1
  isplitl [Hb3]; · iexists _; iexact Hb3
  isplitl [Hy8]; · iexists g8; iexact Hy8
  iexists _; iexact HO

/-- info: 'Cert.KernelIdeal.RS.run1' depends on axioms: [propext, Classical.choice, Quot.sound] -/
#guard_msgs in #print axioms run1

end Body

end Cert.KernelIdeal.RS

end
-- ==== Proof.Run2.lean ====
import proofs.«901040_g7700000000001041_dist_rs_v7x_xyz2x4x4_x_m1024_n512_bf16_1_alg».proof.Proof.BodyInv
import proofs.«901040_g7700000000001041_dist_rs_v7x_xyz2x4x4_x_m1024_n512_bf16_1_alg».proof.Proof.Send
import proofs.«901040_g7700000000001041_dist_rs_v7x_xyz2x4x4_x_m1024_n512_bf16_1_alg».proof.Proof.Close

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

section Value

theorem inbO (k : Fin 7) (j : Fin 2) : ∀ a, (![k.val, 0, 256 * j.val] : Fin 3 → Nat) a + S1x128x256.size a ≤ S8x128x512.size a := by
  revert k j; decide

abbrev oRect (k : Fin 7) (j : Fin 2) : Rect S8x128x512 := Rect.unit (s := S8x128x512) ![k.val, 0, 256 * j.val] S1x128x256.size (inbO k j)

theorem mem_oRect {k : Fin 7} {j : Fin 2} {i : S8x128x512.Idx} :
    i ∈ (oRect k j).set ↔ (i 0).val = k.val ∧ 256 * j.val ≤ (i 2).val ∧ (i 2).val < 256 * j.val + 256 := by
  rw [Rect.mem_set_unit]
  constructor
  · intro h
    have h0 := h 0
    have h2 := h 2
    have e0 : (![k.val, 0, 256 * j.val] : Fin 3 → Nat) 0 = k.val := rfl
    have e2 : (![k.val, 0, 256 * j.val] : Fin 3 → Nat) 2 = 256 * j.val := rfl
    have s0 : S1x128x256.size 0 = 1 := rfl
    have s2 : S1x128x256.size 2 = 256 := rfl
    rw [e0, s0] at h0
    rw [e2, s2] at h2
    omega
  · intro h a
    have b1 : ((i 1 : Fin 128) : Nat) < 128 := (i 1).isLt
    fin_cases a
    · show k.val ≤ (i 0).val ∧ (i 0).val < k.val + 1; omega
    · show 0 ≤ (i 1).val ∧ (i 1).val < 0 + 128; omega
    · show 256 * j.val ≤ (i 2).val ∧ (i 2).val < 256 * j.val + 256; omega

def sumPay (c : Dev nD) (k : Fin 7) (j : Fin 2) : FVec F S1x128x256 .f32 :=
  match j with
  | 0 => payA k (mineBlk m ρ c k 0) (xrcvBlk m ρ c k)
  | 1 => payB k (mineBlk m ρ c k 1) (xrcvBlk m ρ c k)

def sumPiece (c : Dev nD) (k : Fin 7) (j : Fin 2) : View.Piece (Elt F) S8x128x512 .f32 := ⟨oRect k j, sumPay m ρ c k j⟩

def sumPieces (c : Dev nD) (j : Fin 2) : List (View.Piece (Elt F) S8x128x512 .f32) :=
  [sumPiece m ρ c 5 j, sumPiece m ρ c 4 j, sumPiece m ρ c 3 j, sumPiece m ρ c 2 j, sumPiece m ρ c 1 j, sumPiece m ρ c 0 j]

theorem emb_oRect_0 (k : Fin 7) (j : Fin 2) (x : S1x128x256.Idx) : (((oRect k j).emb x) 0).val = k.val := by
  have hx : ((x 0 : Fin 1) : Nat) < 1 := (x 0).isLt
  show k.val + 1 * (x 0).val = k.val
  omega
theorem emb_oRect_2 (k : Fin 7) (j : Fin 2) (x : S1x128x256.Idx) : (((oRect k j).emb x) 2).val = 256 * j.val + (x 2).val := by
  show 256 * j.val + 1 * (x 2).val = _
  omega

theorem idxLo_emb (k : Fin 7) (x : S1x128x256.Idx) (h : (((oRect k 0).emb x) 2).val < 256) : idxLo ((oRect k 0).emb x) h = x := by
  funext a
  match a with
  | ⟨0, _⟩ => exact Fin.ext (by have hx : ((x 0 : Fin 1) : Nat) < 1 := (x 0).isLt; show 0 = (x 0).val; omega)
  | ⟨1, _⟩ => exact Fin.ext (by show 0 + 1 * (x 1).val = (x 1).val; omega)
  | ⟨2, _⟩ => exact Fin.ext (by show 256 * (0 : Fin 2).val + 1 * (x 2).val = (x 2).val; simp)

theorem idxHi_emb (k : Fin 7) (x : S1x128x256.Idx) (h : 256 ≤ (((oRect k 1).emb x) 2).val) : idxHi ((oRect k 1).emb x) h = x := by
  funext a
  match a with
  | ⟨0, _⟩ => exact Fin.ext (by have hx : ((x 0 : Fin 1) : Nat) < 1 := (x 0).isLt; show 0 = (x 0).val; omega)
  | ⟨1, _⟩ => exact Fin.ext (by show 0 + 1 * (x 1).val = (x 1).val; omega)
  | ⟨2, _⟩ => exact Fin.ext (by show 256 * (1 : Fin 2).val + 1 * (x 2).val - 256 = (x 2).val; simp)

theorem sumPay_eq (c : Dev nD) (k : Fin 7) (j : Fin 2) (hj : hb c = j.val) (x : S1x128x256.Idx) :
    sumPay m ρ c k j x = (show Vec F S8x128x512 .f32 from obufB m ρ c) ((oRect k j).emb x) := by
  have h7 : (((oRect k j).emb x) 0).val < 7 := by rw [emb_oRect_0]; exact k.isLt
  have hk : (⟨(((oRect k j).emb x) 0).val, h7⟩ : Fin 7) = k := Fin.ext (emb_oRect_0 k j x)
  have hx2 : ((x 2 : Fin 256) : Nat) < 256 := (x 2).isLt
  unfold obufB
  show _ = dite _ _ _
  rw [dif_pos h7, hk]
  match j, hj with
  | 0, hj =>
    have h2 : (((oRect k 0).emb x) 2).val < 256 := by rw [emb_oRect_2]; show 256 * 0 + (x 2).val < 256; omega
    rw [dif_pos h2, idxLo_emb k x h2]
    have hj0 : hb c = 0 := hj
    unfold lowHalf
    rw [if_pos hj0]
    rfl
  | 1, hj =>
    have h2 : ¬ (((oRect k 1).emb x) 2).val < 256 := by rw [emb_oRect_2]; show ¬ 256 * 1 + (x 2).val < 256; omega
    rw [dif_neg h2, idxHi_emb k x (Nat.le_of_not_lt h2)]
    have hj1 : hb c = 1 := hj
    unfold highHalf
    rw [if_neg (by rw [hj1]; decide)]
    rfl

theorem writes_sum (c : Dev nD) (j : Fin 2) (hj : hb c = j.val) (g : (cc0_scratch3 : Ref sig .tc).ty.Contents (Elt F)) :
    (obufM : Memref sig .tc .vmem S8x128x512 .f32).view.writes (Elt F) g (sumPieces m ρ c j) = obuf17 m ρ c g := by
  funext i
  have hjlt : j.val < 2 := j.isLt
  by_cases hi : (i 0).val < 6 ∧ (if hb c = 0 then (i 2).val < 256 else 256 ≤ (i 2).val)
  ·
    have hin : ∃ p ∈ sumPieces m ρ c j, i ∈ p.1.set := by
      have hi2 : 256 * j.val ≤ (i 2).val ∧ (i 2).val < 256 * j.val + 256 := by
        have b2 : ((i 2 : Fin 512) : Nat) < 512 := (i 2).isLt
        have h2 := hi.2
        by_cases h0 : hb c = 0
        · rw [if_pos h0] at h2; omega
        · rw [if_neg h0] at h2; omega
      have h6 := hi.1
      have : (i 0).val = 0 ∨ (i 0).val = 1 ∨ (i 0).val = 2 ∨ (i 0).val = 3 ∨ (i 0).val = 4 ∨ (i 0).val = 5 := by omega
      rcases this with e | e | e | e | e | e
      · exact ⟨sumPiece m ρ c 0 j, by simp [sumPieces], mem_oRect.mpr ⟨e, hi2⟩⟩
      · exact ⟨sumPiece m ρ c 1 j, by simp [sumPieces], mem_oRect.mpr ⟨e, hi2⟩⟩
      · exact ⟨sumPiece m ρ c 2 j, by simp [sumPieces], mem_oRect.mpr ⟨e, hi2⟩⟩
      · exact ⟨sumPiece m ρ c 3 j, by simp [sumPieces], mem_oRect.mpr ⟨e, hi2⟩⟩
      · exact ⟨sumPiece m ρ c 4 j, by simp [sumPieces], mem_oRect.mpr ⟨e, hi2⟩⟩
      · exact ⟨sumPiece m ρ c 5 j, by simp [sumPieces], mem_oRect.mpr ⟨e, hi2⟩⟩
    have hG : ∀ p ∈ sumPieces m ρ c j, ∀ x : p.1.shape.Idx, p.2 x = (show Vec F S8x128x512 .f32 from obufB m ρ c) (p.1.emb x) := by
      intro p hp x
      simp only [sumPieces, List.mem_cons, List.mem_nil_iff, or_false] at hp
      rcases hp with rfl | rfl | rfl | rfl | rfl | rfl <;> exact sumPay_eq m ρ c _ j hj x
    have h := View.read_writes_apply_of_pieces (obufM : Memref sig .tc .vmem S8x128x512 .f32).view g _ (sumPieces m ρ c j) hG i hin
    rw [View.read_whole] at h
    rw [h]
    unfold obuf17
    show _ = ite _ _ _
    rw [if_pos hi]
  ·
    have hout : ∀ p ∈ sumPieces m ρ c j, i ∉ p.1.set := by
      intro p hp hm
      simp only [sumPieces, List.mem_cons, List.mem_nil_iff, or_false] at hp
      have key : ∀ k : Fin 7, k.val < 6 → i ∈ (oRect k j).set → False := by
        intro k hk6 hm
        obtain ⟨e0, e2l, e2u⟩ := mem_oRect.mp hm
        apply hi
        refine ⟨by omega, ?_⟩
        by_cases h0 : hb c = 0
        · rw [if_pos h0]; omega
        · rw [if_neg h0]; have := hb_lt c; omega
      rcases hp with rfl | rfl | rfl | rfl | rfl | rfl
      · exact key 5 (by decide) hm
      · exact key 4 (by decide) hm
      · exact key 3 (by decide) hm
      · exact key 2 (by decide) hm
      · exact key 1 (by decide) hm
      · exact key 0 (by decide) hm
    have h := View.read_writes_apply_of_forall_not_mem (obufM : Memref sig .tc .vmem S8x128x512 .f32).view g i (sumPieces m ρ c j) hout
    rw [View.read_whole, View.read_whole] at h
    rw [h]
    unfold obuf17
    show _ = ite _ _ _
    rw [if_neg hi]

end Value

attribute [local sl_rounds] duties_xr duties_fs duties_fr amount_xr amount_fs amount_fr expect_xr expect_fs expect_fr
  payload_xr payload_fs payload_fr

section Body
variable (K : Dev nD × CK → ℕ)

set_option maxHeartbeats 4000000 in
set_option maxRecDepth 65536 in

theorem run2_h0 (c : Dev nD) (h0 : hb c = 0) : Run2At (F := F) m ρ K c := by
  intro α Kt Q
  unfold inv10
  iintro ⟨⟨#Hrec, #Hlev, Hat_bar, Hat_xs0, Hat_xs1, Hat_xs2, Hat_xs3, Hat_xs4, Hat_xs5, Hat_xs6, Hat_xr0, Hat_xr1, Hat_xr2, Hat_xr3, Hat_xr4, Hat_xr5, Hat_xr6, Hat_ds, Hat_dr, Hat_fs0, Hat_fs1, Hat_fs2, Hat_fs3, Hat_fs4, Hat_fs5, Hat_fs6, Hat_fr0, Hat_fr1, Hat_fr2, Hat_fr3, Hat_fr4, Hat_fr5, Hat_fr6, Htk_c_fs0, Htk_c_fs1, Htk_c_fs2, Htk_c_fs3, Htk_c_fs4, Htk_c_fs5, Htk_c_fs6, Htk_yp_fr0, Htk_yp_fr1, Htk_yp_fr2, Htk_yp_fr3, Htk_yp_fr4, Htk_yp_fr5, Htk_yp_fr6, Hc_xr0, Hc_xr1, Hc_xr2, Hc_xr3, Hc_xr4, Hc_xr5, Hc_xr6, Hc_dr, Hc_fr0, Hc_fr1, Hc_fr2, Hc_fr3, Hc_fr4, Hc_fr5, Hc_fr6, Hc_xs0, Hc_xs1, Hc_xs2, Hc_xs3, Hc_xs4, Hc_xs5, Hc_xs6, Hc_ds, Hloc, Hstg, Hdstg, Hmine, ⟨%g, Hobuf⟩, ⟨%gf, Hfr⟩, Hin, Hout, ⟨%W', HO⟩⟩, Hk⟩
  ihave #HI_c_xr0 := (inv_at (rd m ρ) K c (.xr 0)) $$ Hrec
  ihave #HI_c_xr1 := (inv_at (rd m ρ) K c (.xr 1)) $$ Hrec
  ihave #HI_c_xr2 := (inv_at (rd m ρ) K c (.xr 2)) $$ Hrec
  ihave #HI_c_xr3 := (inv_at (rd m ρ) K c (.xr 3)) $$ Hrec
  ihave #HI_c_xr4 := (inv_at (rd m ρ) K c (.xr 4)) $$ Hrec
  ihave #HI_c_xr5 := (inv_at (rd m ρ) K c (.xr 5)) $$ Hrec
  ihave #HI_c_xr6 := (inv_at (rd m ρ) K c (.xr 6)) $$ Hrec
  ihave #HI_c_fs0 := (inv_at (rd m ρ) K c (.fs 0)) $$ Hrec
  ihave #HI_c_fs1 := (inv_at (rd m ρ) K c (.fs 1)) $$ Hrec
  ihave #HI_c_fs2 := (inv_at (rd m ρ) K c (.fs 2)) $$ Hrec
  ihave #HI_c_fs3 := (inv_at (rd m ρ) K c (.fs 3)) $$ Hrec
  ihave #HI_c_fs4 := (inv_at (rd m ρ) K c (.fs 4)) $$ Hrec
  ihave #HI_c_fs5 := (inv_at (rd m ρ) K c (.fs 5)) $$ Hrec
  ihave #HI_c_fs6 := (inv_at (rd m ρ) K c (.fs 6)) $$ Hrec
  ihave #HI_yp_fr0 := (inv_at (rd m ρ) K (yp c) (.fr 0)) $$ Hrec
  ihave #HI_yp_fr1 := (inv_at (rd m ρ) K (yp c) (.fr 1)) $$ Hrec
  ihave #HI_yp_fr2 := (inv_at (rd m ρ) K (yp c) (.fr 2)) $$ Hrec
  ihave #HI_yp_fr3 := (inv_at (rd m ρ) K (yp c) (.fr 3)) $$ Hrec
  ihave #HI_yp_fr4 := (inv_at (rd m ρ) K (yp c) (.fr 4)) $$ Hrec
  ihave #HI_yp_fr5 := (inv_at (rd m ρ) K (yp c) (.fr 5)) $$ Hrec
  ihave #HI_yp_fr6 := (inv_at (rd m ρ) K (yp c) (.fr 6)) $$ Hrec
  ihave #HR_c_xr0 := (reached_at (rd m ρ) K c (.xr 0)) $$ Hrec
  ihave #HR_c_xr1 := (reached_at (rd m ρ) K c (.xr 1)) $$ Hrec
  ihave #HR_c_xr2 := (reached_at (rd m ρ) K c (.xr 2)) $$ Hrec
  ihave #HR_c_xr3 := (reached_at (rd m ρ) K c (.xr 3)) $$ Hrec
  ihave #HR_c_xr4 := (reached_at (rd m ρ) K c (.xr 4)) $$ Hrec
  ihave #HR_c_xr5 := (reached_at (rd m ρ) K c (.xr 5)) $$ Hrec
  ihave #HR_c_xr6 := (reached_at (rd m ρ) K c (.xr 6)) $$ Hrec
  ihave #HR_c_fs0 := (reached_at (rd m ρ) K c (.fs 0)) $$ Hrec
  ihave #HR_c_fs1 := (reached_at (rd m ρ) K c (.fs 1)) $$ Hrec
  ihave #HR_c_fs2 := (reached_at (rd m ρ) K c (.fs 2)) $$ Hrec
  ihave #HR_c_fs3 := (reached_at (rd m ρ) K c (.fs 3)) $$ Hrec
  ihave #HR_c_fs4 := (reached_at (rd m ρ) K c (.fs 4)) $$ Hrec
  ihave #HR_c_fs5 := (reached_at (rd m ρ) K c (.fs 5)) $$ Hrec
  ihave #HR_c_fs6 := (reached_at (rd m ρ) K c (.fs 6)) $$ Hrec
  ihave #HR_yp_fr0 := (reached_at (rd m ρ) K (yp c) (.fr 0)) $$ Hrec
  ihave #HR_yp_fr1 := (reached_at (rd m ρ) K (yp c) (.fr 1)) $$ Hrec
  ihave #HR_yp_fr2 := (reached_at (rd m ρ) K (yp c) (.fr 2)) $$ Hrec
  ihave #HR_yp_fr3 := (reached_at (rd m ρ) K (yp c) (.fr 3)) $$ Hrec
  ihave #HR_yp_fr4 := (reached_at (rd m ρ) K (yp c) (.fr 4)) $$ Hrec
  ihave #HR_yp_fr5 := (reached_at (rd m ρ) K (yp c) (.fr 5)) $$ Hrec
  ihave #HR_yp_fr6 := (reached_at (rd m ρ) K (yp c) (.fr 6)) $$ Hrec
  ihave Hfr' := (Entails.of_eq (fr_slots7 (F := F) (yp c) fullShare gf)) $$ Hfr
  icases Hfr' with ⟨Hfr0, Hfr1, Hfr2, Hfr3, Hfr4, Hfr5, Hfr6⟩
  have hc0 := cond0_of_h0 c h0
  have hc1 := cond1_of_h0 c h0
  have hmw_xr0 : (levAts L lv : sProp 𝕄) ⊢ MayWait (c : Thread nD τ) (csem (.xr 0)) () (o7 c) :=
    mayWait_above (F := F) c _ 2 _ (le_of_eq (lv_cell c (.xr 0) ())) (by repeat' (first | exact above_tally _ _ _ _ (by decide) | apply above_add))
  have hmw_xr1 : (levAts L lv : sProp 𝕄) ⊢ MayWait (c : Thread nD τ) (csem (.xr 1)) () (o6 c) :=
    mayWait_above (F := F) c _ 2 _ (le_of_eq (lv_cell c (.xr 1) ())) (by repeat' (first | exact above_tally _ _ _ _ (by decide) | apply above_add))
  have hmw_xr2 : (levAts L lv : sProp 𝕄) ⊢ MayWait (c : Thread nD τ) (csem (.xr 2)) () (o5 c) :=
    mayWait_above (F := F) c _ 2 _ (le_of_eq (lv_cell c (.xr 2) ())) (by repeat' (first | exact above_tally _ _ _ _ (by decide) | apply above_add))
  have hmw_xr3 : (levAts L lv : sProp 𝕄) ⊢ MayWait (c : Thread nD τ) (csem (.xr 3)) () (o4 c) :=
    mayWait_above (F := F) c _ 2 _ (le_of_eq (lv_cell c (.xr 3) ())) (by repeat' (first | exact above_tally _ _ _ _ (by decide) | apply above_add))
  have hmw_xr4 : (levAts L lv : sProp 𝕄) ⊢ MayWait (c : Thread nD τ) (csem (.xr 4)) () (o3 c) :=
    mayWait_above (F := F) c _ 2 _ (le_of_eq (lv_cell c (.xr 4) ())) (by repeat' (first | exact above_tally _ _ _ _ (by decide) | apply above_add))
  have hmw_xr5 : (levAts L lv : sProp 𝕄) ⊢ MayWait (c : Thread nD τ) (csem (.xr 5)) () (o2 c) :=
    mayWait_above (F := F) c _ 2 _ (le_of_eq (lv_cell c (.xr 5) ())) (by repeat' (first | exact above_tally _ _ _ _ (by decide) | apply above_add))
  have hmw_xr6 : (levAts L lv : sProp 𝕄) ⊢ MayWait (c : Thread nD τ) (csem (.xr 6)) () (tallyAt (cell (yp c) (.fr 6)) () N₁) :=
    mayWait_above (F := F) c _ 2 _ (le_of_eq (lv_cell c (.xr 6) ())) (by repeat' (first | exact above_tally _ _ _ _ (by decide) | apply above_add))
  have hn1 : ¬ (Scalar.cmpi CmpIPredicate.ne (Scalar.extui (Scalar.cmpi CmpIPredicate.eq (hword c) 1#32)) 0#32 = 1#1) := by rw [hc1]; decide
  unfold seg2₀ seg2
  set_option sl_exec.dmaWindow true in
  sl_exec_parts (disch := simp only [dev_eqs])
  ihave ⟨Hxl0, Hxr0⟩ := (pts_split (F := F) _ _ _) $$ Hat_xr0_pay1
  iapply (wp_send_f m ρ K c (yp c) rfl 0 gf (o6 c) _) $$ [HI_c_fs0 HI_yp_fr0 Hxl0 Hfr0 HO Htk_c_fs0 HR_c_fs0 Htk_yp_fr0 HR_yp_fr0]
  · iframe ∗ #
  iintro ⟨Hc_fs0, HO⟩
  set_option sl_exec.dmaWindow true in
  sl_exec_parts (disch := simp only [dev_eqs])
  ihave ⟨Hxl1, Hxr1⟩ := (pts_split (F := F) _ _ _) $$ Hat_xr1_pay1
  iapply (wp_send_f m ρ K c (yp c) rfl 1 gf (o5 c) _) $$ [HI_c_fs1 HI_yp_fr1 Hxl1 Hfr1 HO Htk_c_fs1 HR_c_fs1 Htk_yp_fr1 HR_yp_fr1]
  · iframe ∗ #
  iintro ⟨Hc_fs1, HO⟩
  set_option sl_exec.dmaWindow true in
  sl_exec_parts (disch := simp only [dev_eqs])
  ihave ⟨Hxl2, Hxr2⟩ := (pts_split (F := F) _ _ _) $$ Hat_xr2_pay1
  iapply (wp_send_f m ρ K c (yp c) rfl 2 gf (o4 c) _) $$ [HI_c_fs2 HI_yp_fr2 Hxl2 Hfr2 HO Htk_c_fs2 HR_c_fs2 Htk_yp_fr2 HR_yp_fr2]
  · iframe ∗ #
  iintro ⟨Hc_fs2, HO⟩
  set_option sl_exec.dmaWindow true in
  sl_exec_parts (disch := simp only [dev_eqs])
  ihave ⟨Hxl3, Hxr3⟩ := (pts_split (F := F) _ _ _) $$ Hat_xr3_pay1
  iapply (wp_send_f m ρ K c (yp c) rfl 3 gf (o3 c) _) $$ [HI_c_fs3 HI_yp_fr3 Hxl3 Hfr3 HO Htk_c_fs3 HR_c_fs3 Htk_yp_fr3 HR_yp_fr3]
  · iframe ∗ #
  iintro ⟨Hc_fs3, HO⟩
  set_option sl_exec.dmaWindow true in
  sl_exec_parts (disch := simp only [dev_eqs])
  ihave ⟨Hxl4, Hxr4⟩ := (pts_split (F := F) _ _ _) $$ Hat_xr4_pay1
  iapply (wp_send_f m ρ K c (yp c) rfl 4 gf (o2 c) _) $$ [HI_c_fs4 HI_yp_fr4 Hxl4 Hfr4 HO Htk_c_fs4 HR_c_fs4 Htk_yp_fr4 HR_yp_fr4]
  · iframe ∗ #
  iintro ⟨Hc_fs4, HO⟩
  set_option sl_exec.dmaWindow true in
  sl_exec_parts (disch := simp only [dev_eqs])
  ihave ⟨Hxl5, Hxr5⟩ := (pts_split (F := F) _ _ _) $$ Hat_xr5_pay1
  iapply (wp_send_f m ρ K c (yp c) rfl 5 gf (tallyAt (cell (yp c) (.fr 6)) () N₁) _) $$ [HI_c_fs5 HI_yp_fr5 Hxl5 Hfr5 HO Htk_c_fs5 HR_c_fs5 Htk_yp_fr5 HR_yp_fr5]
  · iframe ∗ #
  iintro ⟨Hc_fs5, HO⟩
  set_option sl_exec.dmaWindow true in
  sl_exec_parts (disch := simp only [dev_eqs])
  ihave ⟨Hxl6, Hxr6⟩ := (pts_split (F := F) _ _ _) $$ Hat_xr6_pay1
  iapply (wp_send_f m ρ K c (yp c) rfl 6 gf ((0 : CellTallies nD τ sig Unit)) _) $$ [HI_c_fs6 HI_yp_fr6 Hxl6 Hfr6 HO Htk_c_fs6 HR_c_fs6 Htk_yp_fr6 HR_yp_fr6]
  · rw [zero_add]; iframe ∗ #
  iintro ⟨Hc_fs6, HO⟩
  set_option sl_exec.dmaWindow true in
  sl_exec_parts (disch := simp only [dev_eqs])
  iapply Hk
  unfold inv17
  iframe ∗ #
  isplitl [Hobuf]
  · iexists g
    rw [← writes_sum m ρ c 0 h0 g]
    iexact Hobuf
  · iexists _
    iexact HO

set_option maxHeartbeats 4000000 in
set_option maxRecDepth 65536 in

theorem run2_h1 (c : Dev nD) (h1 : hb c = 1) : Run2At (F := F) m ρ K c := by
  intro α Kt Q
  unfold inv10
  iintro ⟨⟨#Hrec, #Hlev, Hat_bar, Hat_xs0, Hat_xs1, Hat_xs2, Hat_xs3, Hat_xs4, Hat_xs5, Hat_xs6, Hat_xr0, Hat_xr1, Hat_xr2, Hat_xr3, Hat_xr4, Hat_xr5, Hat_xr6, Hat_ds, Hat_dr, Hat_fs0, Hat_fs1, Hat_fs2, Hat_fs3, Hat_fs4, Hat_fs5, Hat_fs6, Hat_fr0, Hat_fr1, Hat_fr2, Hat_fr3, Hat_fr4, Hat_fr5, Hat_fr6, Htk_c_fs0, Htk_c_fs1, Htk_c_fs2, Htk_c_fs3, Htk_c_fs4, Htk_c_fs5, Htk_c_fs6, Htk_yp_fr0, Htk_yp_fr1, Htk_yp_fr2, Htk_yp_fr3, Htk_yp_fr4, Htk_yp_fr5, Htk_yp_fr6, Hc_xr0, Hc_xr1, Hc_xr2, Hc_xr3, Hc_xr4, Hc_xr5, Hc_xr6, Hc_dr, Hc_fr0, Hc_fr1, Hc_fr2, Hc_fr3, Hc_fr4, Hc_fr5, Hc_fr6, Hc_xs0, Hc_xs1, Hc_xs2, Hc_xs3, Hc_xs4, Hc_xs5, Hc_xs6, Hc_ds, Hloc, Hstg, Hdstg, Hmine, ⟨%g, Hobuf⟩, ⟨%gf, Hfr⟩, Hin, Hout, ⟨%W', HO⟩⟩, Hk⟩
  ihave #HI_c_xr0 := (inv_at (rd m ρ) K c (.xr 0)) $$ Hrec
  ihave #HI_c_xr1 := (inv_at (rd m ρ) K c (.xr 1)) $$ Hrec
  ihave #HI_c_xr2 := (inv_at (rd m ρ) K c (.xr 2)) $$ Hrec
  ihave #HI_c_xr3 := (inv_at (rd m ρ) K c (.xr 3)) $$ Hrec
  ihave #HI_c_xr4 := (inv_at (rd m ρ) K c (.xr 4)) $$ Hrec
  ihave #HI_c_xr5 := (inv_at (rd m ρ) K c (.xr 5)) $$ Hrec
  ihave #HI_c_xr6 := (inv_at (rd m ρ) K c (.xr 6)) $$ Hrec
  ihave #HI_c_fs0 := (inv_at (rd m ρ) K c (.fs 0)) $$ Hrec
  ihave #HI_c_fs1 := (inv_at (rd m ρ) K c (.fs 1)) $$ Hrec
  ihave #HI_c_fs2 := (inv_at (rd m ρ) K c (.fs 2)) $$ Hrec
  ihave #HI_c_fs3 := (inv_at (rd m ρ) K c (.fs 3)) $$ Hrec
  ihave #HI_c_fs4 := (inv_at (rd m ρ) K c (.fs 4)) $$ Hrec
  ihave #HI_c_fs5 := (inv_at (rd m ρ) K c (.fs 5)) $$ Hrec
  ihave #HI_c_fs6 := (inv_at (rd m ρ) K c (.fs 6)) $$ Hrec
  ihave #HI_yp_fr0 := (inv_at (rd m ρ) K (yp c) (.fr 0)) $$ Hrec
  ihave #HI_yp_fr1 := (inv_at (rd m ρ) K (yp c) (.fr 1)) $$ Hrec
  ihave #HI_yp_fr2 := (inv_at (rd m ρ) K (yp c) (.fr 2)) $$ Hrec
  ihave #HI_yp_fr3 := (inv_at (rd m ρ) K (yp c) (.fr 3)) $$ Hrec
  ihave #HI_yp_fr4 := (inv_at (rd m ρ) K (yp c) (.fr 4)) $$ Hrec
  ihave #HI_yp_fr5 := (inv_at (rd m ρ) K (yp c) (.fr 5)) $$ Hrec
  ihave #HI_yp_fr6 := (inv_at (rd m ρ) K (yp c) (.fr 6)) $$ Hrec
  ihave #HR_c_xr0 := (reached_at (rd m ρ) K c (.xr 0)) $$ Hrec
  ihave #HR_c_xr1 := (reached_at (rd m ρ) K c (.xr 1)) $$ Hrec
  ihave #HR_c_xr2 := (reached_at (rd m ρ) K c (.xr 2)) $$ Hrec
  ihave #HR_c_xr3 := (reached_at (rd m ρ) K c (.xr 3)) $$ Hrec
  ihave #HR_c_xr4 := (reached_at (rd m ρ) K c (.xr 4)) $$ Hrec
  ihave #HR_c_xr5 := (reached_at (rd m ρ) K c (.xr 5)) $$ Hrec
  ihave #HR_c_xr6 := (reached_at (rd m ρ) K c (.xr 6)) $$ Hrec
  ihave #HR_c_fs0 := (reached_at (rd m ρ) K c (.fs 0)) $$ Hrec
  ihave #HR_c_fs1 := (reached_at (rd m ρ) K c (.fs 1)) $$ Hrec
  ihave #HR_c_fs2 := (reached_at (rd m ρ) K c (.fs 2)) $$ Hrec
  ihave #HR_c_fs3 := (reached_at (rd m ρ) K c (.fs 3)) $$ Hrec
  ihave #HR_c_fs4 := (reached_at (rd m ρ) K c (.fs 4)) $$ Hrec
  ihave #HR_c_fs5 := (reached_at (rd m ρ) K c (.fs 5)) $$ Hrec
  ihave #HR_c_fs6 := (reached_at (rd m ρ) K c (.fs 6)) $$ Hrec
  ihave #HR_yp_fr0 := (reached_at (rd m ρ) K (yp c) (.fr 0)) $$ Hrec
  ihave #HR_yp_fr1 := (reached_at (rd m ρ) K (yp c) (.fr 1)) $$ Hrec
  ihave #HR_yp_fr2 := (reached_at (rd m ρ) K (yp c) (.fr 2)) $$ Hrec
  ihave #HR_yp_fr3 := (reached_at (rd m ρ) K (yp c) (.fr 3)) $$ Hrec
  ihave #HR_yp_fr4 := (reached_at (rd m ρ) K (yp c) (.fr 4)) $$ Hrec
  ihave #HR_yp_fr5 := (reached_at (rd m ρ) K (yp c) (.fr 5)) $$ Hrec
  ihave #HR_yp_fr6 := (reached_at (rd m ρ) K (yp c) (.fr 6)) $$ Hrec
  ihave Hfr' := (Entails.of_eq (fr_slots7 (F := F) (yp c) fullShare gf)) $$ Hfr
  icases Hfr' with ⟨Hfr0, Hfr1, Hfr2, Hfr3, Hfr4, Hfr5, Hfr6⟩
  have hc0 := cond0_of_h1 c h1
  have hc1 := cond1_of_h1 c h1
  have hmw_xr0 : (levAts L lv : sProp 𝕄) ⊢ MayWait (c : Thread nD τ) (csem (.xr 0)) () (o7 c) :=
    mayWait_above (F := F) c _ 2 _ (le_of_eq (lv_cell c (.xr 0) ())) (by repeat' (first | exact above_tally _ _ _ _ (by decide) | apply above_add))
  have hmw_xr1 : (levAts L lv : sProp 𝕄) ⊢ MayWait (c : Thread nD τ) (csem (.xr 1)) () (o6 c) :=
    mayWait_above (F := F) c _ 2 _ (le_of_eq (lv_cell c (.xr 1) ())) (by repeat' (first | exact above_tally _ _ _ _ (by decide) | apply above_add))
  have hmw_xr2 : (levAts L lv : sProp 𝕄) ⊢ MayWait (c : Thread nD τ) (csem (.xr 2)) () (o5 c) :=
    mayWait_above (F := F) c _ 2 _ (le_of_eq (lv_cell c (.xr 2) ())) (by repeat' (first | exact above_tally _ _ _ _ (by decide) | apply above_add))
  have hmw_xr3 : (levAts L lv : sProp 𝕄) ⊢ MayWait (c : Thread nD τ) (csem (.xr 3)) () (o4 c) :=
    mayWait_above (F := F) c _ 2 _ (le_of_eq (lv_cell c (.xr 3) ())) (by repeat' (first | exact above_tally _ _ _ _ (by decide) | apply above_add))
  have hmw_xr4 : (levAts L lv : sProp 𝕄) ⊢ MayWait (c : Thread nD τ) (csem (.xr 4)) () (o3 c) :=
    mayWait_above (F := F) c _ 2 _ (le_of_eq (lv_cell c (.xr 4) ())) (by repeat' (first | exact above_tally _ _ _ _ (by decide) | apply above_add))
  have hmw_xr5 : (levAts L lv : sProp 𝕄) ⊢ MayWait (c : Thread nD τ) (csem (.xr 5)) () (o2 c) :=
    mayWait_above (F := F) c _ 2 _ (le_of_eq (lv_cell c (.xr 5) ())) (by repeat' (first | exact above_tally _ _ _ _ (by decide) | apply above_add))
  have hmw_xr6 : (levAts L lv : sProp 𝕄) ⊢ MayWait (c : Thread nD τ) (csem (.xr 6)) () (tallyAt (cell (yp c) (.fr 6)) () N₁) :=
    mayWait_above (F := F) c _ 2 _ (le_of_eq (lv_cell c (.xr 6) ())) (by repeat' (first | exact above_tally _ _ _ _ (by decide) | apply above_add))
  have hn0 : ¬ (Scalar.cmpi CmpIPredicate.ne (Scalar.extui (Scalar.cmpi CmpIPredicate.eq (hword c) 0#32)) 0#32 = 1#1) := by rw [hc0]; decide
  unfold seg2₀ seg2
  set_option sl_exec.dmaWindow true in
  sl_exec_parts (disch := simp only [dev_eqs])
  ihave ⟨Hxl0, Hxr0⟩ := (pts_split (F := F) _ _ _) $$ Hat_xr0_pay1
  iapply (wp_send_f m ρ K c (yp c) rfl 0 gf (o6 c) _) $$ [HI_c_fs0 HI_yp_fr0 Hxl0 Hfr0 HO Htk_c_fs0 HR_c_fs0 Htk_yp_fr0 HR_yp_fr0]
  · iframe ∗ #
  iintro ⟨Hc_fs0, HO⟩
  set_option sl_exec.dmaWindow true in
  sl_exec_parts (disch := simp only [dev_eqs])
  ihave ⟨Hxl1, Hxr1⟩ := (pts_split (F := F) _ _ _) $$ Hat_xr1_pay1
  iapply (wp_send_f m ρ K c (yp c) rfl 1 gf (o5 c) _) $$ [HI_c_fs1 HI_yp_fr1 Hxl1 Hfr1 HO Htk_c_fs1 HR_c_fs1 Htk_yp_fr1 HR_yp_fr1]
  · iframe ∗ #
  iintro ⟨Hc_fs1, HO⟩
  set_option sl_exec.dmaWindow true in
  sl_exec_parts (disch := simp only [dev_eqs])
  ihave ⟨Hxl2, Hxr2⟩ := (pts_split (F := F) _ _ _) $$ Hat_xr2_pay1
  iapply (wp_send_f m ρ K c (yp c) rfl 2 gf (o4 c) _) $$ [HI_c_fs2 HI_yp_fr2 Hxl2 Hfr2 HO Htk_c_fs2 HR_c_fs2 Htk_yp_fr2 HR_yp_fr2]
  · iframe ∗ #
  iintro ⟨Hc_fs2, HO⟩
  set_option sl_exec.dmaWindow true in
  sl_exec_parts (disch := simp only [dev_eqs])
  ihave ⟨Hxl3, Hxr3⟩ := (pts_split (F := F) _ _ _) $$ Hat_xr3_pay1
  iapply (wp_send_f m ρ K c (yp c) rfl 3 gf (o3 c) _) $$ [HI_c_fs3 HI_yp_fr3 Hxl3 Hfr3 HO Htk_c_fs3 HR_c_fs3 Htk_yp_fr3 HR_yp_fr3]
  · iframe ∗ #
  iintro ⟨Hc_fs3, HO⟩
  set_option sl_exec.dmaWindow true in
  sl_exec_parts (disch := simp only [dev_eqs])
  ihave ⟨Hxl4, Hxr4⟩ := (pts_split (F := F) _ _ _) $$ Hat_xr4_pay1
  iapply (wp_send_f m ρ K c (yp c) rfl 4 gf (o2 c) _) $$ [HI_c_fs4 HI_yp_fr4 Hxl4 Hfr4 HO Htk_c_fs4 HR_c_fs4 Htk_yp_fr4 HR_yp_fr4]
  · iframe ∗ #
  iintro ⟨Hc_fs4, HO⟩
  set_option sl_exec.dmaWindow true in
  sl_exec_parts (disch := simp only [dev_eqs])
  ihave ⟨Hxl5, Hxr5⟩ := (pts_split (F := F) _ _ _) $$ Hat_xr5_pay1
  iapply (wp_send_f m ρ K c (yp c) rfl 5 gf (tallyAt (cell (yp c) (.fr 6)) () N₁) _) $$ [HI_c_fs5 HI_yp_fr5 Hxl5 Hfr5 HO Htk_c_fs5 HR_c_fs5 Htk_yp_fr5 HR_yp_fr5]
  · iframe ∗ #
  iintro ⟨Hc_fs5, HO⟩
  set_option sl_exec.dmaWindow true in
  sl_exec_parts (disch := simp only [dev_eqs])
  ihave ⟨Hxl6, Hxr6⟩ := (pts_split (F := F) _ _ _) $$ Hat_xr6_pay1
  iapply (wp_send_f m ρ K c (yp c) rfl 6 gf ((0 : CellTallies nD τ sig Unit)) _) $$ [HI_c_fs6 HI_yp_fr6 Hxl6 Hfr6 HO Htk_c_fs6 HR_c_fs6 Htk_yp_fr6 HR_yp_fr6]
  · rw [zero_add]; iframe ∗ #
  iintro ⟨Hc_fs6, HO⟩
  set_option sl_exec.dmaWindow true in
  sl_exec_parts (disch := simp only [dev_eqs])
  iapply Hk
  unfold inv17
  iframe ∗ #
  isplitl [Hobuf]
  · iexists g
    rw [← writes_sum m ρ c 1 h1 g]
    iexact Hobuf
  · iexists _
    iexact HO

end Body

theorem run2 : Run2 (F := F) m ρ := by
  intro K c
  rcases hb_cases c with h0 | h1
  · exact run2_h0 m ρ K c h0
  · exact run2_h1 m ρ K c h1

/-- info: 'Cert.KernelIdeal.RS.run2' depends on axioms: [propext, Classical.choice, Quot.sound] -/
#guard_msgs in #print axioms run2

end Cert.KernelIdeal.RS

end
-- ==== Proof.Run3Value.lean ====
import proofs.«901040_g7700000000001041_dist_rs_v7x_xyz2x4x4_x_m1024_n512_bf16_1_alg».proof.Proof.BodyInv
import Idealize.ShloMosaic.Lib.Pipeline.Value
import Idealize.ShloMosaic.Lib.Writes

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

-- Pieces that each agree with `G`, written over contents that agree with `G` on `D`, read as `G` wherever `D` holds or a piece covers.
theorem writes_agree {sig' : RefSig} {κ : Kind} {sp : Space} {s : Shape} {e : EltTy} {Val : EltTy → Type}
    (v : View sig' κ sp s e) (G : s.Idx → Val e) (D : s.Idx → Prop) (f : v.ty.Contents Val)
    (hf : ∀ y, D y → v.read Val f y = G y) :
    ∀ L : List (View.Piece Val s e), (∀ p ∈ L, ∀ x : p.1.shape.Idx, p.2 x = G (p.1.emb x)) →
      ∀ y : s.Idx, (D y ∨ ∃ p ∈ L, y ∈ p.1.set) → v.read Val (v.writes Val f L) y = G y
  | [], _, y, h => by
    rcases h with h | ⟨_, hm, _⟩
    · exact hf y h
    · exact absurd hm List.not_mem_nil
  | p :: L, hG, y, h => by
    by_cases hy : y ∈ p.1.set
    · obtain ⟨x, rfl⟩ : ∃ x, p.1.emb x = y := p.1.exists_idx_of_mem hy
      obtain ⟨r, w⟩ := p
      rw [View.read_writes_cons_emb]
      exact hG ⟨r, w⟩ List.mem_cons_self x
    · have hy' : y ∉ Finset.univ.map p.1.emb := by rwa [Rect.map_emb_univ]
      rw [View.writes_cons, View.read_slice_write_of_not_mem p.1 _ _ _ hy']
      refine writes_agree v G D f hf L (fun p' hp' => hG p' (List.mem_cons_of_mem _ hp')) y ?_
      rcases h with h | ⟨p', hm, hy''⟩
      · exact Or.inl h
      · rcases List.mem_cons.mp hm with rfl | hm
        · exact absurd hy'' hy
        · exact Or.inr ⟨p', hm, hy''⟩

variable (m : (ℓ : Loc nD τ sig) → Buf (Elt F) ℓ) (ρ : Dev nD → PrngReg)

def GB (c : Dev nD) : S8x128x512.Idx → Elt F .f32 := (obufM : Memref sig .tc .vmem S8x128x512 .f32).view.read (Elt F) (obufB m ρ c)

theorem GB_apply (c : Dev nD) (j : S8x128x512.Idx) : GB m ρ c j = (show Vec F S8x128x512 .f32 from obufB m ρ c) j := rfl

theorem emb_unit_val {s : Shape} (off size : Fin s.rank → Nat) (inb : ∀ a, off a + size a ≤ s.size a) (x : (Rect.unit (s := s) off size inb).shape.Idx) (a : Fin s.rank) :
    (((Rect.unit (s := s) off size inb).emb x) a).val = off a + (x a).val := by
  show off a + 1 * (x a).val = _
  rw [Nat.one_mul]

theorem GB_low (c : Dev nD) (k : Fin 7) (inb : ∀ a, (![k.val, 0, 0] : Fin 3 → Nat) a + S1x128x256.size a ≤ S8x128x512.size a) (x : S1x128x256.Idx) :
    GB m ρ c ((Rect.unit (s := S8x128x512) ![k.val, 0, 0] S1x128x256.size inb).emb x) = lowHalf m ρ c k x := by
  have hx0 : (x 0).val < 1 := (x 0).isLt
  have hx1 : (x 1).val < 128 := (x 1).isLt
  have hx2 : (x 2).val < 256 := (x 2).isLt
  have e0 := emb_unit_val (s := S8x128x512) ![k.val, 0, 0] S1x128x256.size inb x 0
  have e1 := emb_unit_val (s := S8x128x512) ![k.val, 0, 0] S1x128x256.size inb x 1
  have e2 := emb_unit_val (s := S8x128x512) ![k.val, 0, 0] S1x128x256.size inb x 2
  have e0' : (((Rect.unit (s := S8x128x512) ![k.val, 0, 0] S1x128x256.size inb).emb x) 0).val = k.val := by rw [e0]; show k.val + (x 0).val = k.val; omega
  have e1' : (((Rect.unit (s := S8x128x512) ![k.val, 0, 0] S1x128x256.size inb).emb x) 1).val = (x 1).val := by rw [e1]; show 0 + (x 1).val = _; omega
  have e2' : (((Rect.unit (s := S8x128x512) ![k.val, 0, 0] S1x128x256.size inb).emb x) 2).val = (x 2).val := by rw [e2]; show 0 + (x 2).val = _; omega
  rw [GB_apply]
  unfold obufB
  have h7 : (((Rect.unit (s := S8x128x512) ![k.val, 0, 0] S1x128x256.size inb).emb x) 0).val < 7 := by rw [e0']; exact k.isLt
  have h2 : (((Rect.unit (s := S8x128x512) ![k.val, 0, 0] S1x128x256.size inb).emb x) 2).val < 256 := by rw [e2']; exact hx2
  show (if h7 : _ < 7 then (if h2 : _ < 256 then lowHalf m ρ c ⟨_, h7⟩ (idxLo _ h2) else _) else _) = _
  rw [dif_pos h7, dif_pos h2]
  have hk : (⟨(((Rect.unit (s := S8x128x512) ![k.val, 0, 0] S1x128x256.size inb).emb x) 0).val, h7⟩ : Fin 7) = k := Fin.ext e0'
  have hi : idxLo ((Rect.unit (s := S8x128x512) ![k.val, 0, 0] S1x128x256.size inb).emb x) h2 = x := by
    funext a
    fin_cases a
    · exact Fin.ext (by show 0 = (x 0).val; omega)
    · exact Fin.ext e1'
    · exact Fin.ext e2'
  rw [hk, hi]

theorem GB_high (c : Dev nD) (k : Fin 7) (inb : ∀ a, (![k.val, 0, 256] : Fin 3 → Nat) a + S1x128x256.size a ≤ S8x128x512.size a) (x : S1x128x256.Idx) :
    GB m ρ c ((Rect.unit (s := S8x128x512) ![k.val, 0, 256] S1x128x256.size inb).emb x) = highHalf m ρ c k x := by
  have hx0 : (x 0).val < 1 := (x 0).isLt
  have hx1 : (x 1).val < 128 := (x 1).isLt
  have hx2 : (x 2).val < 256 := (x 2).isLt
  have e0 := emb_unit_val (s := S8x128x512) ![k.val, 0, 256] S1x128x256.size inb x 0
  have e1 := emb_unit_val (s := S8x128x512) ![k.val, 0, 256] S1x128x256.size inb x 1
  have e2 := emb_unit_val (s := S8x128x512) ![k.val, 0, 256] S1x128x256.size inb x 2
  have e0' : (((Rect.unit (s := S8x128x512) ![k.val, 0, 256] S1x128x256.size inb).emb x) 0).val = k.val := by rw [e0]; show k.val + (x 0).val = k.val; omega
  have e1' : (((Rect.unit (s := S8x128x512) ![k.val, 0, 256] S1x128x256.size inb).emb x) 1).val = (x 1).val := by rw [e1]; show 0 + (x 1).val = _; omega
  have e2' : (((Rect.unit (s := S8x128x512) ![k.val, 0, 256] S1x128x256.size inb).emb x) 2).val = 256 + (x 2).val := by rw [e2]; rfl
  rw [GB_apply]
  unfold obufB
  have h7 : (((Rect.unit (s := S8x128x512) ![k.val, 0, 256] S1x128x256.size inb).emb x) 0).val < 7 := by rw [e0']; exact k.isLt
  have h2 : ¬ (((Rect.unit (s := S8x128x512) ![k.val, 0, 256] S1x128x256.size inb).emb x) 2).val < 256 := by rw [e2']; omega
  show (if h7 : _ < 7 then (if h2 : _ < 256 then _ else highHalf m ρ c ⟨_, h7⟩ (idxHi _ (Nat.le_of_not_lt h2))) else _) = _
  rw [dif_pos h7, dif_neg h2]
  have hk : (⟨(((Rect.unit (s := S8x128x512) ![k.val, 0, 256] S1x128x256.size inb).emb x) 0).val, h7⟩ : Fin 7) = k := Fin.ext e0'
  have hi : idxHi ((Rect.unit (s := S8x128x512) ![k.val, 0, 256] S1x128x256.size inb).emb x) (Nat.le_of_not_lt h2) = x := by
    funext a
    fin_cases a
    · exact Fin.ext (by show 0 = (x 0).val; omega)
    · exact Fin.ext e1'
    · exact Fin.ext (by show _ - 256 = (x 2).val; rw [e2']; omega)
  rw [hk, hi]

theorem GB_last (c : Dev nD) (inb : ∀ a, (![7, 0, 0] : Fin 3 → Nat) a + S1x128x512.size a ≤ S8x128x512.size a) (x : S1x128x512.Idx) :
    GB m ρ c ((Rect.unit (s := S8x128x512) ![7, 0, 0] S1x128x512.size inb).emb x) = lastRow m ρ c x := by
  have hx0 : (x 0).val < 1 := (x 0).isLt
  have e0 := emb_unit_val (s := S8x128x512) ![7, 0, 0] S1x128x512.size inb x 0
  have e1 := emb_unit_val (s := S8x128x512) ![7, 0, 0] S1x128x512.size inb x 1
  have e2 := emb_unit_val (s := S8x128x512) ![7, 0, 0] S1x128x512.size inb x 2
  have e0' : (((Rect.unit (s := S8x128x512) ![7, 0, 0] S1x128x512.size inb).emb x) 0).val = 7 := by rw [e0]; show 7 + (x 0).val = 7; omega
  have e1' : (((Rect.unit (s := S8x128x512) ![7, 0, 0] S1x128x512.size inb).emb x) 1).val = (x 1).val := by rw [e1]; show 0 + (x 1).val = _; omega
  have e2' : (((Rect.unit (s := S8x128x512) ![7, 0, 0] S1x128x512.size inb).emb x) 2).val = (x 2).val := by rw [e2]; show 0 + (x 2).val = _; omega
  rw [GB_apply]
  unfold obufB
  have h7 : ¬ (((Rect.unit (s := S8x128x512) ![7, 0, 0] S1x128x512.size inb).emb x) 0).val < 7 := by rw [e0']; omega
  show (if h7 : _ < 7 then _ else lastRow m ρ c (idxRow _)) = _
  rw [dif_neg h7]
  have hi : idxRow ((Rect.unit (s := S8x128x512) ![7, 0, 0] S1x128x512.size inb).emb x) = x := by
    funext a
    fin_cases a
    · exact Fin.ext (by show 0 = (x 0).val; omega)
    · exact Fin.ext e1'
    · exact Fin.ext e2'
  rw [hi]

def rowIdx (k : Fin 8) (x : S128x512.Idx) : S8x128x512.Idx := fun a =>
  match a with
  | ⟨0, _⟩ => (k : Fin 8)
  | ⟨1, _⟩ => (x 0 : Fin 128)
  | ⟨2, _⟩ => (x 1 : Fin 512)
  | ⟨_ + 3, h'⟩ => absurd h' (Nat.not_lt.2 (Nat.le_add_left _ _))

theorem slot_read (k : Fin 8) (inb : ∀ a, (![k.val, 0, 0] : Fin 3 → Nat) a + S1x128x512.size a ≤ S8x128x512.size a)
    (hr : ∀ a, (Rect.unit (s := S8x128x512) ![k.val, 0, 0] S1x128x512.size inb).stride a = 1)
    (g : (obufM : Memref sig .tc .vmem S8x128x512 .f32).view.ty.Contents (Elt F)) (x : S128x512.Idx) :
    (((obufM : Memref sig .tc .vmem S8x128x512 .f32).slice (Rect.unit (s := S8x128x512) ![k.val, 0, 0] S1x128x512.size inb) hr).squeeze S128x512 squeezes_S1x128x512_S128x512).view.read (Elt F) g x
      = (obufM : Memref sig .tc .vmem S8x128x512 .f32).view.read (Elt F) g (rowIdx k x) := by
  rw [Memref.read_squeeze_slice (obufM : Memref sig .tc .vmem S8x128x512 .f32) (Rect.unit (s := S8x128x512) ![k.val, 0, 0] S1x128x512.size inb) hr squeezes_S1x128x512_S128x512 shapeCasts_S1x128x512_S128x512 g]
  rw [shapeCast_dropUnit_apply ![128, 512]]
  show (obufM : Memref sig .tc .vmem S8x128x512 .f32).view.read (Elt F) g ((Rect.unit (s := S8x128x512) ![k.val, 0, 0] S1x128x512.size inb).emb (Fin.cons ⟨0, Nat.one_pos⟩ x)) = _
  congr 1
  funext a
  fin_cases a
  · exact Fin.ext (by show k.val + 1 * 0 = k.val; omega)
  · exact Fin.ext (by show 0 + 1 * (x 0).val = (x 0).val; omega)
  · exact Fin.ext (by show 0 + 1 * (x 1).val = (x 1).val; omega)

theorem outV_rows (c : Dev nD) (k : Fin 8) (inb : ∀ a, (![128 * k.val, 0] : Fin 2 → Nat) a + S128x512.size a ≤ S1024x512.size a) (x : S128x512.Idx) :
    (show Vec F S1024x512 .f32 from outV m ρ c) ((Rect.unit (s := S1024x512) ![128 * k.val, 0] S128x512.size inb).emb x) = GB m ρ c (rowIdx k x) := by
  have hx0 : (x 0).val < 128 := (x 0).isLt
  have e0 := emb_unit_val (s := S1024x512) ![128 * k.val, 0] S128x512.size inb x 0
  have e1 := emb_unit_val (s := S1024x512) ![128 * k.val, 0] S128x512.size inb x 1
  have e0' : (((Rect.unit (s := S1024x512) ![128 * k.val, 0] S128x512.size inb).emb x) 0).val = 128 * k.val + (x 0).val := by rw [e0]; rfl
  have e1' : (((Rect.unit (s := S1024x512) ![128 * k.val, 0] S128x512.size inb).emb x) 1).val = (x 1).val := by rw [e1]; show 0 + (x 1).val = _; omega
  unfold outV
  show (show Vec F S8x128x512 .f32 from obufB m ρ c) (idxOut ((Rect.unit (s := S1024x512) ![128 * k.val, 0] S128x512.size inb).emb x)) = _
  rw [GB_apply]
  congr 1
  funext a
  fin_cases a
  · exact Fin.ext (by show _ / 128 = k.val; rw [e0']; omega)
  · exact Fin.ext (by show _ % 128 = (x 0).val; rw [e0']; omega)
  · exact Fin.ext e1'

theorem rowIdx_mem_low (k : Fin 8) (x : S128x512.Idx) (inb : ∀ a, (![k.val, 0, 0] : Fin 3 → Nat) a + S1x128x256.size a ≤ S8x128x512.size a)
    (h : (x 1).val < 256) : rowIdx k x ∈ (Rect.unit (s := S8x128x512) ![k.val, 0, 0] S1x128x256.size inb).set := by
  have hx0 : (x 0).val < 128 := (x 0).isLt
  refine Rect.mem_set_unit.mpr fun a => ?_
  fin_cases a
  · show k.val ≤ k.val ∧ k.val < k.val + 1; omega
  · show 0 ≤ (x 0).val ∧ (x 0).val < 0 + 128; omega
  · show 0 ≤ (x 1).val ∧ (x 1).val < 0 + 256; omega

theorem rowIdx_mem_high (k : Fin 8) (x : S128x512.Idx) (inb : ∀ a, (![k.val, 0, 256] : Fin 3 → Nat) a + S1x128x256.size a ≤ S8x128x512.size a)
    (h : 256 ≤ (x 1).val) : rowIdx k x ∈ (Rect.unit (s := S8x128x512) ![k.val, 0, 256] S1x128x256.size inb).set := by
  have hx0 : (x 0).val < 128 := (x 0).isLt
  have hx1 : (x 1).val < 512 := (x 1).isLt
  refine Rect.mem_set_unit.mpr fun a => ?_
  fin_cases a
  · show k.val ≤ k.val ∧ k.val < k.val + 1; omega
  · show 0 ≤ (x 0).val ∧ (x 0).val < 0 + 128; omega
  · show 256 ≤ (x 1).val ∧ (x 1).val < 256 + 256; omega

theorem rowIdx_mem_row (k : Fin 8) (x : S128x512.Idx) (inb : ∀ a, (![k.val, 0, 0] : Fin 3 → Nat) a + S1x128x512.size a ≤ S8x128x512.size a) :
    rowIdx k x ∈ (Rect.unit (s := S8x128x512) ![k.val, 0, 0] S1x128x512.size inb).set := by
  have hx0 : (x 0).val < 128 := (x 0).isLt
  have hx1 : (x 1).val < 512 := (x 1).isLt
  refine Rect.mem_set_unit.mpr fun a => ?_
  fin_cases a
  · show k.val ≤ k.val ∧ k.val < k.val + 1; omega
  · show 0 ≤ (x 0).val ∧ (x 0).val < 0 + 128; omega
  · show 0 ≤ (x 1).val ∧ (x 1).val < 0 + 512; omega

def Done17 (c : Dev nD) (y : S8x128x512.Idx) : Prop :=
  (y 0).val < 6 ∧ (if hb c = 0 then (y 2).val < 256 else 256 ≤ (y 2).val)

theorem obuf17_agree (c : Dev nD) (g : (cc0_scratch3 : Ref sig .tc).ty.Contents (Elt F)) (y : S8x128x512.Idx) (h : Done17 c y) :
    (obufM : Memref sig .tc .vmem S8x128x512 .f32).view.read (Elt F) (obuf17 m ρ c g) y = GB m ρ c y := by
  show (if (y 0).val < 6 ∧ (if hb c = 0 then (y 2).val < 256 else 256 ≤ (y 2).val) then (show Vec F S8x128x512 .f32 from obufB m ρ c) y
    else (show Vec F S8x128x512 .f32 from g) y) = _
  have h' : (y 0).val < 6 ∧ (if hb c = 0 then (y 2).val < 256 else 256 ≤ (y 2).val) := h
  rw [if_pos h']; rfl

theorem done17_low (c : Dev nD) (h0 : hb c = 0) (k : Fin 8) (hk : k.val < 6) (x : S128x512.Idx) (h : (x 1).val < 256) : Done17 c (rowIdx k x) := by
  refine ⟨hk, ?_⟩
  rw [if_pos h0]; exact h
theorem done17_high (c : Dev nD) (h1 : hb c = 1) (k : Fin 8) (hk : k.val < 6) (x : S128x512.Idx) (h : 256 ≤ (x 1).val) : Done17 c (rowIdx k x) := by
  refine ⟨hk, ?_⟩
  rw [if_neg (by rw [h1]; decide)]; exact h

abbrev out8L (d0 d1 d2 d3 d4 d5 d6 d7 : S128x512.Idx → Elt F .f32) : List (View.Piece (Elt F) S1024x512 .f32) :=
  [(⟨Rect.unit (s := S1024x512) ![896, 0] S128x512.size inb_S1024x512_S128x512_896_0, d7⟩ : View.Piece (Elt F) S1024x512 .f32),
      (⟨Rect.unit (s := S1024x512) ![768, 0] S128x512.size inb_S1024x512_S128x512_768_0, d6⟩ : View.Piece (Elt F) S1024x512 .f32),
      (⟨Rect.unit (s := S1024x512) ![640, 0] S128x512.size inb_S1024x512_S128x512_640_0, d5⟩ : View.Piece (Elt F) S1024x512 .f32),
      (⟨Rect.unit (s := S1024x512) ![512, 0] S128x512.size inb_S1024x512_S128x512_512_0, d4⟩ : View.Piece (Elt F) S1024x512 .f32),
      (⟨Rect.unit (s := S1024x512) ![384, 0] S128x512.size inb_S1024x512_S128x512_384_0, d3⟩ : View.Piece (Elt F) S1024x512 .f32),
      (⟨Rect.unit (s := S1024x512) ![256, 0] S128x512.size inb_S1024x512_S128x512_256_0, d2⟩ : View.Piece (Elt F) S1024x512 .f32),
      (⟨Rect.unit (s := S1024x512) ![128, 0] S128x512.size inb_S1024x512_S128x512_128_0, d1⟩ : View.Piece (Elt F) S1024x512 .f32),
      (⟨Rect.unit (s := S1024x512) ![0, 0] S128x512.size inb_S1024x512_S128x512_0_0, d0⟩ : View.Piece (Elt F) S1024x512 .f32)]

omit [FloatOps F] in
theorem out8_cover (d0 d1 d2 d3 d4 d5 d6 d7 : S128x512.Idx → Elt F .f32) (y : S1024x512.Idx) :
    ∃ p ∈ out8L d0 d1 d2 d3 d4 d5 d6 d7, y ∈ p.1.set := by
  have hy0 : (y 0).val < 1024 := (y 0).isLt
  have hy1 : (y 1).val < 512 := (y 1).isLt
  have hmem : ∀ (o : ℕ) (inb : ∀ a, (![o, 0] : Fin 2 → Nat) a + S128x512.size a ≤ S1024x512.size a), o ≤ (y 0).val → (y 0).val < o + 128 →
      y ∈ (Rect.unit (s := S1024x512) ![o, 0] S128x512.size inb).set := by
    intro o inb h1 h2
    refine Rect.mem_set_unit.mpr fun a => ?_
    fin_cases a
    · exact ⟨h1, h2⟩
    · show 0 ≤ (y 1).val ∧ (y 1).val < 0 + 512; omega
  by_cases h896 : 896 ≤ (y 0).val
  · exact ⟨_, List.getElem_mem (n := 0) (by show 0 < 8; omega), hmem 896 inb_S1024x512_S128x512_896_0 h896 (by omega)⟩
  by_cases h768 : 768 ≤ (y 0).val
  · exact ⟨_, List.getElem_mem (n := 1) (by show 1 < 8; omega), hmem 768 inb_S1024x512_S128x512_768_0 h768 (by omega)⟩
  by_cases h640 : 640 ≤ (y 0).val
  · exact ⟨_, List.getElem_mem (n := 2) (by show 2 < 8; omega), hmem 640 inb_S1024x512_S128x512_640_0 h640 (by omega)⟩
  by_cases h512 : 512 ≤ (y 0).val
  · exact ⟨_, List.getElem_mem (n := 3) (by show 3 < 8; omega), hmem 512 inb_S1024x512_S128x512_512_0 h512 (by omega)⟩
  by_cases h384 : 384 ≤ (y 0).val
  · exact ⟨_, List.getElem_mem (n := 4) (by show 4 < 8; omega), hmem 384 inb_S1024x512_S128x512_384_0 h384 (by omega)⟩
  by_cases h256 : 256 ≤ (y 0).val
  · exact ⟨_, List.getElem_mem (n := 5) (by show 5 < 8; omega), hmem 256 inb_S1024x512_S128x512_256_0 h256 (by omega)⟩
  by_cases h128 : 128 ≤ (y 0).val
  · exact ⟨_, List.getElem_mem (n := 6) (by show 6 < 8; omega), hmem 128 inb_S1024x512_S128x512_128_0 h128 (by omega)⟩
  exact ⟨_, List.getElem_mem (n := 7) (by show 7 < 8; omega), hmem 0 inb_S1024x512_S128x512_0_0 (Nat.zero_le _) (by omega)⟩

theorem out8_pieces (c : Dev nD) (d0 d1 d2 d3 d4 d5 d6 d7 : S128x512.Idx → Elt F .f32)
    (h0 : ∀ x, d0 x = GB m ρ c (rowIdx 0 x)) (h1 : ∀ x, d1 x = GB m ρ c (rowIdx 1 x)) (h2 : ∀ x, d2 x = GB m ρ c (rowIdx 2 x))
    (h3 : ∀ x, d3 x = GB m ρ c (rowIdx 3 x)) (h4 : ∀ x, d4 x = GB m ρ c (rowIdx 4 x)) (h5 : ∀ x, d5 x = GB m ρ c (rowIdx 5 x))
    (h6 : ∀ x, d6 x = GB m ρ c (rowIdx 6 x)) (h7 : ∀ x, d7 x = GB m ρ c (rowIdx 7 x)) :
    ∀ p ∈ out8L d0 d1 d2 d3 d4 d5 d6 d7, ∀ x : p.1.shape.Idx, p.2 x = (show Vec F S1024x512 .f32 from outV m ρ c) (p.1.emb x) :=
  List.forall_mem_cons.2 ⟨fun x => (h7 x).trans (outV_rows m ρ c 7 inb_S1024x512_S128x512_896_0 x).symm,
  List.forall_mem_cons.2 ⟨fun x => (h6 x).trans (outV_rows m ρ c 6 inb_S1024x512_S128x512_768_0 x).symm,
  List.forall_mem_cons.2 ⟨fun x => (h5 x).trans (outV_rows m ρ c 5 inb_S1024x512_S128x512_640_0 x).symm,
  List.forall_mem_cons.2 ⟨fun x => (h4 x).trans (outV_rows m ρ c 4 inb_S1024x512_S128x512_512_0 x).symm,
  List.forall_mem_cons.2 ⟨fun x => (h3 x).trans (outV_rows m ρ c 3 inb_S1024x512_S128x512_384_0 x).symm,
  List.forall_mem_cons.2 ⟨fun x => (h2 x).trans (outV_rows m ρ c 2 inb_S1024x512_S128x512_256_0 x).symm,
  List.forall_mem_cons.2 ⟨fun x => (h1 x).trans (outV_rows m ρ c 1 inb_S1024x512_S128x512_128_0 x).symm,
  List.forall_mem_cons.2 ⟨fun x => (h0 x).trans (outV_rows m ρ c 0 inb_S1024x512_S128x512_0_0 x).symm,
  fun _ h => absurd h List.not_mem_nil⟩⟩⟩⟩⟩⟩⟩⟩

theorem out8_eq (c : Dev nD) (d0 d1 d2 d3 d4 d5 d6 d7 : S128x512.Idx → Elt F .f32)
    (h0 : ∀ x, d0 x = GB m ρ c (rowIdx 0 x)) (h1 : ∀ x, d1 x = GB m ρ c (rowIdx 1 x)) (h2 : ∀ x, d2 x = GB m ρ c (rowIdx 2 x))
    (h3 : ∀ x, d3 x = GB m ρ c (rowIdx 3 x)) (h4 : ∀ x, d4 x = GB m ρ c (rowIdx 4 x)) (h5 : ∀ x, d5 x = GB m ρ c (rowIdx 5 x))
    (h6 : ∀ x, d6 x = GB m ρ c (rowIdx 6 x)) (h7 : ∀ x, d7 x = GB m ρ c (rowIdx 7 x))
    (f0 : (outM : Memref sig .tc .hbm S1024x512 .f32).view.ty.Contents (Elt F)) :
    (outM : Memref sig .tc .hbm S1024x512 .f32).view.writes (Elt F) f0 (out8L d0 d1 d2 d3 d4 d5 d6 d7) = outV m ρ c := by
  have hr := fun i => View.read_writes_apply_of_pieces (outM : Memref sig .tc .hbm S1024x512 .f32).view f0 (show Vec F S1024x512 .f32 from outV m ρ c)
    (out8L d0 d1 d2 d3 d4 d5 d6 d7) (out8_pieces m ρ c d0 d1 d2 d3 d4 d5 d6 d7 h0 h1 h2 h3 h4 h5 h6 h7) i (out8_cover d0 d1 d2 d3 d4 d5 d6 d7 i)
  simp only [Memref.view_whole, View.read_whole] at hr
  simp only [Memref.view_whole]
  funext i
  exact hr i

/-- info: 'Cert.KernelIdeal.RS.out8_eq' depends on axioms: [propext, Classical.choice, Quot.sound] -/
#guard_msgs in #print axioms out8_eq

/-- info: 'Cert.KernelIdeal.RS.outV_rows' depends on axioms: [propext, Classical.choice, Quot.sound] -/
#guard_msgs in #print axioms outV_rows

/-- info: 'Cert.KernelIdeal.RS.writes_agree' depends on axioms: [propext, Classical.choice, Quot.sound] -/
#guard_msgs in #print axioms writes_agree

end Cert.KernelIdeal.RS

end
-- ==== Proof.Run3.lean ====
import proofs.«901040_g7700000000001041_dist_rs_v7x_xyz2x4x4_x_m1024_n512_bf16_1_alg».proof.Proof.BodyInv
import proofs.«901040_g7700000000001041_dist_rs_v7x_xyz2x4x4_x_m1024_n512_bf16_1_alg».proof.Proof.Close
import proofs.«901040_g7700000000001041_dist_rs_v7x_xyz2x4x4_x_m1024_n512_bf16_1_alg».proof.Proof.Run3Value
import Idealize.ShloMosaic.Lib.Pipeline.Value
import Idealize.ShloMosaic.Lib.Writes

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

variable (m : (ℓ : Loc nD τ sig) → Buf (Elt F) ℓ) (ρ : Dev nD → PrngReg)

theorem post_intro_ex (K : Dev nD × CK → ℕ) (c : Dev nD)
    (g0 : Buf (Elt F) ((c : Thread nD τ).loc cc0_scratch0)) (g1 : Buf (Elt F) ((c : Thread nD τ).loc cc0_scratch1))
    (g2 : Buf (Elt F) ((c : Thread nD τ).loc cc0_scratch2)) (g3 : Buf (Elt F) ((c : Thread nD τ).loc cc0_scratch3))
    (g4 : Buf (Elt F) ((c : Thread nD τ).loc cc0_scratch4)) (g5 : Buf (Elt F) ((c : Thread nD τ).loc cc0_scratch5))
    (g6 : Buf (Elt F) ((c : Thread nD τ).loc cc0_scratch6)) (g7 : Buf (Elt F) ((c : Thread nD τ).loc cc0_scratch7))
    (g8 : Buf (Elt F) ((c : Thread nD τ).loc cc0_scratch8)) :
    iprop(records (rd m ρ) K ∗ (bigSep Finset.univ fun k : CK => atPos ER (cell c k) 1 ∅ 0) ∗ localSems0 c
        ∗ ((stgM : Memref sig .tc .vmem S7x128x256 .f32).view.loc (c : Thread nD τ) ↦{fullShare} g0)
        ∗ ((dstgM : Memref sig .tc .vmem S128x512 .f32).view.loc (c : Thread nD τ) ↦{fullShare} g1)
        ∗ ((mineM : Memref sig .tc .vmem S1024x512 .f32).view.loc (c : Thread nD τ) ↦{fullShare} g2)
        ∗ ((obufM : Memref sig .tc .vmem S8x128x512 .f32).view.loc (c : Thread nD τ) ↦{fullShare} g3)
        ∗ ((xsndM : Memref sig .tc .vmem S7x128x256 .bf16).view.loc (c : Thread nD τ) ↦{fullShare} g4)
        ∗ ((dsndM : Memref sig .tc .vmem S128x512 .bf16).view.loc (c : Thread nD τ) ↦{fullShare} g5)
        ∗ ((xrcvM : Memref sig .tc .vmem S7x128x256 .bf16).view.loc (c : Thread nD τ) ↦{fullShare} g6)
        ∗ ((drcvM : Memref sig .tc .vmem S128x512 .bf16).view.loc (c : Thread nD τ) ↦{fullShare} g7)
        ∗ ((frcvM : Memref sig .tc .vmem S7x128x256 .bf16).view.loc (c : Thread nD τ) ↦{fullShare} g8)
        ∗ ((inM : Memref sig .tc .hbm S1x1024x1024 .f32).view.loc (c : Thread nD τ) ↦{fullShare} X m ρ c)
        ∗ ((outM : Memref sig .tc .hbm S1024x512 .f32).view.loc (c : Thread nD τ) ↦{fullShare} outV m ρ c)
        ∗ ∃ W' : Waits sig Unit, owes (c : Thread nD τ) (0 : CellTallies nD τ sig Unit) W')
      ⊢ |={Set.univ}=> bodyPost m ρ c := by
  iintro ⟨HR, Hat, Hloc, H0, H1, H2, H3, H4, H5, H6, H7, H8, Hin, Hout, ⟨%W', HO⟩⟩
  iapply (post_intro m ρ K c W' g0 g1 g2 g3 g4 g5 g6 g7 g8)
  iframe

section R3
open Idealize.ShloMosaic.Tactic

attribute [local sl_rounds] duties_bar duties_xs duties_xr duties_ds duties_dr duties_fs duties_fr
  amount_bar amount_xs amount_xr amount_ds amount_dr amount_fs amount_fr
  expect_bar expect_xs expect_xr expect_ds expect_dr expect_fs expect_fr
  payload_xs payload_xr payload_ds payload_dr payload_fs payload_fr

set_option maxHeartbeats 4000000 in
set_option maxRecDepth 65536 in

theorem run3_h0 (K : Dev nD × CK → ℕ) (c : Dev nD) (h0 : hb c = 0) : Run3At (F := F) m ρ K c := by
  unfold Run3At inv17
  rw [localSems0_eq]
  iintro ⟨#Hrec, #Hlev, Hat_bar, Hat_xs0, Hat_xs1, Hat_xs2, Hat_xs3, Hat_xs4, Hat_xs5, Hat_xs6, Hat_xr0, Hat_xr1, Hat_xr2, Hat_xr3, Hat_xr4, Hat_xr5, Hat_xr6, Hat_ds, Hat_dr, Hat_fs0, Hat_fs1, Hat_fs2, Hat_fs3, Hat_fs4, Hat_fs5, Hat_fs6, Hat_fr0, Hat_fr1, Hat_fr2, Hat_fr3, Hat_fr4, Hat_fr5, Hat_fr6, Hc_dr, Hc_fr0, Hc_fr1, Hc_fr2, Hc_fr3, Hc_fr4, Hc_fr5, Hc_fr6, Hc_xs0, Hc_xs1, Hc_xs2, Hc_xs3, Hc_xs4, Hc_xs5, Hc_xs6, Hc_ds, Hc_fs0, Hc_fs1, Hc_fs2, Hc_fs3, Hc_fs4, Hc_fs5, Hc_fs6, ⟨Hs0, Hs1, Hs2, Hs3, Hs4, Hs5, Hs6, Hs7, Hs8, Hs9, Hs10, Hs11, Hs12, Hs13, Hs14, Hs15, Hs16⟩, ⟨%g0, Hb0⟩, ⟨%g1, Hb1⟩, Hmine, ⟨%g3, Hobuf⟩, Hxr0, Hxr1, Hxr2, Hxr3, Hxr4, Hxr5, Hxr6, Hin, Hout, ⟨%W', HO⟩⟩
  ihave #HI_c_fr0 := (inv_at (rd m ρ) K c (.fr 0)) $$ Hrec
  ihave #HR_c_fr0 := (reached_at (rd m ρ) K c (.fr 0)) $$ Hrec
  ihave #HI_c_fr1 := (inv_at (rd m ρ) K c (.fr 1)) $$ Hrec
  ihave #HR_c_fr1 := (reached_at (rd m ρ) K c (.fr 1)) $$ Hrec
  ihave #HI_c_fr2 := (inv_at (rd m ρ) K c (.fr 2)) $$ Hrec
  ihave #HR_c_fr2 := (reached_at (rd m ρ) K c (.fr 2)) $$ Hrec
  ihave #HI_c_fr3 := (inv_at (rd m ρ) K c (.fr 3)) $$ Hrec
  ihave #HR_c_fr3 := (reached_at (rd m ρ) K c (.fr 3)) $$ Hrec
  ihave #HI_c_fr4 := (inv_at (rd m ρ) K c (.fr 4)) $$ Hrec
  ihave #HR_c_fr4 := (reached_at (rd m ρ) K c (.fr 4)) $$ Hrec
  ihave #HI_c_fr5 := (inv_at (rd m ρ) K c (.fr 5)) $$ Hrec
  ihave #HR_c_fr5 := (reached_at (rd m ρ) K c (.fr 5)) $$ Hrec
  ihave #HI_c_fr6 := (inv_at (rd m ρ) K c (.fr 6)) $$ Hrec
  ihave #HR_c_fr6 := (reached_at (rd m ρ) K c (.fr 6)) $$ Hrec
  ihave #HI_c_dr := (inv_at (rd m ρ) K c .dr) $$ Hrec
  ihave #HR_c_dr := (reached_at (rd m ρ) K c .dr) $$ Hrec
  ihave #HI_c_xs0 := (inv_at (rd m ρ) K c (.xs 0)) $$ Hrec
  ihave #HR_c_xs0 := (reached_at (rd m ρ) K c (.xs 0)) $$ Hrec
  ihave #HI_c_xs1 := (inv_at (rd m ρ) K c (.xs 1)) $$ Hrec
  ihave #HR_c_xs1 := (reached_at (rd m ρ) K c (.xs 1)) $$ Hrec
  ihave #HI_c_xs2 := (inv_at (rd m ρ) K c (.xs 2)) $$ Hrec
  ihave #HR_c_xs2 := (reached_at (rd m ρ) K c (.xs 2)) $$ Hrec
  ihave #HI_c_xs3 := (inv_at (rd m ρ) K c (.xs 3)) $$ Hrec
  ihave #HR_c_xs3 := (reached_at (rd m ρ) K c (.xs 3)) $$ Hrec
  ihave #HI_c_xs4 := (inv_at (rd m ρ) K c (.xs 4)) $$ Hrec
  ihave #HR_c_xs4 := (reached_at (rd m ρ) K c (.xs 4)) $$ Hrec
  ihave #HI_c_xs5 := (inv_at (rd m ρ) K c (.xs 5)) $$ Hrec
  ihave #HR_c_xs5 := (reached_at (rd m ρ) K c (.xs 5)) $$ Hrec
  ihave #HI_c_xs6 := (inv_at (rd m ρ) K c (.xs 6)) $$ Hrec
  ihave #HR_c_xs6 := (reached_at (rd m ρ) K c (.xs 6)) $$ Hrec
  ihave #HI_c_fs0 := (inv_at (rd m ρ) K c (.fs 0)) $$ Hrec
  ihave #HR_c_fs0 := (reached_at (rd m ρ) K c (.fs 0)) $$ Hrec
  ihave #HI_c_fs1 := (inv_at (rd m ρ) K c (.fs 1)) $$ Hrec
  ihave #HR_c_fs1 := (reached_at (rd m ρ) K c (.fs 1)) $$ Hrec
  ihave #HI_c_fs2 := (inv_at (rd m ρ) K c (.fs 2)) $$ Hrec
  ihave #HR_c_fs2 := (reached_at (rd m ρ) K c (.fs 2)) $$ Hrec
  ihave #HI_c_fs3 := (inv_at (rd m ρ) K c (.fs 3)) $$ Hrec
  ihave #HR_c_fs3 := (reached_at (rd m ρ) K c (.fs 3)) $$ Hrec
  ihave #HI_c_fs4 := (inv_at (rd m ρ) K c (.fs 4)) $$ Hrec
  ihave #HR_c_fs4 := (reached_at (rd m ρ) K c (.fs 4)) $$ Hrec
  ihave #HI_c_fs5 := (inv_at (rd m ρ) K c (.fs 5)) $$ Hrec
  ihave #HR_c_fs5 := (reached_at (rd m ρ) K c (.fs 5)) $$ Hrec
  ihave #HI_c_fs6 := (inv_at (rd m ρ) K c (.fs 6)) $$ Hrec
  ihave #HR_c_fs6 := (reached_at (rd m ρ) K c (.fs 6)) $$ Hrec
  ihave #HI_c_ds := (inv_at (rd m ρ) K c .ds) $$ Hrec
  ihave #HR_c_ds := (reached_at (rd m ρ) K c .ds) $$ Hrec
  have hc0 := cond0_of_h0 c h0
  have hc1 := cond1_of_h0 c h0
  have hn1 : ¬ (Scalar.cmpi CmpIPredicate.ne (Scalar.extui (Scalar.cmpi CmpIPredicate.eq (hword c) 1#32)) 0#32 = 1#1) := by rw [hc1]; decide
  unfold seg3₀ tail3₀ seg3
  set_option sl_exec.dmaWindow true in
  sl_exec_parts (disch := simp only [dev_eqs])
  have hP_Hobuf_2 : ∀ p ∈ run3_h0.sl.Hobuf_2 m ρ c, ∀ x : p.1.shape.Idx, p.2 x = GB m ρ c (p.1.emb x) := by
    unfold run3_h0.sl.Hobuf_2
    intro p hp
    rcases List.mem_cons.mp hp with rfl | hp
    · intro x
      refine Eq.symm ?_
      refine (GB_high m ρ c 0 inb_S8x128x512_S1x128x256_0_0_256 x).trans ?_
      unfold highHalf; rw [if_pos h0]; rfl
    rcases List.mem_singleton.mp hp with rfl
    · intro x
      refine Eq.symm ?_
      refine (GB_low m ρ c 6 inb_S8x128x512_S1x128x256_6_0_0 x).trans ?_
      unfold lowHalf; rw [if_pos h0]; rfl
  have hP_Hobuf_3 : ∀ p ∈ run3_h0.sl.Hobuf_3 m ρ c, ∀ x : p.1.shape.Idx, p.2 x = GB m ρ c (p.1.emb x) := by
    unfold run3_h0.sl.Hobuf_3
    intro p hp
    rcases List.mem_cons.mp hp with rfl | hp
    · intro x
      refine Eq.symm ?_
      refine (GB_high m ρ c 1 inb_S8x128x512_S1x128x256_1_0_256 x).trans ?_
      unfold highHalf; rw [if_pos h0]; rfl
    · exact hP_Hobuf_2 p hp
  have hP_Hobuf_4 : ∀ p ∈ run3_h0.sl.Hobuf_4 m ρ c, ∀ x : p.1.shape.Idx, p.2 x = GB m ρ c (p.1.emb x) := by
    unfold run3_h0.sl.Hobuf_4
    intro p hp
    rcases List.mem_cons.mp hp with rfl | hp
    · intro x
      refine Eq.symm ?_
      refine (GB_high m ρ c 2 inb_S8x128x512_S1x128x256_2_0_256 x).trans ?_
      unfold highHalf; rw [if_pos h0]; rfl
    · exact hP_Hobuf_3 p hp
  have hP_Hobuf_5 : ∀ p ∈ run3_h0.sl.Hobuf_5 m ρ c, ∀ x : p.1.shape.Idx, p.2 x = GB m ρ c (p.1.emb x) := by
    unfold run3_h0.sl.Hobuf_5
    intro p hp
    rcases List.mem_cons.mp hp with rfl | hp
    · intro x
      refine Eq.symm ?_
      refine (GB_high m ρ c 3 inb_S8x128x512_S1x128x256_3_0_256 x).trans ?_
      unfold highHalf; rw [if_pos h0]; rfl
    · exact hP_Hobuf_4 p hp
  have hP_Hobuf_6 : ∀ p ∈ run3_h0.sl.Hobuf_6 m ρ c, ∀ x : p.1.shape.Idx, p.2 x = GB m ρ c (p.1.emb x) := by
    unfold run3_h0.sl.Hobuf_6
    intro p hp
    rcases List.mem_cons.mp hp with rfl | hp
    · intro x
      refine Eq.symm ?_
      refine (GB_high m ρ c 4 inb_S8x128x512_S1x128x256_4_0_256 x).trans ?_
      unfold highHalf; rw [if_pos h0]; rfl
    · exact hP_Hobuf_5 p hp
  have hP_Hobuf_7 : ∀ p ∈ run3_h0.sl.Hobuf_7 m ρ c, ∀ x : p.1.shape.Idx, p.2 x = GB m ρ c (p.1.emb x) := by
    unfold run3_h0.sl.Hobuf_7
    intro p hp
    rcases List.mem_cons.mp hp with rfl | hp
    · intro x
      refine Eq.symm ?_
      refine (GB_high m ρ c 5 inb_S8x128x512_S1x128x256_5_0_256 x).trans ?_
      unfold highHalf; rw [if_pos h0]; rfl
    · exact hP_Hobuf_6 p hp
  have hP_Hobuf_8 : ∀ p ∈ run3_h0.sl.Hobuf_8 m ρ c, ∀ x : p.1.shape.Idx, p.2 x = GB m ρ c (p.1.emb x) := by
    unfold run3_h0.sl.Hobuf_8
    intro p hp
    rcases List.mem_cons.mp hp with rfl | hp
    · intro x
      refine Eq.symm ?_
      refine (GB_high m ρ c 6 inb_S8x128x512_S1x128x256_6_0_256 x).trans ?_
      unfold highHalf; rw [if_pos h0]; rfl
    · exact hP_Hobuf_7 p hp
  have hP_Hobuf_9 : ∀ p ∈ run3_h0.sl.Hobuf_9 m ρ c, ∀ x : p.1.shape.Idx, p.2 x = GB m ρ c (p.1.emb x) := by
    unfold run3_h0.sl.Hobuf_9
    intro p hp
    rcases List.mem_cons.mp hp with rfl | hp
    · intro x
      refine Eq.symm ?_
      refine (GB_last m ρ c inb_S8x128x512_S1x128x512_7_0_0 x).trans ?_
      rfl
    · exact hP_Hobuf_8 p hp
  have hm6_2 : ∃ w, (⟨Rect.unit (s := S8x128x512) ![6, 0, 0] S1x128x256.size inb_S8x128x512_S1x128x256_6_0_0, w⟩ : View.Piece (Elt F) S8x128x512 .f32) ∈ run3_h0.sl.Hobuf_2 m ρ c := by
    unfold run3_h0.sl.Hobuf_2
    exact ⟨_, List.mem_cons_of_mem _ List.mem_cons_self⟩
  have hm6_3 : ∃ w, (⟨Rect.unit (s := S8x128x512) ![6, 0, 0] S1x128x256.size inb_S8x128x512_S1x128x256_6_0_0, w⟩ : View.Piece (Elt F) S8x128x512 .f32) ∈ run3_h0.sl.Hobuf_3 m ρ c := by
    obtain ⟨w, h⟩ := hm6_2
    unfold run3_h0.sl.Hobuf_3
    exact ⟨w, List.mem_cons_of_mem _ h⟩
  have hm6_4 : ∃ w, (⟨Rect.unit (s := S8x128x512) ![6, 0, 0] S1x128x256.size inb_S8x128x512_S1x128x256_6_0_0, w⟩ : View.Piece (Elt F) S8x128x512 .f32) ∈ run3_h0.sl.Hobuf_4 m ρ c := by
    obtain ⟨w, h⟩ := hm6_3
    unfold run3_h0.sl.Hobuf_4
    exact ⟨w, List.mem_cons_of_mem _ h⟩
  have hm6_5 : ∃ w, (⟨Rect.unit (s := S8x128x512) ![6, 0, 0] S1x128x256.size inb_S8x128x512_S1x128x256_6_0_0, w⟩ : View.Piece (Elt F) S8x128x512 .f32) ∈ run3_h0.sl.Hobuf_5 m ρ c := by
    obtain ⟨w, h⟩ := hm6_4
    unfold run3_h0.sl.Hobuf_5
    exact ⟨w, List.mem_cons_of_mem _ h⟩
  have hm6_6 : ∃ w, (⟨Rect.unit (s := S8x128x512) ![6, 0, 0] S1x128x256.size inb_S8x128x512_S1x128x256_6_0_0, w⟩ : View.Piece (Elt F) S8x128x512 .f32) ∈ run3_h0.sl.Hobuf_6 m ρ c := by
    obtain ⟨w, h⟩ := hm6_5
    unfold run3_h0.sl.Hobuf_6
    exact ⟨w, List.mem_cons_of_mem _ h⟩
  have hm6_7 : ∃ w, (⟨Rect.unit (s := S8x128x512) ![6, 0, 0] S1x128x256.size inb_S8x128x512_S1x128x256_6_0_0, w⟩ : View.Piece (Elt F) S8x128x512 .f32) ∈ run3_h0.sl.Hobuf_7 m ρ c := by
    obtain ⟨w, h⟩ := hm6_6
    unfold run3_h0.sl.Hobuf_7
    exact ⟨w, List.mem_cons_of_mem _ h⟩
  have hm6_8 : ∃ w, (⟨Rect.unit (s := S8x128x512) ![6, 0, 0] S1x128x256.size inb_S8x128x512_S1x128x256_6_0_0, w⟩ : View.Piece (Elt F) S8x128x512 .f32) ∈ run3_h0.sl.Hobuf_8 m ρ c := by
    obtain ⟨w, h⟩ := hm6_7
    unfold run3_h0.sl.Hobuf_8
    exact ⟨w, List.mem_cons_of_mem _ h⟩
  have hd0 : ∀ x : S128x512.Idx, run3_h0.sl.dma8 m ρ c g3 x = GB m ρ c (rowIdx 0 x) := by
    intro x
    unfold run3_h0.sl.dma8
    refine (slot_read 0 _ _ _ x).trans ?_
    refine writes_agree (obufM : Memref sig .tc .vmem S8x128x512 .f32).view (GB m ρ c) (Done17 c) _ (obuf17_agree m ρ c g3) _ hP_Hobuf_2 _ ?_
    by_cases hx : (x 1).val < 256
    · exact Or.inl (done17_low c h0 0 (by decide) x hx)
    · exact Or.inr ⟨_, List.mem_cons_self, rowIdx_mem_high 0 x inb_S8x128x512_S1x128x256_0_0_256 (Nat.le_of_not_lt hx)⟩
  have hd1 : ∀ x : S128x512.Idx, run3_h0.sl.dma12 m ρ c g3 x = GB m ρ c (rowIdx 1 x) := by
    intro x
    unfold run3_h0.sl.dma12
    refine (slot_read 1 _ _ _ x).trans ?_
    refine writes_agree (obufM : Memref sig .tc .vmem S8x128x512 .f32).view (GB m ρ c) (Done17 c) _ (obuf17_agree m ρ c g3) _ hP_Hobuf_3 _ ?_
    by_cases hx : (x 1).val < 256
    · exact Or.inl (done17_low c h0 1 (by decide) x hx)
    · exact Or.inr ⟨_, List.mem_cons_self, rowIdx_mem_high 1 x inb_S8x128x512_S1x128x256_1_0_256 (Nat.le_of_not_lt hx)⟩
  have hd2 : ∀ x : S128x512.Idx, run3_h0.sl.dma16 m ρ c g3 x = GB m ρ c (rowIdx 2 x) := by
    intro x
    unfold run3_h0.sl.dma16
    refine (slot_read 2 _ _ _ x).trans ?_
    refine writes_agree (obufM : Memref sig .tc .vmem S8x128x512 .f32).view (GB m ρ c) (Done17 c) _ (obuf17_agree m ρ c g3) _ hP_Hobuf_4 _ ?_
    by_cases hx : (x 1).val < 256
    · exact Or.inl (done17_low c h0 2 (by decide) x hx)
    · exact Or.inr ⟨_, List.mem_cons_self, rowIdx_mem_high 2 x inb_S8x128x512_S1x128x256_2_0_256 (Nat.le_of_not_lt hx)⟩
  have hd3 : ∀ x : S128x512.Idx, run3_h0.sl.dma20 m ρ c g3 x = GB m ρ c (rowIdx 3 x) := by
    intro x
    unfold run3_h0.sl.dma20
    refine (slot_read 3 _ _ _ x).trans ?_
    refine writes_agree (obufM : Memref sig .tc .vmem S8x128x512 .f32).view (GB m ρ c) (Done17 c) _ (obuf17_agree m ρ c g3) _ hP_Hobuf_5 _ ?_
    by_cases hx : (x 1).val < 256
    · exact Or.inl (done17_low c h0 3 (by decide) x hx)
    · exact Or.inr ⟨_, List.mem_cons_self, rowIdx_mem_high 3 x inb_S8x128x512_S1x128x256_3_0_256 (Nat.le_of_not_lt hx)⟩
  have hd4 : ∀ x : S128x512.Idx, run3_h0.sl.dma24 m ρ c g3 x = GB m ρ c (rowIdx 4 x) := by
    intro x
    unfold run3_h0.sl.dma24
    refine (slot_read 4 _ _ _ x).trans ?_
    refine writes_agree (obufM : Memref sig .tc .vmem S8x128x512 .f32).view (GB m ρ c) (Done17 c) _ (obuf17_agree m ρ c g3) _ hP_Hobuf_6 _ ?_
    by_cases hx : (x 1).val < 256
    · exact Or.inl (done17_low c h0 4 (by decide) x hx)
    · exact Or.inr ⟨_, List.mem_cons_self, rowIdx_mem_high 4 x inb_S8x128x512_S1x128x256_4_0_256 (Nat.le_of_not_lt hx)⟩
  have hd5 : ∀ x : S128x512.Idx, run3_h0.sl.dma28 m ρ c g3 x = GB m ρ c (rowIdx 5 x) := by
    intro x
    unfold run3_h0.sl.dma28
    refine (slot_read 5 _ _ _ x).trans ?_
    refine writes_agree (obufM : Memref sig .tc .vmem S8x128x512 .f32).view (GB m ρ c) (Done17 c) _ (obuf17_agree m ρ c g3) _ hP_Hobuf_7 _ ?_
    by_cases hx : (x 1).val < 256
    · exact Or.inl (done17_low c h0 5 (by decide) x hx)
    · exact Or.inr ⟨_, List.mem_cons_self, rowIdx_mem_high 5 x inb_S8x128x512_S1x128x256_5_0_256 (Nat.le_of_not_lt hx)⟩
  have hd6 : ∀ x : S128x512.Idx, run3_h0.sl.dma32 m ρ c g3 x = GB m ρ c (rowIdx 6 x) := by
    intro x
    unfold run3_h0.sl.dma32
    refine (slot_read 6 _ _ _ x).trans ?_
    refine writes_agree (obufM : Memref sig .tc .vmem S8x128x512 .f32).view (GB m ρ c) (Done17 c) _ (obuf17_agree m ρ c g3) _ hP_Hobuf_8 _ ?_
    by_cases hx : (x 1).val < 256
    · obtain ⟨w, hw⟩ := hm6_8
      exact Or.inr ⟨_, hw, rowIdx_mem_low 6 x inb_S8x128x512_S1x128x256_6_0_0 hx⟩
    · exact Or.inr ⟨_, List.mem_cons_self, rowIdx_mem_high 6 x inb_S8x128x512_S1x128x256_6_0_256 (Nat.le_of_not_lt hx)⟩
  have hd7 : ∀ x : S128x512.Idx, run3_h0.sl.dma36 m ρ c g3 x = GB m ρ c (rowIdx 7 x) := by
    intro x
    unfold run3_h0.sl.dma36
    refine (slot_read 7 _ _ _ x).trans ?_
    refine writes_agree (obufM : Memref sig .tc .vmem S8x128x512 .f32).view (GB m ρ c) (Done17 c) _ (obuf17_agree m ρ c g3) _ hP_Hobuf_9 _ ?_
    exact Or.inr ⟨_, List.mem_cons_self, rowIdx_mem_row 7 x inb_S8x128x512_S1x128x512_7_0_0⟩
  have hout := out8_eq m ρ c (run3_h0.sl.dma8 m ρ c g3) (run3_h0.sl.dma12 m ρ c g3) (run3_h0.sl.dma16 m ρ c g3) (run3_h0.sl.dma20 m ρ c g3) (run3_h0.sl.dma24 m ρ c g3) (run3_h0.sl.dma28 m ρ c g3) (run3_h0.sl.dma32 m ρ c g3) (run3_h0.sl.dma36 m ρ c g3) hd0 hd1 hd2 hd3 hd4 hd5 hd6 hd7 ((s₀ m ρ).1 ((c : Thread nD τ).loc main_v1))
  rw [hout]
  rw [show (dsndM : Memref sig .tc .vmem S128x512 .bf16).view.set = Finset.univ from View.set_whole _, show (drcvM : Memref sig .tc .vmem S128x512 .bf16).view.set = Finset.univ from View.set_whole _]
  rw [wp_ret]
  ihave Hx0 := (pts_join ((xrS 0).view.loc (c : Thread nD τ)) (xrS 0).view.set (xrcvB m ρ c)) $$ [Hat_fs0_pay1 Hxr0]
  · isplitl [Hat_fs0_pay1] <;> iassumption
  ihave Hx1 := (pts_join ((xrS 1).view.loc (c : Thread nD τ)) (xrS 1).view.set (xrcvB m ρ c)) $$ [Hat_fs1_pay1 Hxr1]
  · isplitl [Hat_fs1_pay1] <;> iassumption
  ihave Hx2 := (pts_join ((xrS 2).view.loc (c : Thread nD τ)) (xrS 2).view.set (xrcvB m ρ c)) $$ [Hat_fs2_pay1 Hxr2]
  · isplitl [Hat_fs2_pay1] <;> iassumption
  ihave Hx3 := (pts_join ((xrS 3).view.loc (c : Thread nD τ)) (xrS 3).view.set (xrcvB m ρ c)) $$ [Hat_fs3_pay1 Hxr3]
  · isplitl [Hat_fs3_pay1] <;> iassumption
  ihave Hx4 := (pts_join ((xrS 4).view.loc (c : Thread nD τ)) (xrS 4).view.set (xrcvB m ρ c)) $$ [Hat_fs4_pay1 Hxr4]
  · isplitl [Hat_fs4_pay1] <;> iassumption
  ihave Hx5 := (pts_join ((xrS 5).view.loc (c : Thread nD τ)) (xrS 5).view.set (xrcvB m ρ c)) $$ [Hat_fs5_pay1 Hxr5]
  · isplitl [Hat_fs5_pay1] <;> iassumption
  ihave Hx6 := (pts_join ((xrS 6).view.loc (c : Thread nD τ)) (xrS 6).view.set (xrcvB m ρ c)) $$ [Hat_fs6_pay1 Hxr6]
  · isplitl [Hat_fs6_pay1] <;> iassumption
  ihave Hxrcv := (Entails.of_eq (xr_slots7 c fullShare (xrcvB m ρ c)).symm) $$ [Hx0 Hx1 Hx2 Hx3 Hx4 Hx5 Hx6]
  · iframe
  ihave Hxsnd := (Entails.of_eq (xs_slots7 c fullShare (xsndB m ρ c)).symm) $$ [Hat_xs0_pay1 Hat_xs1_pay1 Hat_xs2_pay1 Hat_xs3_pay1 Hat_xs4_pay1 Hat_xs5_pay1 Hat_xs6_pay1]
  · iframe
  ihave Hfrcv := (Entails.of_eq (fr_slots7 c fullShare (frcvB m ρ c)).symm) $$ [Hat_fr0_pay1 Hat_fr1_pay1 Hat_fr2_pay1 Hat_fr3_pay1 Hat_fr4_pay1 Hat_fr5_pay1 Hat_fr6_pay1]
  · iframe
  iapply (post_intro_ex m ρ K c g0 g1 (mineB m ρ c) _ (xsndB m ρ c) (dsndB m ρ c) (xrcvB m ρ c) (drcvB m ρ c) (frcvB m ρ c))
  rw [bigSep_CK, localSems0_eq]
  iframe ∗ #
  iexists _; iexact HO

set_option maxHeartbeats 4000000 in
set_option maxRecDepth 65536 in

theorem run3_h1 (K : Dev nD × CK → ℕ) (c : Dev nD) (h1 : hb c = 1) : Run3At (F := F) m ρ K c := by
  unfold Run3At inv17
  rw [localSems0_eq]
  iintro ⟨#Hrec, #Hlev, Hat_bar, Hat_xs0, Hat_xs1, Hat_xs2, Hat_xs3, Hat_xs4, Hat_xs5, Hat_xs6, Hat_xr0, Hat_xr1, Hat_xr2, Hat_xr3, Hat_xr4, Hat_xr5, Hat_xr6, Hat_ds, Hat_dr, Hat_fs0, Hat_fs1, Hat_fs2, Hat_fs3, Hat_fs4, Hat_fs5, Hat_fs6, Hat_fr0, Hat_fr1, Hat_fr2, Hat_fr3, Hat_fr4, Hat_fr5, Hat_fr6, Hc_dr, Hc_fr0, Hc_fr1, Hc_fr2, Hc_fr3, Hc_fr4, Hc_fr5, Hc_fr6, Hc_xs0, Hc_xs1, Hc_xs2, Hc_xs3, Hc_xs4, Hc_xs5, Hc_xs6, Hc_ds, Hc_fs0, Hc_fs1, Hc_fs2, Hc_fs3, Hc_fs4, Hc_fs5, Hc_fs6, ⟨Hs0, Hs1, Hs2, Hs3, Hs4, Hs5, Hs6, Hs7, Hs8, Hs9, Hs10, Hs11, Hs12, Hs13, Hs14, Hs15, Hs16⟩, ⟨%g0, Hb0⟩, ⟨%g1, Hb1⟩, Hmine, ⟨%g3, Hobuf⟩, Hxr0, Hxr1, Hxr2, Hxr3, Hxr4, Hxr5, Hxr6, Hin, Hout, ⟨%W', HO⟩⟩
  ihave #HI_c_fr0 := (inv_at (rd m ρ) K c (.fr 0)) $$ Hrec
  ihave #HR_c_fr0 := (reached_at (rd m ρ) K c (.fr 0)) $$ Hrec
  ihave #HI_c_fr1 := (inv_at (rd m ρ) K c (.fr 1)) $$ Hrec
  ihave #HR_c_fr1 := (reached_at (rd m ρ) K c (.fr 1)) $$ Hrec
  ihave #HI_c_fr2 := (inv_at (rd m ρ) K c (.fr 2)) $$ Hrec
  ihave #HR_c_fr2 := (reached_at (rd m ρ) K c (.fr 2)) $$ Hrec
  ihave #HI_c_fr3 := (inv_at (rd m ρ) K c (.fr 3)) $$ Hrec
  ihave #HR_c_fr3 := (reached_at (rd m ρ) K c (.fr 3)) $$ Hrec
  ihave #HI_c_fr4 := (inv_at (rd m ρ) K c (.fr 4)) $$ Hrec
  ihave #HR_c_fr4 := (reached_at (rd m ρ) K c (.fr 4)) $$ Hrec
  ihave #HI_c_fr5 := (inv_at (rd m ρ) K c (.fr 5)) $$ Hrec
  ihave #HR_c_fr5 := (reached_at (rd m ρ) K c (.fr 5)) $$ Hrec
  ihave #HI_c_fr6 := (inv_at (rd m ρ) K c (.fr 6)) $$ Hrec
  ihave #HR_c_fr6 := (reached_at (rd m ρ) K c (.fr 6)) $$ Hrec
  ihave #HI_c_dr := (inv_at (rd m ρ) K c .dr) $$ Hrec
  ihave #HR_c_dr := (reached_at (rd m ρ) K c .dr) $$ Hrec
  ihave #HI_c_xs0 := (inv_at (rd m ρ) K c (.xs 0)) $$ Hrec
  ihave #HR_c_xs0 := (reached_at (rd m ρ) K c (.xs 0)) $$ Hrec
  ihave #HI_c_xs1 := (inv_at (rd m ρ) K c (.xs 1)) $$ Hrec
  ihave #HR_c_xs1 := (reached_at (rd m ρ) K c (.xs 1)) $$ Hrec
  ihave #HI_c_xs2 := (inv_at (rd m ρ) K c (.xs 2)) $$ Hrec
  ihave #HR_c_xs2 := (reached_at (rd m ρ) K c (.xs 2)) $$ Hrec
  ihave #HI_c_xs3 := (inv_at (rd m ρ) K c (.xs 3)) $$ Hrec
  ihave #HR_c_xs3 := (reached_at (rd m ρ) K c (.xs 3)) $$ Hrec
  ihave #HI_c_xs4 := (inv_at (rd m ρ) K c (.xs 4)) $$ Hrec
  ihave #HR_c_xs4 := (reached_at (rd m ρ) K c (.xs 4)) $$ Hrec
  ihave #HI_c_xs5 := (inv_at (rd m ρ) K c (.xs 5)) $$ Hrec
  ihave #HR_c_xs5 := (reached_at (rd m ρ) K c (.xs 5)) $$ Hrec
  ihave #HI_c_xs6 := (inv_at (rd m ρ) K c (.xs 6)) $$ Hrec
  ihave #HR_c_xs6 := (reached_at (rd m ρ) K c (.xs 6)) $$ Hrec
  ihave #HI_c_fs0 := (inv_at (rd m ρ) K c (.fs 0)) $$ Hrec
  ihave #HR_c_fs0 := (reached_at (rd m ρ) K c (.fs 0)) $$ Hrec
  ihave #HI_c_fs1 := (inv_at (rd m ρ) K c (.fs 1)) $$ Hrec
  ihave #HR_c_fs1 := (reached_at (rd m ρ) K c (.fs 1)) $$ Hrec
  ihave #HI_c_fs2 := (inv_at (rd m ρ) K c (.fs 2)) $$ Hrec
  ihave #HR_c_fs2 := (reached_at (rd m ρ) K c (.fs 2)) $$ Hrec
  ihave #HI_c_fs3 := (inv_at (rd m ρ) K c (.fs 3)) $$ Hrec
  ihave #HR_c_fs3 := (reached_at (rd m ρ) K c (.fs 3)) $$ Hrec
  ihave #HI_c_fs4 := (inv_at (rd m ρ) K c (.fs 4)) $$ Hrec
  ihave #HR_c_fs4 := (reached_at (rd m ρ) K c (.fs 4)) $$ Hrec
  ihave #HI_c_fs5 := (inv_at (rd m ρ) K c (.fs 5)) $$ Hrec
  ihave #HR_c_fs5 := (reached_at (rd m ρ) K c (.fs 5)) $$ Hrec
  ihave #HI_c_fs6 := (inv_at (rd m ρ) K c (.fs 6)) $$ Hrec
  ihave #HR_c_fs6 := (reached_at (rd m ρ) K c (.fs 6)) $$ Hrec
  ihave #HI_c_ds := (inv_at (rd m ρ) K c .ds) $$ Hrec
  ihave #HR_c_ds := (reached_at (rd m ρ) K c .ds) $$ Hrec
  have hc0 := cond0_of_h1 c h1
  have hc1 := cond1_of_h1 c h1
  have hn0 : ¬ (Scalar.cmpi CmpIPredicate.ne (Scalar.extui (Scalar.cmpi CmpIPredicate.eq (hword c) 0#32)) 0#32 = 1#1) := by rw [hc0]; decide
  unfold seg3₀ tail3₀ seg3
  set_option sl_exec.dmaWindow true in
  sl_exec_parts (disch := simp only [dev_eqs])
  have hP_Hobuf_2 : ∀ p ∈ run3_h1.sl.Hobuf_2 m ρ c, ∀ x : p.1.shape.Idx, p.2 x = GB m ρ c (p.1.emb x) := by
    unfold run3_h1.sl.Hobuf_2
    intro p hp
    rcases List.mem_cons.mp hp with rfl | hp
    · intro x
      refine Eq.symm ?_
      refine (GB_low m ρ c 0 inb_S8x128x512_S1x128x256_0_0_0 x).trans ?_
      unfold lowHalf; rw [if_neg (by rw [h1]; decide)]; rfl
    rcases List.mem_singleton.mp hp with rfl
    · intro x
      refine Eq.symm ?_
      refine (GB_high m ρ c 6 inb_S8x128x512_S1x128x256_6_0_256 x).trans ?_
      unfold highHalf; rw [if_neg (by rw [h1]; decide)]; rfl
  have hP_Hobuf_3 : ∀ p ∈ run3_h1.sl.Hobuf_3 m ρ c, ∀ x : p.1.shape.Idx, p.2 x = GB m ρ c (p.1.emb x) := by
    unfold run3_h1.sl.Hobuf_3
    intro p hp
    rcases List.mem_cons.mp hp with rfl | hp
    · intro x
      refine Eq.symm ?_
      refine (GB_low m ρ c 1 inb_S8x128x512_S1x128x256_1_0_0 x).trans ?_
      unfold lowHalf; rw [if_neg (by rw [h1]; decide)]; rfl
    · exact hP_Hobuf_2 p hp
  have hP_Hobuf_4 : ∀ p ∈ run3_h1.sl.Hobuf_4 m ρ c, ∀ x : p.1.shape.Idx, p.2 x = GB m ρ c (p.1.emb x) := by
    unfold run3_h1.sl.Hobuf_4
    intro p hp
    rcases List.mem_cons.mp hp with rfl | hp
    · intro x
      refine Eq.symm ?_
      refine (GB_low m ρ c 2 inb_S8x128x512_S1x128x256_2_0_0 x).trans ?_
      unfold lowHalf; rw [if_neg (by rw [h1]; decide)]; rfl
    · exact hP_Hobuf_3 p hp
  have hP_Hobuf_5 : ∀ p ∈ run3_h1.sl.Hobuf_5 m ρ c, ∀ x : p.1.shape.Idx, p.2 x = GB m ρ c (p.1.emb x) := by
    unfold run3_h1.sl.Hobuf_5
    intro p hp
    rcases List.mem_cons.mp hp with rfl | hp
    · intro x
      refine Eq.symm ?_
      refine (GB_low m ρ c 3 inb_S8x128x512_S1x128x256_3_0_0 x).trans ?_
      unfold lowHalf; rw [if_neg (by rw [h1]; decide)]; rfl
    · exact hP_Hobuf_4 p hp
  have hP_Hobuf_6 : ∀ p ∈ run3_h1.sl.Hobuf_6 m ρ c, ∀ x : p.1.shape.Idx, p.2 x = GB m ρ c (p.1.emb x) := by
    unfold run3_h1.sl.Hobuf_6
    intro p hp
    rcases List.mem_cons.mp hp with rfl | hp
    · intro x
      refine Eq.symm ?_
      refine (GB_low m ρ c 4 inb_S8x128x512_S1x128x256_4_0_0 x).trans ?_
      unfold lowHalf; rw [if_neg (by rw [h1]; decide)]; rfl
    · exact hP_Hobuf_5 p hp
  have hP_Hobuf_7 : ∀ p ∈ run3_h1.sl.Hobuf_7 m ρ c, ∀ x : p.1.shape.Idx, p.2 x = GB m ρ c (p.1.emb x) := by
    unfold run3_h1.sl.Hobuf_7
    intro p hp
    rcases List.mem_cons.mp hp with rfl | hp
    · intro x
      refine Eq.symm ?_
      refine (GB_low m ρ c 5 inb_S8x128x512_S1x128x256_5_0_0 x).trans ?_
      unfold lowHalf; rw [if_neg (by rw [h1]; decide)]; rfl
    · exact hP_Hobuf_6 p hp
  have hP_Hobuf_8 : ∀ p ∈ run3_h1.sl.Hobuf_8 m ρ c, ∀ x : p.1.shape.Idx, p.2 x = GB m ρ c (p.1.emb x) := by
    unfold run3_h1.sl.Hobuf_8
    intro p hp
    rcases List.mem_cons.mp hp with rfl | hp
    · intro x
      refine Eq.symm ?_
      refine (GB_low m ρ c 6 inb_S8x128x512_S1x128x256_6_0_0 x).trans ?_
      unfold lowHalf; rw [if_neg (by rw [h1]; decide)]; rfl
    · exact hP_Hobuf_7 p hp
  have hP_Hobuf_9 : ∀ p ∈ run3_h1.sl.Hobuf_9 m ρ c, ∀ x : p.1.shape.Idx, p.2 x = GB m ρ c (p.1.emb x) := by
    unfold run3_h1.sl.Hobuf_9
    intro p hp
    rcases List.mem_cons.mp hp with rfl | hp
    · intro x
      refine Eq.symm ?_
      refine (GB_last m ρ c inb_S8x128x512_S1x128x512_7_0_0 x).trans ?_
      rfl
    · exact hP_Hobuf_8 p hp
  have hm6_2 : ∃ w, (⟨Rect.unit (s := S8x128x512) ![6, 0, 256] S1x128x256.size inb_S8x128x512_S1x128x256_6_0_256, w⟩ : View.Piece (Elt F) S8x128x512 .f32) ∈ run3_h1.sl.Hobuf_2 m ρ c := by
    unfold run3_h1.sl.Hobuf_2
    exact ⟨_, List.mem_cons_of_mem _ List.mem_cons_self⟩
  have hm6_3 : ∃ w, (⟨Rect.unit (s := S8x128x512) ![6, 0, 256] S1x128x256.size inb_S8x128x512_S1x128x256_6_0_256, w⟩ : View.Piece (Elt F) S8x128x512 .f32) ∈ run3_h1.sl.Hobuf_3 m ρ c := by
    obtain ⟨w, h⟩ := hm6_2
    unfold run3_h1.sl.Hobuf_3
    exact ⟨w, List.mem_cons_of_mem _ h⟩
  have hm6_4 : ∃ w, (⟨Rect.unit (s := S8x128x512) ![6, 0, 256] S1x128x256.size inb_S8x128x512_S1x128x256_6_0_256, w⟩ : View.Piece (Elt F) S8x128x512 .f32) ∈ run3_h1.sl.Hobuf_4 m ρ c := by
    obtain ⟨w, h⟩ := hm6_3
    unfold run3_h1.sl.Hobuf_4
    exact ⟨w, List.mem_cons_of_mem _ h⟩
  have hm6_5 : ∃ w, (⟨Rect.unit (s := S8x128x512) ![6, 0, 256] S1x128x256.size inb_S8x128x512_S1x128x256_6_0_256, w⟩ : View.Piece (Elt F) S8x128x512 .f32) ∈ run3_h1.sl.Hobuf_5 m ρ c := by
    obtain ⟨w, h⟩ := hm6_4
    unfold run3_h1.sl.Hobuf_5
    exact ⟨w, List.mem_cons_of_mem _ h⟩
  have hm6_6 : ∃ w, (⟨Rect.unit (s := S8x128x512) ![6, 0, 256] S1x128x256.size inb_S8x128x512_S1x128x256_6_0_256, w⟩ : View.Piece (Elt F) S8x128x512 .f32) ∈ run3_h1.sl.Hobuf_6 m ρ c := by
    obtain ⟨w, h⟩ := hm6_5
    unfold run3_h1.sl.Hobuf_6
    exact ⟨w, List.mem_cons_of_mem _ h⟩
  have hm6_7 : ∃ w, (⟨Rect.unit (s := S8x128x512) ![6, 0, 256] S1x128x256.size inb_S8x128x512_S1x128x256_6_0_256, w⟩ : View.Piece (Elt F) S8x128x512 .f32) ∈ run3_h1.sl.Hobuf_7 m ρ c := by
    obtain ⟨w, h⟩ := hm6_6
    unfold run3_h1.sl.Hobuf_7
    exact ⟨w, List.mem_cons_of_mem _ h⟩
  have hm6_8 : ∃ w, (⟨Rect.unit (s := S8x128x512) ![6, 0, 256] S1x128x256.size inb_S8x128x512_S1x128x256_6_0_256, w⟩ : View.Piece (Elt F) S8x128x512 .f32) ∈ run3_h1.sl.Hobuf_8 m ρ c := by
    obtain ⟨w, h⟩ := hm6_7
    unfold run3_h1.sl.Hobuf_8
    exact ⟨w, List.mem_cons_of_mem _ h⟩
  have hd0 : ∀ x : S128x512.Idx, run3_h1.sl.dma8 m ρ c g3 x = GB m ρ c (rowIdx 0 x) := by
    intro x
    unfold run3_h1.sl.dma8
    refine (slot_read 0 _ _ _ x).trans ?_
    refine writes_agree (obufM : Memref sig .tc .vmem S8x128x512 .f32).view (GB m ρ c) (Done17 c) _ (obuf17_agree m ρ c g3) _ hP_Hobuf_2 _ ?_
    by_cases hx : (x 1).val < 256
    · exact Or.inr ⟨_, List.mem_cons_self, rowIdx_mem_low 0 x inb_S8x128x512_S1x128x256_0_0_0 hx⟩
    · exact Or.inl (done17_high c h1 0 (by decide) x (Nat.le_of_not_lt hx))
  have hd1 : ∀ x : S128x512.Idx, run3_h1.sl.dma12 m ρ c g3 x = GB m ρ c (rowIdx 1 x) := by
    intro x
    unfold run3_h1.sl.dma12
    refine (slot_read 1 _ _ _ x).trans ?_
    refine writes_agree (obufM : Memref sig .tc .vmem S8x128x512 .f32).view (GB m ρ c) (Done17 c) _ (obuf17_agree m ρ c g3) _ hP_Hobuf_3 _ ?_
    by_cases hx : (x 1).val < 256
    · exact Or.inr ⟨_, List.mem_cons_self, rowIdx_mem_low 1 x inb_S8x128x512_S1x128x256_1_0_0 hx⟩
    · exact Or.inl (done17_high c h1 1 (by decide) x (Nat.le_of_not_lt hx))
  have hd2 : ∀ x : S128x512.Idx, run3_h1.sl.dma16 m ρ c g3 x = GB m ρ c (rowIdx 2 x) := by
    intro x
    unfold run3_h1.sl.dma16
    refine (slot_read 2 _ _ _ x).trans ?_
    refine writes_agree (obufM : Memref sig .tc .vmem S8x128x512 .f32).view (GB m ρ c) (Done17 c) _ (obuf17_agree m ρ c g3) _ hP_Hobuf_4 _ ?_
    by_cases hx : (x 1).val < 256
    · exact Or.inr ⟨_, List.mem_cons_self, rowIdx_mem_low 2 x inb_S8x128x512_S1x128x256_2_0_0 hx⟩
    · exact Or.inl (done17_high c h1 2 (by decide) x (Nat.le_of_not_lt hx))
  have hd3 : ∀ x : S128x512.Idx, run3_h1.sl.dma20 m ρ c g3 x = GB m ρ c (rowIdx 3 x) := by
    intro x
    unfold run3_h1.sl.dma20
    refine (slot_read 3 _ _ _ x).trans ?_
    refine writes_agree (obufM : Memref sig .tc .vmem S8x128x512 .f32).view (GB m ρ c) (Done17 c) _ (obuf17_agree m ρ c g3) _ hP_Hobuf_5 _ ?_
    by_cases hx : (x 1).val < 256
    · exact Or.inr ⟨_, List.mem_cons_self, rowIdx_mem_low 3 x inb_S8x128x512_S1x128x256_3_0_0 hx⟩
    · exact Or.inl (done17_high c h1 3 (by decide) x (Nat.le_of_not_lt hx))
  have hd4 : ∀ x : S128x512.Idx, run3_h1.sl.dma24 m ρ c g3 x = GB m ρ c (rowIdx 4 x) := by
    intro x
    unfold run3_h1.sl.dma24
    refine (slot_read 4 _ _ _ x).trans ?_
    refine writes_agree (obufM : Memref sig .tc .vmem S8x128x512 .f32).view (GB m ρ c) (Done17 c) _ (obuf17_agree m ρ c g3) _ hP_Hobuf_6 _ ?_
    by_cases hx : (x 1).val < 256
    · exact Or.inr ⟨_, List.mem_cons_self, rowIdx_mem_low 4 x inb_S8x128x512_S1x128x256_4_0_0 hx⟩
    · exact Or.inl (done17_high c h1 4 (by decide) x (Nat.le_of_not_lt hx))
  have hd5 : ∀ x : S128x512.Idx, run3_h1.sl.dma28 m ρ c g3 x = GB m ρ c (rowIdx 5 x) := by
    intro x
    unfold run3_h1.sl.dma28
    refine (slot_read 5 _ _ _ x).trans ?_
    refine writes_agree (obufM : Memref sig .tc .vmem S8x128x512 .f32).view (GB m ρ c) (Done17 c) _ (obuf17_agree m ρ c g3) _ hP_Hobuf_7 _ ?_
    by_cases hx : (x 1).val < 256
    · exact Or.inr ⟨_, List.mem_cons_self, rowIdx_mem_low 5 x inb_S8x128x512_S1x128x256_5_0_0 hx⟩
    · exact Or.inl (done17_high c h1 5 (by decide) x (Nat.le_of_not_lt hx))
  have hd6 : ∀ x : S128x512.Idx, run3_h1.sl.dma32 m ρ c g3 x = GB m ρ c (rowIdx 6 x) := by
    intro x
    unfold run3_h1.sl.dma32
    refine (slot_read 6 _ _ _ x).trans ?_
    refine writes_agree (obufM : Memref sig .tc .vmem S8x128x512 .f32).view (GB m ρ c) (Done17 c) _ (obuf17_agree m ρ c g3) _ hP_Hobuf_8 _ ?_
    by_cases hx : (x 1).val < 256
    · exact Or.inr ⟨_, List.mem_cons_self, rowIdx_mem_low 6 x inb_S8x128x512_S1x128x256_6_0_0 hx⟩
    · obtain ⟨w, hw⟩ := hm6_8
      exact Or.inr ⟨_, hw, rowIdx_mem_high 6 x inb_S8x128x512_S1x128x256_6_0_256 (Nat.le_of_not_lt hx)⟩
  have hd7 : ∀ x : S128x512.Idx, run3_h1.sl.dma36 m ρ c g3 x = GB m ρ c (rowIdx 7 x) := by
    intro x
    unfold run3_h1.sl.dma36
    refine (slot_read 7 _ _ _ x).trans ?_
    refine writes_agree (obufM : Memref sig .tc .vmem S8x128x512 .f32).view (GB m ρ c) (Done17 c) _ (obuf17_agree m ρ c g3) _ hP_Hobuf_9 _ ?_
    exact Or.inr ⟨_, List.mem_cons_self, rowIdx_mem_row 7 x inb_S8x128x512_S1x128x512_7_0_0⟩
  have hout := out8_eq m ρ c (run3_h1.sl.dma8 m ρ c g3) (run3_h1.sl.dma12 m ρ c g3) (run3_h1.sl.dma16 m ρ c g3) (run3_h1.sl.dma20 m ρ c g3) (run3_h1.sl.dma24 m ρ c g3) (run3_h1.sl.dma28 m ρ c g3) (run3_h1.sl.dma32 m ρ c g3) (run3_h1.sl.dma36 m ρ c g3) hd0 hd1 hd2 hd3 hd4 hd5 hd6 hd7 ((s₀ m ρ).1 ((c : Thread nD τ).loc main_v1))
  rw [hout]
  rw [show (dsndM : Memref sig .tc .vmem S128x512 .bf16).view.set = Finset.univ from View.set_whole _, show (drcvM : Memref sig .tc .vmem S128x512 .bf16).view.set = Finset.univ from View.set_whole _]
  rw [wp_ret]
  ihave Hx0 := (pts_join ((xrS 0).view.loc (c : Thread nD τ)) (xrS 0).view.set (xrcvB m ρ c)) $$ [Hat_fs0_pay1 Hxr0]
  · isplitl [Hat_fs0_pay1] <;> iassumption
  ihave Hx1 := (pts_join ((xrS 1).view.loc (c : Thread nD τ)) (xrS 1).view.set (xrcvB m ρ c)) $$ [Hat_fs1_pay1 Hxr1]
  · isplitl [Hat_fs1_pay1] <;> iassumption
  ihave Hx2 := (pts_join ((xrS 2).view.loc (c : Thread nD τ)) (xrS 2).view.set (xrcvB m ρ c)) $$ [Hat_fs2_pay1 Hxr2]
  · isplitl [Hat_fs2_pay1] <;> iassumption
  ihave Hx3 := (pts_join ((xrS 3).view.loc (c : Thread nD τ)) (xrS 3).view.set (xrcvB m ρ c)) $$ [Hat_fs3_pay1 Hxr3]
  · isplitl [Hat_fs3_pay1] <;> iassumption
  ihave Hx4 := (pts_join ((xrS 4).view.loc (c : Thread nD τ)) (xrS 4).view.set (xrcvB m ρ c)) $$ [Hat_fs4_pay1 Hxr4]
  · isplitl [Hat_fs4_pay1] <;> iassumption
  ihave Hx5 := (pts_join ((xrS 5).view.loc (c : Thread nD τ)) (xrS 5).view.set (xrcvB m ρ c)) $$ [Hat_fs5_pay1 Hxr5]
  · isplitl [Hat_fs5_pay1] <;> iassumption
  ihave Hx6 := (pts_join ((xrS 6).view.loc (c : Thread nD τ)) (xrS 6).view.set (xrcvB m ρ c)) $$ [Hat_fs6_pay1 Hxr6]
  · isplitl [Hat_fs6_pay1] <;> iassumption
  ihave Hxrcv := (Entails.of_eq (xr_slots7 c fullShare (xrcvB m ρ c)).symm) $$ [Hx0 Hx1 Hx2 Hx3 Hx4 Hx5 Hx6]
  · iframe
  ihave Hxsnd := (Entails.of_eq (xs_slots7 c fullShare (xsndB m ρ c)).symm) $$ [Hat_xs0_pay1 Hat_xs1_pay1 Hat_xs2_pay1 Hat_xs3_pay1 Hat_xs4_pay1 Hat_xs5_pay1 Hat_xs6_pay1]
  · iframe
  ihave Hfrcv := (Entails.of_eq (fr_slots7 c fullShare (frcvB m ρ c)).symm) $$ [Hat_fr0_pay1 Hat_fr1_pay1 Hat_fr2_pay1 Hat_fr3_pay1 Hat_fr4_pay1 Hat_fr5_pay1 Hat_fr6_pay1]
  · iframe
  iapply (post_intro_ex m ρ K c g0 g1 (mineB m ρ c) _ (xsndB m ρ c) (dsndB m ρ c) (xrcvB m ρ c) (drcvB m ρ c) (frcvB m ρ c))
  rw [bigSep_CK, localSems0_eq]
  iframe ∗ #
  iexists _; iexact HO

theorem run3 : Run3 (F := F) m ρ := fun K c => by
  rcases hb_cases c with h0 | h1
  · exact run3_h0 m ρ K c h0
  · exact run3_h1 m ρ K c h1

end R3

/-- info: 'Cert.KernelIdeal.RS.run3' depends on axioms: [propext, Classical.choice, Quot.sound] -/
#guard_msgs in #print axioms run3

end Cert.KernelIdeal.RS

end
-- ==== Proof.Body.lean ====
import proofs.«901040_g7700000000001041_dist_rs_v7x_xyz2x4x4_x_m1024_n512_bf16_1_alg».proof.Proof.Run1
import proofs.«901040_g7700000000001041_dist_rs_v7x_xyz2x4x4_x_m1024_n512_bf16_1_alg».proof.Proof.Run2
import proofs.«901040_g7700000000001041_dist_rs_v7x_xyz2x4x4_x_m1024_n512_bf16_1_alg».proof.Proof.Run3

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

variable (m : (ℓ : Loc nD τ sig) → Buf (Elt F) ℓ) (ρ : Dev nD → PrngReg)

theorem sound_body (K : Dev nD × CK → ℕ) (c : Dev nD) (W : Waits sig Unit) (f0 : Buf (Elt F) ((c : Thread nD τ).loc cc0_scratch0)) (f1 : Buf (Elt F) ((c : Thread nD τ).loc cc0_scratch1)) (f2 : Buf (Elt F) ((c : Thread nD τ).loc cc0_scratch2)) (f3 : Buf (Elt F) ((c : Thread nD τ).loc cc0_scratch3)) (f4 : Buf (Elt F) ((c : Thread nD τ).loc cc0_scratch4)) (f5 : Buf (Elt F) ((c : Thread nD τ).loc cc0_scratch5)) (f6 : Buf (Elt F) ((c : Thread nD τ).loc cc0_scratch6)) (f7 : Buf (Elt F) ((c : Thread nD τ).loc cc0_scratch7)) (f8 : Buf (Elt F) ((c : Thread nD τ).loc cc0_scratch8)) :
    bodyPre m ρ K c W f0 f1 f2 f3 f4 f5 f6 f7 f8
      ⊢ wp frame (wpE (defs₀ (F := F)) 𝒱₀ (c : Thread nD τ) none) Set.univ (bodyAt0 (F := F) t0_0) (fun _ => bodyPost m ρ c) :=
  sound_body_of m ρ (run1 m ρ) (run2 m ρ) (run3 m ρ) K c W f0 f1 f2 f3 f4 f5 f6 f7 f8

theorem body_obligation (c : Dev nD) : BodyObligation (dats (F := F) m ρ 0 c) (defs₀ (F := F)) 𝒱₀ () Set.univ :=
  body_obligation_of m ρ (sound_body m ρ) c

/-- info: 'Cert.KernelIdeal.RS.body_obligation' depends on axioms: [propext, Classical.choice, Quot.sound] -/
#guard_msgs in #print axioms body_obligation

end Cert.KernelIdeal.RS

end
-- ==== Proof.RunMain.lean ====
import proofs.«901040_g7700000000001041_dist_rs_v7x_xyz2x4x4_x_m1024_n512_bf16_1_alg».proof.Proof.RunPre
import proofs.«901040_g7700000000001041_dist_rs_v7x_xyz2x4x4_x_m1024_n512_bf16_1_alg».proof.Proof.Body

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem run_main : θ_run defs (onTc (τ := τ) (main (F := F))) (s₀ m ρ) (fun r => ∀ c : Dev nD,
    r.2.mem ((c.tc : Thread nD τ).loc main_v1) = outV m ρ c ∧ r.2.mem ((c.tc : Thread nD τ).loc main_arg0) = m ((c.tc : Thread nD τ).loc main_arg0)) :=
  run_main_of m ρ (body_obligation m ρ)

/-- info: 'Cert.KernelIdeal.RS.run_main' depends on axioms: [propext, Classical.choice, Quot.sound] -/
#guard_msgs in #print axioms run_main

end Cert.KernelIdeal.RS

end
-- ==== Proof.Value.lean ====
import proofs.«901040_g7700000000001041_dist_rs_v7x_xyz2x4x4_x_m1024_n512_bf16_1_alg».proof.Proof.Proto
import proofs.«901040_g7700000000001041_dist_rs_v7x_xyz2x4x4_x_m1024_n512_bf16_1_alg».proof.Proof.Devices
import proofs.«901040_g7700000000001041_dist_rs_v7x_xyz2x4x4_x_m1024_n512_bf16_1_alg».proof.Proof.RefValue
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RS

open Cert.KernelIdeal Cert.KernelIdeal.Gen
open Idealize.ShloMosaic
open Idealize.ShloMosaic.TcCoe
open Idealize.SL.Sem
open Idealize.ShloMosaic.ValueIdx

variable (m : (ℓ : Loc nD τ sig) → Buf (Elt Ideal) ℓ) (ρ : Dev nD → PrngReg)

theorem cast_apply (v : Vec Ideal S1x128x256 .f32)
    (h1 : S1x128x256.ShapeCasts S128x256) (h2 : FTy.bits .bf16 < FTy.bits .f32) (h3 : S128x256.ShapeCasts S1x128x256)
    (u : Fin 1) (r : Fin 128) (q : Fin 256) :
    shapeCast S1x128x256 (truncf (F := Ideal) .bf16 (shapeCast S128x256 v h1) h2) h3 (ix3 u r q)
      = v (ix3 (0 : Fin 1) r q) := by
  refine (shapeCast_ab_1ab_apply _ _ u r q).trans ?_
  exact shapeCast_1ab_ab_apply v _ r q

theorem payS_apply (k : Fin 7) (v : Vec Ideal S1x128x256 .f32) (u : Fin 1) (r : Fin 128) (q : Fin 256) :
    payS (F := Ideal) k v (ix3 u r q) = v (ix3 (0 : Fin 1) r q) := by
  match k with
  | 0 | 1 | 2 | 3 | 4 | 5 | 6 => exact cast_apply v shapeCasts_S1x128x256_S128x256 bitsLt_bf16_f32 shapeCasts_S128x256_S1x128x256 u r q

theorem sum_apply (a : Vec Ideal S128x256 .f32) (b : Vec Ideal S1x128x256 .bf16)
    (h1 : S1x128x256.ShapeCasts S128x256) (h2 : FTy.bits .bf16 < FTy.bits .f32) (h3 : S128x256.ShapeCasts S1x128x256)
    (u : Fin 1) (r : Fin 128) (q : Fin 256) :
    shapeCast S1x128x256 (addf (F := Ideal) a (extf .f32 (shapeCast S128x256 b h1) h2)) h3 (ix3 u r q)
      = a (ix2 r q) + b (ix3 (0 : Fin 1) r q) := by
  refine (shapeCast_ab_1ab_apply _ _ u r q).trans ?_
  exact congrArg (fun t => a (ix2 r q) + t) (shapeCast_1ab_ab_apply b _ r q)

theorem payA_apply (k : Fin 7) (a : Vec Ideal S128x256 .f32) (b : Vec Ideal S1x128x256 .bf16) (u : Fin 1) (r : Fin 128) (q : Fin 256) :
    payA (F := Ideal) k a b (ix3 u r q) = a (ix2 r q) + b (ix3 (0 : Fin 1) r q) := by
  match k with
  | 0 | 1 | 2 | 3 | 4 | 5 | 6 => exact sum_apply a b _ _ _ u r q
theorem payB_apply (k : Fin 7) (a : Vec Ideal S128x256 .f32) (b : Vec Ideal S1x128x256 .bf16) (u : Fin 1) (r : Fin 128) (q : Fin 256) :
    payB (F := Ideal) k a b (ix3 u r q) = a (ix2 r q) + b (ix3 (0 : Fin 1) r q) := by
  match k with
  | 0 | 1 | 2 | 3 | 4 | 5 | 6 => exact sum_apply a b _ _ _ u r q
theorem payC_apply (k : Fin 7) (a : Vec Ideal S128x256 .f32) (b : Vec Ideal S1x128x256 .bf16) (u : Fin 1) (r : Fin 128) (q : Fin 256) :
    payC (F := Ideal) k a b (ix3 u r q) = a (ix2 r q) + b (ix3 (0 : Fin 1) r q) := by
  match k with
  | 0 | 1 | 2 | 3 | 4 | 5 | 6 => exact sum_apply a b _ _ _ u r q
theorem payD_apply (k : Fin 7) (a : Vec Ideal S128x256 .f32) (b : Vec Ideal S1x128x256 .bf16) (u : Fin 1) (r : Fin 128) (q : Fin 256) :
    payD (F := Ideal) k a b (ix3 u r q) = a (ix2 r q) + b (ix3 (0 : Fin 1) r q) := by
  match k with
  | 0 | 1 | 2 | 3 | 4 | 5 | 6 => exact sum_apply a b _ _ _ u r q

theorem pay9_apply (v : Vec Ideal S128x512 .f32) (r : Fin 128) (q : Fin 512) :
    k0_pay9 (F := Ideal) v (ix2 r q) = v (ix2 r q) := by
  unfold k0_pay9
  rw [shapeCast_self]
  rfl

theorem pay38_apply (a : Vec Ideal S128x512 .f32) (b : Vec Ideal S128x512 .bf16) (u : Fin 1) (r : Fin 128) (q : Fin 512) :
    k0_pay38 (F := Ideal) a b (ix3 u r q) = a (ix2 r q) + b (ix2 r q) := by
  unfold k0_pay38
  exact shapeCast_ab_1ab_apply (addf (F := Ideal) a (extf .f32 b bitsLt_bf16_f32)) _ u r q

section Reads
variable {κ : Kind} {Val : EltTy → Type}

theorem read_slice_whole_apply (b : Ref sig κ) (R : Rect b.ty.shape) (f : b.ty.Contents Val) (x : R.shape.Idx)
    (i : b.ty.shape.Idx) (hi : ∀ a, (i a).val = R.off a + R.stride a * (x a).val) :
    ((View.whole b).slice R).read Val f x = f i :=
  congrArg f (funext fun a => Fin.ext (hi a).symm)

theorem read_squeeze_slice_whole_apply (b : Ref sig κ) (R : Rect b.ty.shape) (s' : Shape) (hn : s'.numel = R.shape.numel)
    (f : b.ty.Contents Val) (x : s'.Idx) (y : R.shape.Idx) (hy : (R.shape.rowMajor y).val = (s'.rowMajor x).val)
    (i : b.ty.shape.Idx) (hi : ∀ a, (i a).val = R.off a + R.stride a * (y a).val) :
    (((View.whole b).slice R).reshape s' hn).read Val f x = f i := by
  have e : Shape.reshapeEquiv hn x = y := Shape.reshapeEquiv_eq_of_rowMajor hn hy
  show f (R.emb (Shape.reshapeEquiv hn x)) = f i
  rw [e]
  exact congrArg f (funext fun a => Fin.ext (hi a).symm)

theorem readAt_whole_apply (b : Ref sig κ) (R : LoadRect b.ty.shape) (f : b.ty.Contents Val) (x : R.shape.Idx)
    (i : b.ty.shape.Idx) (hi : ∀ a, (i a).val = R.off a + R.stride a * (x a).val) :
    (View.whole b).readAt Val R f x = f i :=
  congrArg f (funext fun a => Fin.ext (hi a).symm)

end Reads

theorem offS_eq (k : Fin 7) (c : Dev nD) : offS k c = ![0, 128 * k.val, (512 - 512 * mx c) + 256 * hb c] := by
  match k with
  | 0 => exact off2_eq c
  | 1 => exact off3_eq c
  | 2 => exact off4_eq c
  | 3 => exact off5_eq c
  | 4 => exact off6_eq c
  | 5 => exact off7_eq c
  | 6 => exact off8_eq c

theorem stageL_apply (k : Fin 7) (c : Dev nD) (r : Fin 128) (q : Fin 256) (i : S1x1024x1024.Idx)
    (h0 : (i 0).val = 0) (h1 : (i 1).val = 128 * k.val + r.val)
    (h2 : (i 2).val = (512 - 512 * mx c) + 256 * hb c + q.val) :
    stageL (F := Ideal) m ρ k c (ix3 (0 : Fin 1) r q) = X m ρ c i := by
  unfold stageL
  refine read_slice_whole_apply main_arg0 (Rect.unit (s := S1x1024x1024) (offS k c) S1x128x256.size (offS_inb k c)) (X m ρ c) (ix3 (0 : Fin 1) r q) i ?_
  have e := offS_eq k c
  intro a
  match a with
  | ⟨0, _⟩ =>
    have e0 : offS k c 0 = 0 := congrFun e 0
    show (i 0).val = offS k c 0 + 1 * 0
    omega
  | ⟨1, _⟩ =>
    have e1 : offS k c 1 = 128 * k.val := congrFun e 1
    show (i 1).val = offS k c 1 + 1 * r.val
    omega
  | ⟨2, _⟩ =>
    have e2 : offS k c 2 = (512 - 512 * mx c) + 256 * hb c := congrFun e 2
    show (i 2).val = offS k c 2 + 1 * q.val
    omega

theorem low3_ix3 (k : Fin 7) (r : Fin 128) (q : Fin 256) : low3 (ix3 k r q) = ix3 (0 : Fin 1) r q := by
  funext a
  match a with
  | ⟨0, _⟩ => rfl
  | ⟨1, _⟩ => rfl
  | ⟨2, _⟩ => rfl

theorem xsndB_apply (c : Dev nD) (k : Fin 7) (r : Fin 128) (q : Fin 256) (i : S1x1024x1024.Idx)
    (h0 : (i 0).val = 0) (h1 : (i 1).val = 128 * k.val + r.val)
    (h2 : (i 2).val = (512 - 512 * mx c) + 256 * hb c + q.val) :
    xsndB (F := Ideal) m ρ c (ix3 k r q) = X m ρ c i := by
  show payS k (stageL m ρ k c) (low3 (ix3 k r q)) = X m ρ c i
  rw [low3_ix3, payS_apply]
  exact stageL_apply m ρ k c r q i h0 h1 h2

abbrev XI (c : Dev nD) : S1x1024x1024.Idx → EReal := X (F := Ideal) m ρ c

theorem mineB_apply (c : Dev nD) (p : Fin 1024) (t : Fin 512) (i : S1x1024x1024.Idx)
    (h0 : (i 0).val = 0) (h1 : (i 1).val = p.val) (h2 : (i 2).val = 512 * mx c + t.val) :
    mineB (F := Ideal) m ρ c (ix2 p t) = X m ρ c i := by
  unfold mineB
  refine read_squeeze_slice_whole_apply main_arg0 (Rect.unit (s := S1x1024x1024) (k0_off1 c) S1x1024x512.size (k0_off1_inb c))
    S1024x512 _ (X m ρ c) (ix2 p t) (ix3 (0 : Fin 1) p t) ?_ i ?_
  · show ((⟨3, ![1, 1024, 512]⟩ : Shape).rowMajor (ix3 (0 : Fin 1) p t)).val = ((⟨2, ![1024, 512]⟩ : Shape).rowMajor (ix2 p t)).val
    rw [Shape.rowMajor_val_three, Shape.rowMajor_val_two]
    show (0 * 1024 + p.val) * 512 + t.val = p.val * 512 + t.val
    omega
  · have e := off1_eq c
    intro a
    match a with
    | ⟨0, _⟩ =>
      have e0 : k0_off1 c 0 = 0 := congrFun e 0
      show (i 0).val = k0_off1 c 0 + 1 * 0
      omega
    | ⟨1, _⟩ =>
      have e1 : k0_off1 c 1 = 0 := congrFun e 1
      show (i 1).val = k0_off1 c 1 + 1 * p.val
      omega
    | ⟨2, _⟩ =>
      have e2 : k0_off1 c 2 = 512 * mx c := congrFun e 2
      show (i 2).val = k0_off1 c 2 + 1 * t.val
      omega

theorem dstageL_apply (c : Dev nD) (r : Fin 128) (q : Fin 512) (i : S1x1024x1024.Idx)
    (h0 : (i 0).val = 0) (h1 : (i 1).val = 896 + r.val) (h2 : (i 2).val = (512 - 512 * mx c) + q.val) :
    dstageL (F := Ideal) m ρ c (ix2 r q) = X m ρ c i := by
  unfold dstageL
  refine read_squeeze_slice_whole_apply main_arg0 (Rect.unit (s := S1x1024x1024) (k0_off9 c) S1x128x512.size (k0_off9_inb c))
    S128x512 _ (X m ρ c) (ix2 r q) (ix3 (0 : Fin 1) r q) ?_ i ?_
  · show ((⟨3, ![1, 128, 512]⟩ : Shape).rowMajor (ix3 (0 : Fin 1) r q)).val = ((⟨2, ![128, 512]⟩ : Shape).rowMajor (ix2 r q)).val
    rw [Shape.rowMajor_val_three, Shape.rowMajor_val_two]
    show (0 * 128 + r.val) * 512 + q.val = r.val * 512 + q.val
    omega
  · have e := off9_eq c
    intro a
    match a with
    | ⟨0, _⟩ =>
      have e0 : k0_off9 c 0 = 0 := congrFun e 0
      show (i 0).val = k0_off9 c 0 + 1 * 0
      omega
    | ⟨1, _⟩ =>
      have e1 : k0_off9 c 1 = 896 := congrFun e 1
      show (i 1).val = k0_off9 c 1 + 1 * r.val
      omega
    | ⟨2, _⟩ =>
      have e2 : k0_off9 c 2 = 512 - 512 * mx c := congrFun e 2
      show (i 2).val = k0_off9 c 2 + 1 * q.val
      omega

theorem mineBlk_apply (c : Dev nD) (k : Fin 7) (j : Fin 2) (r : Fin 128) (q : Fin 256) (i : S1x1024x1024.Idx)
    (h0 : (i 0).val = 0) (h1 : (i 1).val = 128 * k.val + r.val) (h2 : (i 2).val = 512 * mx c + 256 * j.val + q.val) :
    mineBlk (F := Ideal) m ρ c k j (ix2 r q) = X m ρ c i := by
  have hk := k.isLt
  have hj := j.isLt
  have hr := r.isLt
  have hq := q.isLt
  have hp : 128 * k.val + r.val < 1024 := by omega
  have ht : 256 * j.val + q.val < 512 := by omega
  unfold mineBlk
  refine (readAt_whole_apply cc0_scratch2 (Rect.unit (s := S1024x512) ![128 * k.val, 256 * j.val] S128x256.size (inbM k j)).toLoadRect
    (mineB m ρ c) (ix2 r q) (ix2 (⟨128 * k.val + r.val, hp⟩ : Fin 1024) (⟨256 * j.val + q.val, ht⟩ : Fin 512)) ?_).trans ?_
  · intro a
    match a with
    | ⟨0, _⟩ => show 128 * k.val + r.val = 128 * k.val + 1 * r.val; omega
    | ⟨1, _⟩ => show 256 * j.val + q.val = 256 * j.val + 1 * q.val; omega
  · refine mineB_apply m ρ c _ _ i h0 h1 ?_
    show (i 2).val = 512 * mx c + (256 * j.val + q.val)
    omega

theorem xrcvBlk_apply (c : Dev nD) (k : Fin 7) (r : Fin 128) (q : Fin 256) (i : S1x1024x1024.Idx)
    (h0 : (i 0).val = 0) (h1 : (i 1).val = 128 * k.val + r.val) (h2 : (i 2).val = 512 * mx c + 256 * hb c + q.val) :
    xrcvBlk (F := Ideal) m ρ c k (ix3 (0 : Fin 1) r q) = X m ρ (xp c) i := by
  unfold xrcvBlk
  refine (readAt_whole_apply cc0_scratch6 (Rect.unit (s := S7x128x256) ![k.val, 0, 0] S1x128x256.size (inb7 k)).toLoadRect
    (xrcvB m ρ c) (ix3 (0 : Fin 1) r q) (ix3 k r q) ?_).trans ?_
  · intro a
    match a with
    | ⟨0, _⟩ => show k.val = k.val + 1 * 0; omega
    | ⟨1, _⟩ => show r.val = 0 + 1 * r.val; omega
    | ⟨2, _⟩ => show q.val = 0 + 1 * q.val; omega
  · show xsndB m ρ (xp c) (ix3 k r q) = _
    refine xsndB_apply m ρ (xp c) k r q i h0 h1 ?_
    rw [mx_xp, hb_xp]
    have := mx_lt c
    omega

theorem frcvBlk_apply (c : Dev nD) (k : Fin 7) (r : Fin 128) (q : Fin 256) (i : S1x1024x1024.Idx)
    (h0 : (i 0).val = 0) (h1 : (i 1).val = 128 * k.val + r.val) (h2 : (i 2).val = 512 * mx c + 256 * (1 - hb c) + q.val) :
    frcvBlk (F := Ideal) m ρ c k (ix3 (0 : Fin 1) r q) = X m ρ (xp (yp c)) i := by
  unfold frcvBlk
  refine (readAt_whole_apply cc0_scratch8 (Rect.unit (s := S7x128x256) ![k.val, 0, 0] S1x128x256.size (inb7 k)).toLoadRect
    (frcvB m ρ c) (ix3 (0 : Fin 1) r q) (ix3 k r q) ?_).trans ?_
  · intro a
    match a with
    | ⟨0, _⟩ => show k.val = k.val + 1 * 0; omega
    | ⟨1, _⟩ => show r.val = 0 + 1 * r.val; omega
    | ⟨2, _⟩ => show q.val = 0 + 1 * q.val; omega
  · show xsndB m ρ (xp (yp c)) (ix3 k r q) = _
    refine xsndB_apply m ρ (xp (yp c)) k r q i h0 h1 ?_
    rw [mx_xp, hb_xp, mx_yp, hb_yp]
    have := mx_lt c
    omega

theorem lastRow_apply (c : Dev nD) (u : Fin 1) (r : Fin 128) (q : Fin 512) (i : S1x1024x1024.Idx)
    (h0 : (i 0).val = 0) (h1 : (i 1).val = 896 + r.val) (h2 : (i 2).val = 512 * mx c + q.val) :
    lastRow (F := Ideal) m ρ c (ix3 u r q) = XI m ρ c i + XI m ρ (xp c) i := by
  have hr := r.isLt
  have hp : 896 + r.val < 1024 := by omega
  unfold lastRow
  rw [pay38_apply]
  refine congrArg₂ (· + ·) ?_ ?_
  · refine (readAt_whole_apply cc0_scratch2 (Rect.unit (s := S1024x512) ![896, 0] S128x512.size inb_S1024x512_S128x512_896_0).toLoadRect
      (mineB m ρ c) (ix2 r q) (ix2 (⟨896 + r.val, hp⟩ : Fin 1024) q) ?_).trans ?_
    · intro a
      match a with
      | ⟨0, _⟩ => show 896 + r.val = 896 + 1 * r.val; omega
      | ⟨1, _⟩ => show q.val = 0 + 1 * q.val; omega
    · exact mineB_apply m ρ c _ _ i h0 h1 h2
  · refine (readAt_whole_apply cc0_scratch7 (Rect.unit (s := S128x512) ![0, 0] S128x512.size inb_S128x512_S128x512_0_0).toLoadRect
      (drcvB m ρ c) (ix2 r q) (ix2 r q) ?_).trans ?_
    · intro a
      match a with
      | ⟨0, _⟩ => show r.val = 0 + 1 * r.val; omega
      | ⟨1, _⟩ => show q.val = 0 + 1 * q.val; omega
    · show k0_pay9 (dstageL m ρ (xp c)) (ix2 r q) = _
      rw [pay9_apply]
      refine dstageL_apply m ρ (xp c) r q i h0 h1 ?_
      rw [mx_xp]
      have := mx_lt c
      omega

theorem X_rep (hrep : Cert.RefValue.Replicated m) (a b : Dev nD) (h : mx a = mx b) (i : S1x1024x1024.Idx) :
    (X (F := Ideal) m ρ a i : EReal) = X m ρ b i :=
  congrFun (hrep a b h) i

theorem idxOut_ix2 (p : Fin 1024) (t : Fin 512) :
    idxOut (ix2 p t) = ix3 (⟨p.val / 128, by have := p.isLt; omega⟩ : Fin 8) (⟨p.val % 128, Nat.mod_lt _ (by decide)⟩ : Fin 128) t := by
  funext a
  match a with
  | ⟨0, _⟩ => rfl
  | ⟨1, _⟩ => rfl
  | ⟨2, _⟩ => rfl

theorem idxLo_ix3 (k : Fin 8) (r : Fin 128) (t : Fin 512) (h : ((ix3 k r t : S8x128x512.Idx) 2).val < 256) :
    idxLo (ix3 k r t) h = ix3 (0 : Fin 1) r (⟨t.val, h⟩ : Fin 256) := by
  funext a
  match a with
  | ⟨0, _⟩ => rfl
  | ⟨1, _⟩ => rfl
  | ⟨2, _⟩ => rfl

theorem idxHi_ix3 (k : Fin 8) (r : Fin 128) (t : Fin 512) (h : 256 ≤ ((ix3 k r t : S8x128x512.Idx) 2).val) :
    idxHi (ix3 k r t) h = ix3 (0 : Fin 1) r (⟨t.val - 256, by have := t.isLt; omega⟩ : Fin 256) := by
  funext a
  match a with
  | ⟨0, _⟩ => rfl
  | ⟨1, _⟩ => rfl
  | ⟨2, _⟩ => rfl

theorem idxRow_ix3 (k : Fin 8) (r : Fin 128) (t : Fin 512) : idxRow (ix3 k r t) = ix3 (0 : Fin 1) r t := by
  funext a
  match a with
  | ⟨0, _⟩ => rfl
  | ⟨1, _⟩ => rfl
  | ⟨2, _⟩ => rfl

theorem lowHalf_apply (hrep : Cert.RefValue.Replicated m) (c : Dev nD) (k : Fin 7) (r : Fin 128) (q : Fin 256) (i : S1x1024x1024.Idx)
    (h0 : (i 0).val = 0) (h1 : (i 1).val = 128 * k.val + r.val) (h2 : (i 2).val = 512 * mx c + q.val) :
    lowHalf (F := Ideal) m ρ c k (ix3 (0 : Fin 1) r q) = XI m ρ c i + XI m ρ (xp c) i := by
  unfold lowHalf
  rcases hb_cases c with h | h
  · rw [if_pos h, payA_apply]
    refine congrArg₂ (· + ·) (mineBlk_apply m ρ c k 0 r q i h0 h1 ?_) (xrcvBlk_apply m ρ c k r q i h0 h1 ?_)
    · show (i 2).val = 512 * mx c + 256 * 0 + q.val
      omega
    · rw [h]; omega
  · rw [if_neg (by omega), payD_apply]
    refine congrArg₂ (· + ·) (mineBlk_apply m ρ c k 0 r q i h0 h1 ?_) ((frcvBlk_apply m ρ c k r q i h0 h1 ?_).trans ?_)
    · show (i 2).val = 512 * mx c + 256 * 0 + q.val
      omega
    · rw [h]; omega
    · exact X_rep m ρ hrep _ _ (by rw [mx_xp, mx_yp, mx_xp]) i

theorem highHalf_apply (hrep : Cert.RefValue.Replicated m) (c : Dev nD) (k : Fin 7) (r : Fin 128) (q : Fin 256) (i : S1x1024x1024.Idx)
    (h0 : (i 0).val = 0) (h1 : (i 1).val = 128 * k.val + r.val) (h2 : (i 2).val = 512 * mx c + 256 + q.val) :
    highHalf (F := Ideal) m ρ c k (ix3 (0 : Fin 1) r q) = XI m ρ c i + XI m ρ (xp c) i := by
  unfold highHalf
  rcases hb_cases c with h | h
  · rw [if_pos h, payC_apply]
    refine congrArg₂ (· + ·) (mineBlk_apply m ρ c k 1 r q i h0 h1 ?_) ((frcvBlk_apply m ρ c k r q i h0 h1 ?_).trans ?_)
    · show (i 2).val = 512 * mx c + 256 * 1 + q.val
      omega
    · rw [h]; omega
    · exact X_rep m ρ hrep _ _ (by rw [mx_xp, mx_yp, mx_xp]) i
  · rw [if_neg (by omega), payB_apply]
    refine congrArg₂ (· + ·) (mineBlk_apply m ρ c k 1 r q i h0 h1 ?_) (xrcvBlk_apply m ρ c k r q i h0 h1 ?_)
    · show (i 2).val = 512 * mx c + 256 * 1 + q.val
      omega
    · rw [h]; omega

-- Every entry of the result is the sum of the two blocks of the input at the device's own columns.
theorem outV_apply (hrep : Cert.RefValue.Replicated m) (c : Dev nD) (p : Fin 1024) (t : Fin 512) (i : S1x1024x1024.Idx)
    (h0 : (i 0).val = 0) (h1 : (i 1).val = p.val) (h2 : (i 2).val = 512 * mx c + t.val) :
    outV (F := Ideal) m ρ c (ix2 p t) = XI m ρ c i + XI m ρ (xp c) i := by
  have hp := p.isLt
  have ht := t.isLt
  show obufB m ρ c (idxOut (ix2 p t)) = _
  rw [idxOut_ix2]
  unfold obufB
  show dite _ _ _ = _
  split
  next h7 =>
    split
    next hlo =>
      rw [idxLo_ix3]
      refine lowHalf_apply m ρ hrep c _ _ _ i h0 ?_ ?_
      · show (i 1).val = 128 * (p.val / 128) + p.val % 128
        omega
      · exact h2
    next hhi =>
      have hhi' : 256 ≤ t.val := Nat.le_of_not_lt hhi
      rw [idxHi_ix3]
      refine highHalf_apply m ρ hrep c _ _ _ i h0 ?_ ?_
      · show (i 1).val = 128 * (p.val / 128) + p.val % 128
        omega
      · show (i 2).val = 512 * mx c + 256 + (t.val - 256)
        omega
  next h7 =>
    have h7' : ¬ p.val / 128 < 7 := h7
    rw [idxRow_ix3]
    refine lastRow_apply m ρ c _ _ _ i h0 ?_ h2
    show (i 1).val = 896 + p.val % 128
    omega

theorem outV_eq (m : (ℓ : Loc nD τ sig) → Buf (Elt Ideal) ℓ) (ρ : Dev nD → PrngReg) (hrep : Cert.RefValue.Replicated m) (c : Dev nD) :
    outV (F := Ideal) m ρ c
      = Cert.RefValue.outG (c.val / 16) (m ((c.tc : Thread nD τ).loc main_arg0)) (m (((Cert.RefValue.xp c).tc : Thread nD τ).loc main_arg0)) := by
  funext j
  obtain ⟨p, t, rfl⟩ : ∃ (p : Fin 1024) (t : Fin 512), j = ix2 p t := ⟨j 0, j 1, eq_ix2 j⟩
  rw [Cert.RefValue.outG_apply]
  obtain ⟨e0, e1, e2⟩ := Cert.RefValue.outIdx_val c (ix2 p t)
  exact outV_apply m ρ hrep c p t (Cert.RefValue.outIdx (c.val / 16) (ix2 p t)) e0 e1 e2

/-- info: 'Cert.KernelIdeal.RS.outV_eq' depends on axioms: [propext, Classical.choice, Quot.sound] -/
#guard_msgs in #print axioms outV_eq

end Cert.KernelIdeal.RS

end
-- ==== Proof.lean ====
/-
  Reduce-scatter of whole : [2, 1024, 1024] over the first axis of the mesh [2, 4, 4] against the sum over that axis.
  One run of the kernel, proved for any float instance, gives all three kernel claims: the idealization rewrote
  nothing, so the word-level program and the idealized one are the same term, and the first frame is that run
  read at the word-level instance.
-/
import proofs.«901040_g7700000000001041_dist_rs_v7x_xyz2x4x4_x_m1024_n512_bf16_1_alg».proof.Defs
import proofs.«901040_g7700000000001041_dist_rs_v7x_xyz2x4x4_x_m1024_n512_bf16_1_alg».proof.Proof.Gen.Kernel
import proofs.«901040_g7700000000001041_dist_rs_v7x_xyz2x4x4_x_m1024_n512_bf16_1_alg».proof.Proof.Gen.KernelIdeal
import proofs.«901040_g7700000000001041_dist_rs_v7x_xyz2x4x4_x_m1024_n512_bf16_1_alg».proof.Proof.Gen.ReferenceIdeal
import proofs.«901040_g7700000000001041_dist_rs_v7x_xyz2x4x4_x_m1024_n512_bf16_1_alg».proof.Proof.Gen.Pre_finite_inputs_Kernel
import proofs.«901040_g7700000000001041_dist_rs_v7x_xyz2x4x4_x_m1024_n512_bf16_1_alg».proof.Proof.Gen.Pre_finite_inputs_ReferenceIdeal
import proofs.«901040_g7700000000001041_dist_rs_v7x_xyz2x4x4_x_m1024_n512_bf16_1_alg».proof.Proof.RefValue
import proofs.«901040_g7700000000001041_dist_rs_v7x_xyz2x4x4_x_m1024_n512_bf16_1_alg».proof.Proof.RunMain
import proofs.«901040_g7700000000001041_dist_rs_v7x_xyz2x4x4_x_m1024_n512_bf16_1_alg».proof.Proof.Value

noncomputable section

namespace Cert.Proof

open Idealize.ShloMosaic Idealize.SL.Sem

-- `Cert.Kernel` and `Cert.KernelIdeal` unfold to the same program, so the generic run serves at `Bits`.
theorem frame_p : Cert.frame_Kernel (hKernel := Cert.Kernel.Gen.facts) (hPre_finite_inputs_Kernel := Cert.Pre_finite_inputs_Kernel.Gen.facts) :=
  fun m ρ _ => (θ_run _ _ _).mono (fun _ h c => (h c).2) (Cert.KernelIdeal.RS.run_main (F := Bits) m ρ)

theorem frame_pi : Cert.frame_KernelIdeal (hKernelIdeal := Cert.KernelIdeal.Gen.facts) (hPre_finite_inputs_Kernel := Cert.Pre_finite_inputs_Kernel.Gen.facts) :=
  fun m ρ _ => (θ_run _ _ _).mono (fun _ h c => (h c).2) (Cert.KernelIdeal.RS.run_main (F := Ideal) m ρ)

-- The run's named result is the device's block of the sum once the argument buffers are blocks of one array.
theorem algebraic : Cert.algebraic_KernelIdeal_ReferenceIdeal (hKernelIdeal := Cert.KernelIdeal.Gen.facts) (hReferenceIdeal := Cert.ReferenceIdeal.Gen.facts) (hPre_finite_inputs_Kernel := Cert.Pre_finite_inputs_Kernel.Gen.facts) :=
  Cert.RefValue.algebraic_of_run fun m ρ hrep =>
    (θ_run _ _ _).mono (fun _ h c => ⟨(h c).1.trans (Cert.KernelIdeal.RS.outV_eq m ρ hrep c), (h c).2⟩) (Cert.KernelIdeal.RS.run_main (F := Ideal) m ρ)

theorem claim : Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    frame_p, frame_pi, Cert.RefValue.frame_ri, trivial, algebraic⟩

end Cert.Proof

end
